-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v210)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v210) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S3200000x7 : Shape := ⟨2, ![3200000, 7]⟩
abbrev S100000 : Shape := ⟨1, ![100000]⟩
abbrev S5x2x16 : Shape := ⟨3, ![5, 2, 16]⟩
abbrev S16 : Shape := ⟨1, ![16]⟩
abbrev S2x5x16x16 : Shape := ⟨4, ![2, 5, 16, 16]⟩
abbrev S2x16 : Shape := ⟨2, ![2, 16]⟩
abbrev S16x1 : Shape := ⟨2, ![16, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S3200000x7 : S_.BroadcastsInDim S3200000x7 (![] : Fin 0 → Fin S3200000x7.rank)
  reducesTo_S3200000x7_S_d0_1 : S3200000x7.ReducesTo [0, 1] S_
  bcast_S_S5x2x16 : S_.BroadcastsInDim S5x2x16 (![] : Fin 0 → Fin S5x2x16.rank)
  reducesTo_S5x2x16_S_d0_1_2 : S5x2x16.ReducesTo [0, 1, 2] S_
  bcast_S_S16 : S_.BroadcastsInDim S16 (![] : Fin 0 → Fin S16.rank)
  reducesTo_S16_S_d0 : S16.ReducesTo [0] S_
  bcast_S_S2x5x16x16 : S_.BroadcastsInDim S2x5x16x16 (![] : Fin 0 → Fin S2x5x16x16.rank)
  reducesTo_S2x5x16x16_S_d0_1_2_3 : S2x5x16x16.ReducesTo [0, 1, 2, 3] S_
  bcast_S_S2x16 : S_.BroadcastsInDim S2x16 (![] : Fin 0 → Fin S2x16.rank)
  reducesTo_S2x16_S_d0_1 : S2x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S2x5x16x16 .f32) (main_arg7 : FVec F S2x16 .f32) (main_arg8 : FVec F S16x1 .f32) (main_arg9 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2x5x16x16 .f32 := Host.absf main_arg6
  let main_cst_6 : FVec F S_ .f32 := constant S_ .f32 0x7F800000#32
  let main_v20 : FVec F S2x5x16x16 .f32 := broadcastInDim S2x5x16x16 ![] bcast_S_S2x5x16x16 main_cst_6
  let main_v21 : IVec S2x5x16x16 1 := cmpf .olt main_v19 main_v20
  let main_c_7 : IVec S_ 1 := constantI S_ 1 1#1
  let main_v22 : IVec S_ 1 := (fun x v => Host.reduce IntOp.andi x v reducesTo_S2x5x16x16_S_d0_1_2_3 h_S_) main_v21 main_c_7
  let main_v23 : IVec S_ 1 := andi main_v18 main_v22
  let main_v24 : FVec F S2x16 .f32 := Host.absf main_arg7
  let main_cst_8 : FVec F S_ .f32 := constant S_ .f32 0x7F800000#32
  let main_v25 : FVec F S2x16 .f32 := broadcastInDim S2x16 ![] bcast_S_S2x16 main_cst_8
  let main_v26 : IVec S2x16 1 := cmpf .olt main_v24 main_v25
  let main_c_9 : IVec S_ 1 := constantI S_ 1 1#1
  let main_v27 : IVec S_ 1 := (fun x v => Host.reduce IntOp.andi x v reducesTo_S2x16_S_d0_1 h_S_) main_v26 main_c_9
  let main_v28 : IVec S_ 1 := andi main_v23 main_v27
  let main_v29 : FVec F S16x1 .f32 := Host.absf main_arg8
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg9 main_v33

def fn {F : FTy → Type} [FloatOps F] (main_arg0 : FVec F S100000x2 .f32) (main_arg1 : IVec S2x3200000 32) (main_arg2 : FVec F S3200000x7 .f32) (main_arg3 : IVec S100000 32) (main_arg4 : FVec F S5x2x16 .f32) (main_arg5 : FVec F S16 .f32) (main_arg6 : FVec F S2x5x16x16 .f32) (main_arg7 : FVec F S2x16 .f32) (main_arg8 : FVec F S16x1 .f32) (main_arg9 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S3200000x7 .f32 := Host.absf main_arg2
  let main_cst_0 : FVec F S_ .f32 := constant S_ .f32 0x7F800000#32
  let main_v5 : FVec F S3200000x7 .f32 := broadcastInDim S3200000x7 ![] bcast_S_S3200000x7 main_cst_0
  let main_v6 : IVec S3200000x7 1 := cmpf .olt main_v4 main_v5
  let main_c_1 : IVec S_ 1 := constantI S_ 1 1#1
  let main_v7 : IVec S_ 1 := (fun x v => Host.reduce IntOp.andi x v reducesTo_S3200000x7_S_d0_1 h_S_) main_v6 main_c_1
  let main_v8 : IVec S_ 1 := andi main_v3 main_v7
  let main_v9 : FVec F S5x2x16 .f32 := Host.absf main_arg4
  let main_cst_2 : FVec F S_ .f32 := constant S_ .f32 0x7F800000#32
  let main_v10 : FVec F S5x2x16 .f32 := broadcastInDim S5x2x16 ![] bcast_S_S5x2x16 main_cst_2
  let main_v11 : IVec S5x2x16 1 := cmpf .olt main_v9 main_v10
  let main_c_3 : IVec S_ 1 := constantI S_ 1 1#1
  let main_v12 : IVec S_ 1 := (fun x v => Host.reduce IntOp.andi x v reducesTo_S5x2x16_S_d0_1_2 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_v13 main_v16
-- ==== Kernel.lean ====
abbrev S100000x2 : Shape := ⟨2, ![100000, 2]⟩
abbrev S2x3200000 : Shape := ⟨2, ![2, 3200000]⟩
abbrev S3200000x7 : Shape := ⟨2, ![3200000, 7]⟩
abbrev S100000 : Shape := ⟨1, ![100000]⟩
abbrev S5x2x16 : Shape := ⟨3, ![5, 2, 16]⟩
abbrev S16 : Shape := ⟨1, ![16]⟩
abbrev S2x5x16x16 : Shape := ⟨4, ![2, 5, 16, 16]⟩
abbrev S2x16 : Shape := ⟨2, ![2, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S3200000x1 : Shape := ⟨2, ![3200000, 1]⟩
abbrev S_ : Shape := ⟨0, ![]⟩
abbrev S3200000x2 : Shape := ⟨2, ![3200000, 2]⟩
abbrev S100000x10 : Shape := ⟨2, ![100000, 10]⟩
abbrev S10x16 : Shape := ⟨2, ![10, 16]⟩
abbrev S1x16 : Shape := ⟨2, ![1, 16]⟩
abbrev S100000x16 : Shape := ⟨2, ![100000, 16]⟩
abbrev S10000x10 : Shape := ⟨2, ![10000, 10]⟩
abbrev S10000x16 : Shape := ⟨2, ![10000, 16]⟩
abbrev S3200000x16 : Shape := ⟨2, ![3200000, 16]⟩
abbrev S100000x80 : Shape := ⟨2, ![100000, 80]⟩
abbrev S1x5x16x16 : Shape := ⟨4, ![1, 5, 16, 16]⟩
abbrev S5x16x16 : Shape := ⟨3, ![5, 16, 16]⟩
abbrev S80x16 : Shape := ⟨2, ![80, 16]⟩
abbrev S10000x80 : Shape := ⟨2, ![10000, 80]⟩
abbrev S100000x1 : Shape := ⟨2, ![100000, 1]⟩
abbrev S1x1 : Shape := ⟨2, ![1, 1]⟩
abbrev S64x1 : Shape := ⟨2, ![64, 1]⟩
abbrev S5000x16 : Shape := ⟨2, ![5000, 16]⟩
abbrev S5000x1 : Shape := ⟨2, ![5000, 1]⟩
abbrev S64x16 : Shape := ⟨2, ![64, 16]⟩
abbrev S5000x64 : Shape := ⟨2, ![5000, 64]⟩

abbrev nBuf : Space → Nat
  | .hbm => 270
  | .vmem => 27
  | .smem => 0
  | _ => 0

abbrev hbmTy0_0 (i : Nat) : BufTy := match i % 128 with
  | 0 => ⟨S100000x2, .f32⟩
  | 1 => ⟨S2x3200000, .i32⟩
  | 2 => ⟨S3200000x7, .f32⟩
  | 3 => ⟨S100000, .i32⟩
  | 4 => ⟨S5x2x16, .f32⟩
  | 5 => ⟨S16, .f32⟩
  | 6 => ⟨S2x5x16x16, .f32⟩
  | 7 => ⟨S2x16, .f32⟩
  | 8 => ⟨S16x1, .f32⟩
  | 9 => ⟨S1, .f32⟩
  | 10 => ⟨S1x3200000, .i32⟩
  | 11 => ⟨S3200000, .i32⟩
  | 12 => ⟨S1x3200000, .i32⟩
  | 13 => ⟨S3200000, .i32⟩
  | 14 => ⟨S3200000x1, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x2, .f32⟩
  | 64 => ⟨S3200000x1, .f32⟩
  | 65 => ⟨S3200000x2, .f32⟩
  | 66 => ⟨S3200000x2, .f32⟩
  | 67 => ⟨S_, .f32⟩
  | 68 => ⟨S100000x2, .f32⟩
  | 69 => ⟨S3200000x1, .i32⟩
  | 70 => ⟨S100000x2, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000x2, .f32⟩
  | 80 => ⟨S3200000x1, .f32⟩
  | 81 => ⟨S3200000x2, .f32⟩
  | 82 => ⟨S3200000x2, .f32⟩
  | 83 => ⟨S_, .f32⟩
  | 84 => ⟨S100000x2, .f32⟩
  | 85 => ⟨S3200000x1, .i32⟩
  | 86 => ⟨S100000x2, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000x2, .f32⟩
  | 96 => ⟨S3200000x1, .f32⟩
  | 97 => ⟨S3200000x2, .f32⟩
  | 98 => ⟨S3200000x2, .f32⟩
  | 99 => ⟨S_, .f32⟩
  | 100 => ⟨S100000x2, .f32⟩
  | 101 => ⟨S3200000x1, .i32⟩
  | 102 => ⟨S100000x2, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000x2, .f32⟩
  | 112 => ⟨S3200000x1, .f32⟩
  | 113 => ⟨S3200000x2, .f32⟩
  | 114 => ⟨S3200000x2, .f32⟩
  | 115 => ⟨S_, .f32⟩
  | 116 => ⟨S100000x2, .f32⟩
  | 117 => ⟨S3200000x1, .i32⟩
  | 118 => ⟨S100000x2, .f32⟩
  | 119 => ⟨S100000x10, .f32⟩
  | 120 => ⟨S10x16, .f32⟩
  | 121 => ⟨S1x16, .f32⟩
  | 122 => ⟨S100000x16, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x2, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x16, .f32⟩
  | 4 => ⟨S3200000x1, .f32⟩
  | 5 => ⟨S3200000x16, .f32⟩
  | 6 => ⟨S3200000x16, .f32⟩
  | 7 => ⟨S_, .f32⟩
  | 8 => ⟨S100000x16, .f32⟩
  | 9 => ⟨S3200000x1, .i32⟩
  | 10 => ⟨S100000x16, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x16, .f32⟩
  | 20 => ⟨S3200000x1, .f32⟩
  | 21 => ⟨S3200000x16, .f32⟩
  | 22 => ⟨S3200000x16, .f32⟩
  | 23 => ⟨S_, .f32⟩
  | 24 => ⟨S100000x16, .f32⟩
  | 25 => ⟨S3200000x1, .i32⟩
  | 26 => ⟨S100000x16, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x16, .f32⟩
  | 36 => ⟨S3200000x1, .f32⟩
  | 37 => ⟨S3200000x16, .f32⟩
  | 38 => ⟨S3200000x16, .f32⟩
  | 39 => ⟨S_, .f32⟩
  | 40 => ⟨S100000x16, .f32⟩
  | 41 => ⟨S3200000x1, .i32⟩
  | 42 => ⟨S100000x16, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x16, .f32⟩
  | 52 => ⟨S3200000x1, .f32⟩
  | 53 => ⟨S3200000x16, .f32⟩
  | 54 => ⟨S3200000x16, .f32⟩
  | 55 => ⟨S_, .f32⟩
  | 56 => ⟨S100000x16, .f32⟩
  | 57 => ⟨S3200000x1, .i32⟩
  | 58 => ⟨S100000x16, .f32⟩
  | 59 => ⟨S100000x80, .f32⟩
  | 60 => ⟨S1x5x16x16, .f32⟩
  | 61 => ⟨S5x16x16, .f32⟩
  | 62 => ⟨S80x16, .f32⟩
  | 63 => ⟨S1x16, .f32⟩
  | 64 => ⟨S16, .f32⟩
  | 65 => ⟨S1x16, .f32⟩
  | 66 => ⟨S100000x16, .f32⟩
  | 67 => ⟨S_, .i32⟩
  | 68 => ⟨S3200000, .i32⟩
  | 69 => ⟨S3200000, .i1⟩
  | 70 => ⟨S_, .i32⟩
  | 71 => ⟨S3200000, .i32⟩
  | 72 => ⟨S3200000, .i32⟩
  | 73 => ⟨S3200000, .i32⟩
  | 74 => ⟨S3200000x1, .i32⟩
  | 75 => ⟨S3200000x16, .f32⟩
  | 76 => ⟨S3200000x1, .f32⟩
  | 77 => ⟨S3200000x16, .f32⟩
  | 78 => ⟨S3200000x16, .f32⟩
  | 79 => ⟨S_, .f32⟩
  | 80 => ⟨S100000x16, .f32⟩
  | 81 => ⟨S3200000x1, .i32⟩
  | 82 => ⟨S100000x16, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000x16, .f32⟩
  | 92 => ⟨S3200000x1, .f32⟩
  | 93 => ⟨S3200000x16, .f32⟩
  | 94 => ⟨S3200000x16, .f32⟩
  | 95 => ⟨S_, .f32⟩
  | 96 => ⟨S100000x16, .f32⟩
  | 97 => ⟨S3200000x1, .i32⟩
  | 98 => ⟨S100000x16, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x16, .f32⟩
  | 108 => ⟨S3200000x1, .f32⟩
  | 109 => ⟨S3200000x16, .f32⟩
  | 110 => ⟨S3200000x16, .f32⟩
  | 111 => ⟨S_, .f32⟩
  | 112 => ⟨S100000x16, .f32⟩
  | 113 => ⟨S3200000x1, .i32⟩
  | 114 => ⟨S100000x16, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x16, .f32⟩
  | 124 => ⟨S3200000x1, .f32⟩
  | 125 => ⟨S3200000x16, .f32⟩
  | 126 => ⟨S3200000x16, .f32⟩
  | 127 => ⟨S_, .f32⟩
  | _ => ⟨S100000x2, .f32⟩

abbrev hbmTy0_2 (i : Nat) : BufTy := match i % 128 with
  | 0 => ⟨S100000x16, .f32⟩
  | 1 => ⟨S3200000x1, .i32⟩
  | 2 => ⟨S100000x16, .f32⟩
  | 3 => ⟨S100000x80, .f32⟩
  | 4 => ⟨S1x5x16x16, .f32⟩
  | 5 => ⟨S5x16x16, .f32⟩
  | 6 => ⟨S80x16, .f32⟩
  | 7 => ⟨S1x16, .f32⟩
  | 8 => ⟨S16, .f32⟩
  | 9 => ⟨S1x16, .f32⟩
  | 10 => ⟨S100000x16, .f32⟩
  | 11 => ⟨S100000x1, .i32⟩
  | 12 => ⟨S1x1, .f32⟩
  | 13 => ⟨S64x1, .f32⟩
  | _ => ⟨S100000x2, .f32⟩

abbrev hbmTy (i : Nat) : BufTy := match i / 128 with
  | 0 => hbmTy0_0 i
  | 1 => hbmTy0_1 i
  | 2 => hbmTy0_2 i
  | _ => ⟨S100000x2, .f32⟩

abbrev bufTy : (tb : Table) → Fin (tcTables nBuf tb) → BufTy
  | .hbm, ⟨i, _⟩ => hbmTy i
  | .local _ .vmem, ⟨0, _⟩ => ⟨S10000x10, .f32⟩
  | .local _ .vmem, ⟨1, _⟩ => ⟨S10000x10, .f32⟩
  | .local _ .vmem, ⟨2, _⟩ => ⟨S10x16, .f32⟩
  | .local _ .vmem, ⟨3, _⟩ => ⟨S1x16, .f32⟩
  | .local _ .vmem, ⟨4, _⟩ => ⟨S10000x16, .f32⟩
  | .local _ .vmem, ⟨5, _⟩ => ⟨S10000x16, .f32⟩
  | .local _ .vmem, ⟨6, _⟩ => ⟨S10000x80, .f32⟩
  | .local _ .vmem, ⟨7, _⟩ => ⟨S10000x80, .f32⟩
  | .local _ .vmem, ⟨8, _⟩ => ⟨S80x16, .f32⟩
  | .local _ .vmem, ⟨9, _⟩ => ⟨S1x16, .f32⟩
  | .local _ .vmem, ⟨10, _⟩ => ⟨S10000x16, .f32⟩
  | .local _ .vmem, ⟨11, _⟩ => ⟨S10000x16, .f32⟩
  | .local _ .vmem, ⟨12, _⟩ => ⟨S10000x80, .f32⟩
  | .local _ .vmem, ⟨13, _⟩ => ⟨S10000x80, .f32⟩
  | .local _ .vmem, ⟨14, _⟩ => ⟨S80x16, .f32⟩
  | .local _ .vmem, ⟨15, _⟩ => ⟨S1x16, .f32⟩
  | .local _ .vmem, ⟨16, _⟩ => ⟨S10000x16, .f32⟩
  | .local _ .vmem, ⟨17, _⟩ => ⟨S10000x16, .f32⟩
  | .local _ .vmem, ⟨18, _⟩ => ⟨S5000x16, .f32⟩
  | .local _ .vmem, ⟨19, _⟩ => ⟨S5000x16, .f32⟩
  | .local _ .vmem, ⟨20, _⟩ => ⟨S5000x1, .i32⟩
  | .local _ .vmem, ⟨21, _⟩ => ⟨S5000x1, .i32⟩
  | .local _ .vmem, ⟨22, _⟩ => ⟨S16x1, .f32⟩
  | .local _ .vmem, ⟨23, _⟩ => ⟨S1x1, .f32⟩
  | .local _ .vmem, ⟨24, _⟩ => ⟨S64x1, .f32⟩
  | .local _ .vmem, ⟨25, _⟩ => ⟨S64x16, .f32⟩
  | .local _ .vmem, ⟨26, _⟩ => ⟨S64x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_19 : Ref sig .tc := ⟨.hbm, 123, rfl⟩
abbrev main_v88 : Ref sig .tc := ⟨.hbm, 124, rfl⟩
abbrev main_v89 : Ref sig .tc := ⟨.hbm, 125, rfl⟩
abbrev main_c_20 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_c_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_24 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_25 : Ref sig .tc := ⟨.hbm, 155, rfl⟩
abbrev main_v114 : Ref sig .tc := ⟨.hbm, 156, rfl⟩
abbrev main_v115 : Ref sig .tc := ⟨.hbm, 157, rfl⟩
abbrev main_c_26 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_27 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_28 : Ref sig .tc := ⟨.hbm, 171, rfl⟩
abbrev main_v127 : Ref sig .tc := ⟨.hbm, 172, rfl⟩
abbrev main_v128 : Ref sig .tc := ⟨.hbm, 173, rfl⟩
abbrev main_c_29 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_30 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_c_31 : Ref sig .tc := ⟨.hbm, 195, rfl⟩
abbrev main_v148 : Ref sig .tc := ⟨.hbm, 196, rfl⟩
abbrev main_v149 : Ref sig .tc := ⟨.hbm, 197, rfl⟩
abbrev main_c_32 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_cst_33 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_c_34 : Ref sig .tc := ⟨.hbm, 211, rfl⟩
abbrev main_v161 : Ref sig .tc := ⟨.hbm, 212, rfl⟩
abbrev main_v162 : Ref sig .tc := ⟨.hbm, 213, rfl⟩
abbrev main_c_35 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_36 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_c_37 : Ref sig .tc := ⟨.hbm, 227, rfl⟩
abbrev main_v174 : Ref sig .tc := ⟨.hbm, 228, rfl⟩
abbrev main_v175 : Ref sig .tc := ⟨.hbm, 229, rfl⟩
abbrev main_c_38 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst_39 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_c_40 : Ref sig .tc := ⟨.hbm, 243, rfl⟩
abbrev main_v187 : Ref sig .tc := ⟨.hbm, 244, rfl⟩
abbrev main_v188 : Ref sig .tc := ⟨.hbm, 245, rfl⟩
abbrev main_c_41 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_cst_42 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_scratch0 : Ref sig .tc := ⟨.vmem, 25, rfl⟩
abbrev cc3_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S80x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S80x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_14 : BitVec 32 := 0#32
  let v29 : BitVec 1 := Scalar.cmpi .ne v28 c0_i32_14
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S3200000x7_S3200000x1_0_6 : S3200000x7.Slices ![0, 6] S3200000x1
  shapeCasts_S3200000x1_S3200000 : S3200000x1.ShapeCasts S3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  concatenates_S100000x2_S100000x2_S100000x2_S100000x2_S100000x2_S100000x10_d1 : Shape.Concatenates [S100000x2, S100000x2, S100000x2, S100000x2, S100000x2] S100000x10 1
  shapeCasts_S5x2x16_S10x16 : S5x2x16.ShapeCasts S10x16
  shapeCasts_S16_S1x16 : S16.ShapeCasts S1x16
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  bitsLt_bf16_f32 : FTy.bits .bf16 < FTy.bits .f32
  inb_S10x16_S10x16_0_0 : ∀ a, (![0, 0] : Fin 2 → Nat) a + S10x16.size a ≤ S10x16.size a
  h_S10x16 : 0 < S10x16.numel
  shapeCasts_S10x16_S10x16 : S10x16.ShapeCasts S10x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  concatenates_S100000x16_S100000x16_S100000x16_S100000x16_S100000x16_S100000x80_d1 : Shape.Concatenates [S100000x16, S100000x16, S100000x16, S100000x16, S100000x16] S100000x80 1
  slices_S2x5x16x16_S1x5x16x16_0_0_0_0 : S2x5x16x16.Slices ![0, 0, 0, 0] S1x5x16x16
  shapeCasts_S1x5x16x16_S5x16x16 : S1x5x16x16.ShapeCasts S5x16x16
  shapeCasts_S5x16x16_S80x16 : S5x16x16.ShapeCasts S80x16
  slices_S2x16_S1x16_0_0 : S2x16.Slices ![0, 0] S1x16
  shapeCasts_S1x16_S16 : S1x16.ShapeCasts S16
  inb_S10000x80_S10000x80_0_0 : ∀ a, (![0, 0] : Fin 2 → Nat) a + S10000x80.size a ≤ S10000x80.size a
  h_S10000x80 : 0 < S10000x80.numel
  shapeCasts_S10000x80_S10000x80 : S10000x80.ShapeCasts S10000x80
  inb_S80x16_S80x16_0_0 : ∀ a, (![0, 0] : Fin 2 → Nat) a + S80x16.size a ≤ S80x16.size a
  h_S80x16 : 0 < S80x16.numel
  shapeCasts_S80x16_S80x16 : S80x16.ShapeCasts S80x16
  slices_S2x5x16x16_S1x5x16x16_1_0_0_0 : S2x5x16x16.Slices ![1, 0, 0, 0] S1x5x16x16
  slices_S2x16_S1x16_1_0 : S2x16.Slices ![1, 0] S1x16
  shapeCasts_S100000_S100000x1 : S100000.ShapeCasts S100000x1
  shapeCasts_S1_S1x1 : S1.ShapeCasts S1x1
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S5000x64_d1_w32 : S5000x64.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  natLt_1_32 : 1 < 32
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  broadcasts_S64x1_S64x16 : S64x1.Broadcasts S64x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S10000x10_S10x16_S10000x16_1_0_0_1_n_n_wf : DotDims.WF S10000x10 S10x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x80_S80x16_S10000x16_1_0_0_1_n_n_wf : DotDims.WF S10000x80 S80x16 S10000x16 [1] [0] [0] [1] [] []
  dot_S5000x64_S5000x16_S64x16_0_0_1_1_n_n_wf : DotDims.WF S5000x64 S5000x16 S64x16 [0] [0] [1] [1] [] []
  dot_S5000x64_S5000x1_S64x1_0_0_1_1_n_n_wf : DotDims.WF S5000x64 S5000x1 S64x1 [0] [0] [1] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S100000x10.size a
  hwx0_0 : ∀ i : grid0.Coords, EltTy.bits .f32 = 32 ∨ (Rect.block (s := S100000x10) S10000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16.size a ≤ S10x16.size a
  hwx0_1 : ∀ i : grid0.Coords, EltTy.bits .f32 = 32 ∨ (Rect.block (s := S10x16) S10x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x80.size a ≤ S100000x80.size a
  hwx1_0 : ∀ i : grid1.Coords, EltTy.bits .f32 = 32 ∨ (Rect.block (s := S100000x80) S10000x80.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S80x16.size a ≤ S80x16.size a
  hwx1_1 : ∀ i : grid1.Coords, EltTy.bits .f32 = 32 ∨ (Rect.block (s := S80x16) S80x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x80.size a ≤ S100000x80.size a
  hwx2_0 : ∀ i : grid2.Coords, EltTy.bits .f32 = 32 ∨ (Rect.block (s := S100000x80) S10000x80.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S80x16.size a ≤ S80x16.size a
  hwx2_1 : ∀ i : grid2.Coords, EltTy.bits .f32 = 32 ∨ (Rect.block (s := S80x16) S80x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x1.size a ≤ S16x1.size a
  hwx3_2 : ∀ i : grid3.Coords, EltTy.bits .f32 = 32 ∨ (Rect.block (s := S16x1) S16x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S10000x10_S10x16_S10000x16_1_0_0_1_n_n : DotDims S10000x10 S10x16 S10000x16 where
  lhsContracting := [1]
  rhsContracting := [0]
  lhsNonContracting := [0]
  rhsNonContracting := [1]
  lhsBatch := []
  rhsBatch := []
  wf := dot_S10000x10_S10x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x80_S80x16_S10000x16_1_0_0_1_n_n : DotDims S10000x80 S80x16 S10000x16 where
  lhsContracting := [1]
  rhsContracting := [0]
  lhsNonContracting := [0]
  rhsNonContracting := [1]
  lhsBatch := []
  rhsBatch := []
  wf := dot_S10000x80_S80x16_S10000x16_1_0_0_1_n_n_wf
def dot_S5000x64_S5000x16_S64x16_0_0_1_1_n_n : DotDims S5000x64 S5000x16 S64x16 where
  lhsContracting := [0]
  rhsContracting := [0]
  lhsNonContracting := [1]
  rhsNonContracting := [1]
  lhsBatch := []
  rhsBatch := []
  wf := dot_S5000x64_S5000x16_S64x16_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_v84) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S10x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v86) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v87) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v140) S10000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v143) S80x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v146) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v147) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v200) S10000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v203) S80x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v206) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v207) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v207) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v208) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v209) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v210) S64x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x2 : Shape := ⟨2, ![100000, 2]⟩
abbrev S2x3200000 : Shape := ⟨2, ![2, 3200000]⟩
abbrev S3200000x7 : Shape := ⟨2, ![3200000, 7]⟩
abbrev S100000 : Shape := ⟨1, ![100000]⟩
abbrev S5x2x16 : Shape := ⟨3, ![5, 2, 16]⟩
abbrev S16 : Shape := ⟨1, ![16]⟩
abbrev S2x5x16x16 : Shape := ⟨4, ![2, 5, 16, 16]⟩
abbrev S2x16 : Shape := ⟨2, ![2, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S3200000x1 : Shape := ⟨2, ![3200000, 1]⟩
abbrev S_ : Shape := ⟨0, ![]⟩
abbrev S1x2x16 : Shape := ⟨3, ![1, 2, 16]⟩
abbrev S100000x16 : Shape := ⟨2, ![100000, 16]⟩
abbrev S3200000x2 : Shape := ⟨2, ![3200000, 2]⟩
abbrev S1x16 : Shape := ⟨2, ![1, 16]⟩
abbrev S1x5x16x16 : Shape := ⟨4, ![1, 5, 16, 16]⟩
abbrev S5x16x16 : Shape := ⟨3, ![5, 16, 16]⟩
abbrev S1x16x16 : Shape := ⟨3, ![1, 16, 16]⟩
abbrev S16x16 : Shape := ⟨2, ![16, 16]⟩
abbrev S3200000x16 : Shape := ⟨2, ![3200000, 16]⟩
abbrev S64 : Shape := ⟨1, ![64]⟩
abbrev S100000x1 : Shape := ⟨2, ![100000, 1]⟩
abbrev S64x16 : Shape := ⟨2, ![64, 16]⟩
abbrev S64x1 : Shape := ⟨2, ![64, 1]⟩
abbrev S1x1 : Shape := ⟨2, ![1, 1]⟩

abbrev nBuf : Space → Nat
  | .hbm => 362
  | .vmem => 0
  | .smem => 0
  | _ => 0

abbrev hbmTy0_0 (i : Nat) : BufTy := match i % 128 with
  | 0 => ⟨S100000x2, .f32⟩
  | 1 => ⟨S2x3200000, .i32⟩
  | 2 => ⟨S3200000x7, .f32⟩
  | 3 => ⟨S100000, .i32⟩
  | 4 => ⟨S5x2x16, .f32⟩
  | 5 => ⟨S16, .f32⟩
  | 6 => ⟨S2x5x16x16, .f32⟩
  | 7 => ⟨S2x16, .f32⟩
  | 8 => ⟨S16x1, .f32⟩
  | 9 => ⟨S1, .f32⟩
  | 10 => ⟨S1x3200000, .i32⟩
  | 11 => ⟨S3200000, .i32⟩
  | 12 => ⟨S1x3200000, .i32⟩
  | 13 => ⟨S3200000, .i32⟩
  | 14 => ⟨S3200000x1, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S1x2x16, .f32⟩
  | 56 => ⟨S2x16, .f32⟩
  | 57 => ⟨S100000x16, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000x2, .f32⟩
  | 67 => ⟨S3200000x1, .f32⟩
  | 68 => ⟨S3200000x2, .f32⟩
  | 69 => ⟨S3200000x2, .f32⟩
  | 70 => ⟨S_, .f32⟩
  | 71 => ⟨S100000x2, .f32⟩
  | 72 => ⟨S3200000x1, .i32⟩
  | 73 => ⟨S100000x2, .f32⟩
  | 74 => ⟨S1x2x16, .f32⟩
  | 75 => ⟨S2x16, .f32⟩
  | 76 => ⟨S100000x16, .f32⟩
  | 77 => ⟨S100000x16, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x2, .f32⟩
  | 87 => ⟨S3200000x1, .f32⟩
  | 88 => ⟨S3200000x2, .f32⟩
  | 89 => ⟨S3200000x2, .f32⟩
  | 90 => ⟨S_, .f32⟩
  | 91 => ⟨S100000x2, .f32⟩
  | 92 => ⟨S3200000x1, .i32⟩
  | 93 => ⟨S100000x2, .f32⟩
  | 94 => ⟨S1x2x16, .f32⟩
  | 95 => ⟨S2x16, .f32⟩
  | 96 => ⟨S100000x16, .f32⟩
  | 97 => ⟨S100000x16, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x2, .f32⟩
  | 107 => ⟨S3200000x1, .f32⟩
  | 108 => ⟨S3200000x2, .f32⟩
  | 109 => ⟨S3200000x2, .f32⟩
  | 110 => ⟨S_, .f32⟩
  | 111 => ⟨S100000x2, .f32⟩
  | 112 => ⟨S3200000x1, .i32⟩
  | 113 => ⟨S100000x2, .f32⟩
  | 114 => ⟨S1x2x16, .f32⟩
  | 115 => ⟨S2x16, .f32⟩
  | 116 => ⟨S100000x16, .f32⟩
  | 117 => ⟨S100000x16, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S3200000x2, .f32⟩
  | 127 => ⟨S3200000x1, .f32⟩
  | _ => ⟨S100000x2, .f32⟩

abbrev hbmTy0_1 (i : Nat) : BufTy := match i % 128 with
  | 0 => ⟨S3200000x2, .f32⟩
  | 1 => ⟨S3200000x2, .f32⟩
  | 2 => ⟨S_, .f32⟩
  | 3 => ⟨S100000x2, .f32⟩
  | 4 => ⟨S3200000x1, .i32⟩
  | 5 => ⟨S100000x2, .f32⟩
  | 6 => ⟨S1x2x16, .f32⟩
  | 7 => ⟨S2x16, .f32⟩
  | 8 => ⟨S100000x16, .f32⟩
  | 9 => ⟨S100000x16, .f32⟩
  | 10 => ⟨S1x16, .f32⟩
  | 11 => ⟨S100000x16, .f32⟩
  | 12 => ⟨S100000x16, .f32⟩
  | 13 => ⟨S_, .f32⟩
  | 14 => ⟨S100000x16, .f32⟩
  | 15 => ⟨S100000x16, .i1⟩
  | 16 => ⟨S_, .f32⟩
  | 17 => ⟨S100000x16, .f32⟩
  | 18 => ⟨S100000x16, .f32⟩
  | 19 => ⟨S100000x16, .f32⟩
  | 20 => ⟨S1x5x16x16, .f32⟩
  | 21 => ⟨S5x16x16, .f32⟩
  | 22 => ⟨S1x16, .f32⟩
  | 23 => ⟨S16, .f32⟩
  | 24 => ⟨S1x16x16, .f32⟩
  | 25 => ⟨S16x16, .f32⟩
  | 26 => ⟨S100000x16, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x16, .f32⟩
  | 36 => ⟨S3200000x1, .f32⟩
  | 37 => ⟨S3200000x16, .f32⟩
  | 38 => ⟨S3200000x16, .f32⟩
  | 39 => ⟨S_, .f32⟩
  | 40 => ⟨S100000x16, .f32⟩
  | 41 => ⟨S3200000x1, .i32⟩
  | 42 => ⟨S100000x16, .f32⟩
  | 43 => ⟨S1x16x16, .f32⟩
  | 44 => ⟨S16x16, .f32⟩
  | 45 => ⟨S100000x16, .f32⟩
  | 46 => ⟨S100000x16, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x16, .f32⟩
  | 56 => ⟨S3200000x1, .f32⟩
  | 57 => ⟨S3200000x16, .f32⟩
  | 58 => ⟨S3200000x16, .f32⟩
  | 59 => ⟨S_, .f32⟩
  | 60 => ⟨S100000x16, .f32⟩
  | 61 => ⟨S3200000x1, .i32⟩
  | 62 => ⟨S100000x16, .f32⟩
  | 63 => ⟨S1x16x16, .f32⟩
  | 64 => ⟨S16x16, .f32⟩
  | 65 => ⟨S100000x16, .f32⟩
  | 66 => ⟨S100000x16, .f32⟩
  | 67 => ⟨S_, .i32⟩
  | 68 => ⟨S3200000, .i32⟩
  | 69 => ⟨S3200000, .i1⟩
  | 70 => ⟨S_, .i32⟩
  | 71 => ⟨S3200000, .i32⟩
  | 72 => ⟨S3200000, .i32⟩
  | 73 => ⟨S3200000, .i32⟩
  | 74 => ⟨S3200000x1, .i32⟩
  | 75 => ⟨S3200000x16, .f32⟩
  | 76 => ⟨S3200000x1, .f32⟩
  | 77 => ⟨S3200000x16, .f32⟩
  | 78 => ⟨S3200000x16, .f32⟩
  | 79 => ⟨S_, .f32⟩
  | 80 => ⟨S100000x16, .f32⟩
  | 81 => ⟨S3200000x1, .i32⟩
  | 82 => ⟨S100000x16, .f32⟩
  | 83 => ⟨S1x16x16, .f32⟩
  | 84 => ⟨S16x16, .f32⟩
  | 85 => ⟨S100000x16, .f32⟩
  | 86 => ⟨S100000x16, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000x16, .f32⟩
  | 96 => ⟨S3200000x1, .f32⟩
  | 97 => ⟨S3200000x16, .f32⟩
  | 98 => ⟨S3200000x16, .f32⟩
  | 99 => ⟨S_, .f32⟩
  | 100 => ⟨S100000x16, .f32⟩
  | 101 => ⟨S3200000x1, .i32⟩
  | 102 => ⟨S100000x16, .f32⟩
  | 103 => ⟨S1x16x16, .f32⟩
  | 104 => ⟨S16x16, .f32⟩
  | 105 => ⟨S100000x16, .f32⟩
  | 106 => ⟨S100000x16, .f32⟩
  | 107 => ⟨S1x16, .f32⟩
  | 108 => ⟨S100000x16, .f32⟩
  | 109 => ⟨S100000x16, .f32⟩
  | 110 => ⟨S_, .f32⟩
  | 111 => ⟨S100000x16, .f32⟩
  | 112 => ⟨S100000x16, .i1⟩
  | 113 => ⟨S_, .f32⟩
  | 114 => ⟨S100000x16, .f32⟩
  | 115 => ⟨S100000x16, .f32⟩
  | 116 => ⟨S100000x16, .f32⟩
  | 117 => ⟨S1x5x16x16, .f32⟩
  | 118 => ⟨S5x16x16, .f32⟩
  | 119 => ⟨S1x16, .f32⟩
  | 120 => ⟨S16, .f32⟩
  | 121 => ⟨S1x16x16, .f32⟩
  | 122 => ⟨S16x16, .f32⟩
  | 123 => ⟨S100000x16, .f32⟩
  | 124 => ⟨S_, .i32⟩
  | 125 => ⟨S3200000, .i32⟩
  | 126 => ⟨S3200000, .i1⟩
  | 127 => ⟨S_, .i32⟩
  | _ => ⟨S100000x2, .f32⟩

abbrev hbmTy0_2 (i : Nat) : BufTy := match i % 128 with
  | 0 => ⟨S3200000, .i32⟩
  | 1 => ⟨S3200000, .i32⟩
  | 2 => ⟨S3200000, .i32⟩
  | 3 => ⟨S3200000x1, .i32⟩
  | 4 => ⟨S3200000x16, .f32⟩
  | 5 => ⟨S3200000x1, .f32⟩
  | 6 => ⟨S3200000x16, .f32⟩
  | 7 => ⟨S3200000x16, .f32⟩
  | 8 => ⟨S_, .f32⟩
  | 9 => ⟨S100000x16, .f32⟩
  | 10 => ⟨S3200000x1, .i32⟩
  | 11 => ⟨S100000x16, .f32⟩
  | 12 => ⟨S1x16x16, .f32⟩
  | 13 => ⟨S16x16, .f32⟩
  | 14 => ⟨S100000x16, .f32⟩
  | 15 => ⟨S100000x16, .f32⟩
  | 16 => ⟨S_, .i32⟩
  | 17 => ⟨S3200000, .i32⟩
  | 18 => ⟨S3200000, .i1⟩
  | 19 => ⟨S_, .i32⟩
  | 20 => ⟨S3200000, .i32⟩
  | 21 => ⟨S3200000, .i32⟩
  | 22 => ⟨S3200000, .i32⟩
  | 23 => ⟨S3200000x1, .i32⟩
  | 24 => ⟨S3200000x16, .f32⟩
  | 25 => ⟨S3200000x1, .f32⟩
  | 26 => ⟨S3200000x16, .f32⟩
  | 27 => ⟨S3200000x16, .f32⟩
  | 28 => ⟨S_, .f32⟩
  | 29 => ⟨S100000x16, .f32⟩
  | 30 => ⟨S3200000x1, .i32⟩
  | 31 => ⟨S100000x16, .f32⟩
  | 32 => ⟨S1x16x16, .f32⟩
  | 33 => ⟨S16x16, .f32⟩
  | 34 => ⟨S100000x16, .f32⟩
  | 35 => ⟨S100000x16, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000x16, .f32⟩
  | 45 => ⟨S3200000x1, .f32⟩
  | 46 => ⟨S3200000x16, .f32⟩
  | 47 => ⟨S3200000x16, .f32⟩
  | 48 => ⟨S_, .f32⟩
  | 49 => ⟨S100000x16, .f32⟩
  | 50 => ⟨S3200000x1, .i32⟩
  | 51 => ⟨S100000x16, .f32⟩
  | 52 => ⟨S1x16x16, .f32⟩
  | 53 => ⟨S16x16, .f32⟩
  | 54 => ⟨S100000x16, .f32⟩
  | 55 => ⟨S100000x16, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x16, .f32⟩
  | 65 => ⟨S3200000x1, .f32⟩
  | 66 => ⟨S3200000x16, .f32⟩
  | 67 => ⟨S3200000x16, .f32⟩
  | 68 => ⟨S_, .f32⟩
  | 69 => ⟨S100000x16, .f32⟩
  | 70 => ⟨S3200000x1, .i32⟩
  | 71 => ⟨S100000x16, .f32⟩
  | 72 => ⟨S1x16x16, .f32⟩
  | 73 => ⟨S16x16, .f32⟩
  | 74 => ⟨S100000x16, .f32⟩
  | 75 => ⟨S100000x16, .f32⟩
  | 76 => ⟨S1x16, .f32⟩
  | 77 => ⟨S100000x16, .f32⟩
  | 78 => ⟨S100000x16, .f32⟩
  | 79 => ⟨S_, .f32⟩
  | 80 => ⟨S100000x16, .f32⟩
  | 81 => ⟨S100000x16, .i1⟩
  | 82 => ⟨S_, .f32⟩
  | 83 => ⟨S100000x16, .f32⟩
  | 84 => ⟨S100000x16, .f32⟩
  | 85 => ⟨S100000x16, .f32⟩
  | 86 => ⟨S_, .f32⟩
  | 87 => ⟨S100000, .f32⟩
  | 88 => ⟨S_, .f32⟩
  | 89 => ⟨S64, .f32⟩
  | 90 => ⟨S100000x1, .i32⟩
  | 91 => ⟨S64, .f32⟩
  | 92 => ⟨S_, .f32⟩
  | 93 => ⟨S64x16, .f32⟩
  | 94 => ⟨S100000x1, .i32⟩
  | 95 => ⟨S64x16, .f32⟩
  | 96 => ⟨S_, .f32⟩
  | 97 => ⟨S64, .f32⟩
  | 98 => ⟨S64, .f32⟩
  | 99 => ⟨S64x1, .f32⟩
  | 100 => ⟨S64x16, .f32⟩
  | 101 => ⟨S64x16, .f32⟩
  | 102 => ⟨S64x1, .f32⟩
  | 103 => ⟨S1x1, .f32⟩
  | 104 => ⟨S64x1, .f32⟩
  | 105 => ⟨S64x1, .f32⟩
  | _ => ⟨S100000x2, .f32⟩

abbrev hbmTy (i : Nat) : BufTy := match i / 128 with
  | 0 => hbmTy0_0 i
  | 1 => hbmTy0_1 i
  | 2 => hbmTy0_2 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_16 : Ref sig .tc := ⟨.hbm, 118, rfl⟩
abbrev main_v86 : Ref sig .tc := ⟨.hbm, 119, rfl⟩
abbrev main_v87 : Ref sig .tc := ⟨.hbm, 120, rfl⟩
abbrev main_c_17 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_18 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_19 : Ref sig .tc := ⟨.hbm, 141, rfl⟩
abbrev main_v106 : Ref sig .tc := ⟨.hbm, 142, rfl⟩
abbrev main_v107 : Ref sig .tc := ⟨.hbm, 143, rfl⟩
abbrev main_cst_20 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_21 : Ref sig .tc := ⟨.hbm, 155, rfl⟩
abbrev main_v118 : Ref sig .tc := ⟨.hbm, 156, rfl⟩
abbrev main_v119 : Ref sig .tc := ⟨.hbm, 157, rfl⟩
abbrev main_c_22 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_23 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_c_24 : Ref sig .tc := ⟨.hbm, 175, rfl⟩
abbrev main_v135 : Ref sig .tc := ⟨.hbm, 176, rfl⟩
abbrev main_v136 : Ref sig .tc := ⟨.hbm, 177, rfl⟩
abbrev main_c_25 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_26 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_c_27 : Ref sig .tc := ⟨.hbm, 195, rfl⟩
abbrev main_v152 : Ref sig .tc := ⟨.hbm, 196, rfl⟩
abbrev main_v153 : Ref sig .tc := ⟨.hbm, 197, rfl⟩
abbrev main_c_28 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_29 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_c_30 : Ref sig .tc := ⟨.hbm, 215, rfl⟩
abbrev main_v169 : Ref sig .tc := ⟨.hbm, 216, rfl⟩
abbrev main_v170 : Ref sig .tc := ⟨.hbm, 217, rfl⟩
abbrev main_c_31 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_32 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_cst_33 : Ref sig .tc := ⟨.hbm, 238, rfl⟩
abbrev main_v189 : Ref sig .tc := ⟨.hbm, 239, rfl⟩
abbrev main_v190 : Ref sig .tc := ⟨.hbm, 240, rfl⟩
abbrev main_cst_34 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_c_35 : Ref sig .tc := ⟨.hbm, 252, rfl⟩
abbrev main_v201 : Ref sig .tc := ⟨.hbm, 253, rfl⟩
abbrev main_v202 : Ref sig .tc := ⟨.hbm, 254, rfl⟩
abbrev main_c_36 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_cst_37 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_c_38 : Ref sig .tc := ⟨.hbm, 272, rfl⟩
abbrev main_v218 : Ref sig .tc := ⟨.hbm, 273, rfl⟩
abbrev main_v219 : Ref sig .tc := ⟨.hbm, 274, rfl⟩
abbrev main_c_39 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_cst_40 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_c_41 : Ref sig .tc := ⟨.hbm, 292, rfl⟩
abbrev main_v235 : Ref sig .tc := ⟨.hbm, 293, rfl⟩
abbrev main_v236 : Ref sig .tc := ⟨.hbm, 294, rfl⟩
abbrev main_c_42 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_cst_43 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_c_44 : Ref sig .tc := ⟨.hbm, 312, rfl⟩
abbrev main_v252 : Ref sig .tc := ⟨.hbm, 313, rfl⟩
abbrev main_v253 : Ref sig .tc := ⟨.hbm, 314, rfl⟩
abbrev main_c_45 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_cst_46 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_cst_47 : Ref sig .tc := ⟨.hbm, 335, rfl⟩
abbrev main_v272 : Ref sig .tc := ⟨.hbm, 336, rfl⟩
abbrev main_v273 : Ref sig .tc := ⟨.hbm, 337, rfl⟩
abbrev main_cst_48 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_cst_49 : Ref sig .tc := ⟨.hbm, 342, rfl⟩
abbrev main_v277 : Ref sig .tc := ⟨.hbm, 343, rfl⟩
abbrev main_cst_50 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_cst_51 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_cst_52 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S3200000x7_S3200000x1_0_6 : S3200000x7.Slices ![0, 6] S3200000x1
  shapeCasts_S3200000x1_S3200000 : S3200000x1.ShapeCasts S3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  slices_S5x2x16_S1x2x16_0_0_0 : S5x2x16.Slices ![0, 0, 0] S1x2x16
  shapeCasts_S1x2x16_S2x16 : S1x2x16.ShapeCasts S2x16
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  slices_S5x2x16_S1x2x16_1_0_0 : S5x2x16.Slices ![1, 0, 0] S1x2x16
  slices_S5x2x16_S1x2x16_2_0_0 : S5x2x16.Slices ![2, 0, 0] S1x2x16
  slices_S5x2x16_S1x2x16_3_0_0 : S5x2x16.Slices ![3, 0, 0] S1x2x16
  slices_S5x2x16_S1x2x16_4_0_0 : S5x2x16.Slices ![4, 0, 0] S1x2x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  slices_S2x5x16x16_S1x5x16x16_0_0_0_0 : S2x5x16x16.Slices ![0, 0, 0, 0] S1x5x16x16
  shapeCasts_S1x5x16x16_S5x16x16 : S1x5x16x16.ShapeCasts S5x16x16
  slices_S2x16_S1x16_0_0 : S2x16.Slices ![0, 0] S1x16
  shapeCasts_S1x16_S16 : S1x16.ShapeCasts S16
  slices_S5x16x16_S1x16x16_0_0_0 : S5x16x16.Slices ![0, 0, 0] S1x16x16
  shapeCasts_S1x16x16_S16x16 : S1x16x16.ShapeCasts S16x16
  bcast_S3200000x1_S3200000x16_0_1 : S3200000x1.BroadcastsInDim S3200000x16 (![0, 1] : Fin 2 → Fin S3200000x16.rank)
  slices_S5x16x16_S1x16x16_1_0_0 : S5x16x16.Slices ![1, 0, 0] S1x16x16
  slices_S5x16x16_S1x16x16_2_0_0 : S5x16x16.Slices ![2, 0, 0] S1x16x16
  slices_S5x16x16_S1x16x16_3_0_0 : S5x16x16.Slices ![3, 0, 0] S1x16x16
  slices_S5x16x16_S1x16x16_4_0_0 : S5x16x16.Slices ![4, 0, 0] S1x16x16
  slices_S2x5x16x16_S1x5x16x16_1_0_0_0 : S2x5x16x16.Slices ![1, 0, 0, 0] S1x5x16x16
  slices_S2x16_S1x16_1_0 : S2x16.Slices ![1, 0] S1x16
  bcast_S_S64 : S_.BroadcastsInDim S64 (![] : Fin 0 → Fin S64.rank)
  bcast_S100000_S100000x1_0 : S100000.BroadcastsInDim S100000x1 (![0] : Fin 1 → Fin S100000x1.rank)
  bcast_S_S64x16 : S_.BroadcastsInDim S64x16 (![] : Fin 0 → Fin S64x16.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x2_S2x16_S100000x16_1_0_0_1_n_n_wf : DotDims.WF S100000x2 S2x16 S100000x16 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S100000x16_S16x16_S100000x16_1_0_0_1_n_n_wf : DotDims.WF S100000x16 S16x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S64_S100000x1_S100000_n_0_0_1_wf : ScatterDims.WF S64 S100000x1 S100000 [] [0] [0] 1
  scatter_S64x16_S100000x1_S100000x16_1_0_0_1_wf : ScatterDims.WF S64x16 S100000x1 S100000x16 [1] [0] [0] 1
  dot_S64x16_S16x1_S64x1_1_0_0_1_n_n_wf : DotDims.WF S64x16 S16x1 S64x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x16_S100000x1_S100000x16_1_0_0_1 : ScatterDims S64x16 S100000x1 S100000x16 where
  updateWindowDims := [1]
  insertedWindowDims := [0]
  scatterDimsToOperandDims := [0]
  indexVectorDim := 1
  wf := scatter_S64x16_S100000x1_S100000x16_1_0_0_1_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.K.Dat0.lean ====
import proofs.«428193_j13675175870529_1_alg».proof.Proof.Gen.Kernel.Launch
import proofs.«428193_j13675175870529_1_alg».proof.Proof.Gen.Kernel.Skeleton
import proofs.«428193_j13675175870529_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x10 := Rect.unit (s := S10000x10) ![0, 0] S10000x10.size inb_S10000x10_S10000x10_0_0
abbrev r0_1 : Rect S10x16 := Rect.unit (s := S10x16) ![0, 0] S10x16.size inb_S10x16_S10x16_0_0
abbrev r0_2 : Rect S1x16 := Rect.unit (s := S1x16) ![0, 0] S1x16.size inb_S1x16_S1x16_0_0
abbrev r0_3 : Rect S10000x16 := Rect.unit (s := S10000x16) ![0, 0] S10000x16.size inb_S10000x16_S10000x16_0_0

def out0_3 (x0 : Vec F S10000x10 .f32) (x1 : Vec F S10x16 .f32) (x2 : Vec F S1x16 .f32) : Vec F S10000x16 .f32 :=
  View.canon [⟨r0_3, k0_pay1 (View.ld x0 r0_0) (View.ld x1 r0_1) (View.ld x2 r0_2)⟩]

theorem cover0_3 (p0 : Vec F S10000x16 .f32) (y : S10000x16.Idx) :
    ∃ pc ∈ ([⟨r0_3, p0⟩] : List (View.Piece (Elt F) S10000x16 .f32)), y ∈ pc.1.set :=
  View.cover_of_tiled [⟨r0_3, p0⟩] S10000x16.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.K.Dat1.lean ====
import proofs.«428193_j13675175870529_1_alg».proof.Proof.Gen.Kernel.Launch
import proofs.«428193_j13675175870529_1_alg».proof.Proof.Gen.Kernel.Skeleton
import proofs.«428193_j13675175870529_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x80 := Rect.unit (s := S10000x80) ![0, 0] S10000x80.size inb_S10000x80_S10000x80_0_0
abbrev r1_1 : Rect S80x16 := Rect.unit (s := S80x16) ![0, 0] S80x16.size inb_S80x16_S80x16_0_0
abbrev r1_2 : Rect S1x16 := Rect.unit (s := S1x16) ![0, 0] S1x16.size inb_S1x16_S1x16_0_0
abbrev r1_3 : Rect S10000x16 := Rect.unit (s := S10000x16) ![0, 0] S10000x16.size inb_S10000x16_S10000x16_0_0

def out1_3 (x0 : Vec F S10000x80 .f32) (x1 : Vec F S80x16 .f32) (x2 : Vec F S1x16 .f32) : Vec F S10000x16 .f32 :=
  View.canon [⟨r1_3, k1_pay1 (View.ld x0 r1_0) (View.ld x1 r1_1) (View.ld x2 r1_2)⟩]

theorem cover1_3 (p0 : Vec F S10000x16 .f32) (y : S10000x16.Idx) :
    ∃ pc ∈ ([⟨r1_3, p0⟩] : List (View.Piece (Elt F) S10000x16 .f32)), y ∈ pc.1.set :=
  View.cover_of_tiled [⟨r1_3, p0⟩] S10000x16.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.Dat2.lean ====
import proofs.«428193_j13675175870529_1_alg».proof.Proof.Gen.Kernel.Launch
import proofs.«428193_j13675175870529_1_alg».proof.Proof.Gen.Kernel.Skeleton
import proofs.«428193_j13675175870529_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x80 := Rect.unit (s := S10000x80) ![0, 0] S10000x80.size inb_S10000x80_S10000x80_0_0
abbrev r2_1 : Rect S80x16 := Rect.unit (s := S80x16) ![0, 0] S80x16.size inb_S80x16_S80x16_0_0
abbrev r2_2 : Rect S1x16 := Rect.unit (s := S1x16) ![0, 0] S1x16.size inb_S1x16_S1x16_0_0
abbrev r2_3 : Rect S10000x16 := Rect.unit (s := S10000x16) ![0, 0] S10000x16.size inb_S10000x16_S10000x16_0_0

def out2_3 (x0 : Vec F S10000x80 .f32) (x1 : Vec F S80x16 .f32) (x2 : Vec F S1x16 .f32) : Vec F S10000x16 .f32 :=
  View.canon [⟨r2_3, k2_pay1 (View.ld x0 r2_0) (View.ld x1 r2_1) (View.ld x2 r2_2)⟩]

theorem cover2_3 (p0 : Vec F S10000x16 .f32) (y : S10000x16.Idx) :
    ∃ pc ∈ ([⟨r2_3, p0⟩] : List (View.Piece (Elt F) S10000x16 .f32)), y ∈ pc.1.set :=
  View.cover_of_tiled [⟨r2_3, p0⟩] S10000x16.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.K.Dat3.lean ====
import proofs.«428193_j13675175870529_1_alg».proof.Proof.Gen.Kernel.Launch
import proofs.«428193_j13675175870529_1_alg».proof.Proof.Gen.Kernel.Skeleton
import proofs.«428193_j13675175870529_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3_0 : Memref sig .tc .vmem S64x16 .f32 := Memref.whole cc3_scratch0
abbrev scM3_1 : Memref sig .tc .vmem S64x1 .f32 := Memref.whole cc3_scratch1

def accs3 (c : Dev nD) : (n : ℕ) → n < cfg3.N → Vec F S64x16 .f32 × Vec F S64x1 .f32
  | 0, hn => (k3_pay4 (iblk3 V c 1 ⟨0, hn⟩) (iblk3 V c 0 ⟨0, hn⟩) (k3_pay1 (F := F)),
              k3_pay5 (iblk3 V c 1 ⟨0, hn⟩) (k3_pay2 (F := F)))
  | n + 1, hn => (k3_pay4 (iblk3 V c 1 ⟨n + 1, hn⟩) (iblk3 V c 0 ⟨n + 1, hn⟩) (accs3 c n (Nat.lt_of_succ_lt hn)).1,
                  k3_pay5 (iblk3 V c 1 ⟨n + 1, hn⟩) (accs3 c n (Nat.lt_of_succ_lt hn)).2)

theorem accs3_zero (c : Dev nD) (hn : 0 < cfg3.N) :
    accs3 V c 0 hn = (k3_pay4 (iblk3 V c 1 ⟨0, hn⟩) (iblk3 V c 0 ⟨0, hn⟩) (k3_pay1 (F := F)),
      k3_pay5 (iblk3 V c 1 ⟨0, hn⟩) (k3_pay2 (F := F))) := rfl

theorem accs3_succ (c : Dev nD) (n : ℕ) (hn : n + 1 < cfg3.N) :
    accs3 V c (n + 1) hn = (k3_pay4 (iblk3 V c 1 ⟨n + 1, hn⟩) (iblk3 V c 0 ⟨n + 1, hn⟩) (accs3 V c n (Nat.lt_of_succ_lt hn)).1,
      k3_pay5 (iblk3 V c 1 ⟨n + 1, hn⟩) (accs3 V c n (Nat.lt_of_succ_lt hn)).2) := rfl

def others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

def PhiS3 (c : Dev nD) : (n : ℕ) → n ≤ cfg3.N → sProp 𝕄
  | 0, _ => Pipeline.ΦA spec3 c
  | n + 1, hn => iprop(others3 (F := F) c
      ∗ owns (c : Thread nD τ) scM3_0 fullShare (accs3 V c n (Nat.lt_of_succ_le hn)).1
      ∗ owns (c : Thread nD τ) scM3_1 fullShare (accs3 V c n (Nat.lt_of_succ_le hn)).2
      ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(others3 (F := F) c
      ∗ owns (c : Thread nD τ) scM3_0 fullShare (accs3 V c n hn).1
      ∗ owns (c : Thread nD τ) scM3_1 fullShare (accs3 V c n hn).2
      ∗ (∃ r, prngReg c r)) := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay6 (accs3 V c t.val t.isLt).2 (accs3 V c t.val t.isLt).1 (iblk3 V c 2 t) (iblk3 V c 3 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay6 (accs3 V c t.val t.isLt).2 (accs3 V c t.val t.isLt).1 (iblk3 V c 2 t) (iblk3 V c 3 t) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

end Cert.Kernel.Hand

end
-- ==== Proof.LibWrites.lean ====
import Idealize.ShloMosaic.Lib.StableHlo.Run

namespace Idealize.ShloMosaic.StableHlo

variable {τ : Topo} {sig : RefSig} {Val : EltTy → Type}

/-- An operation whose one written buffer is a reference of the list `W` writes inside `W`. -/
theorem writes_sub_of_mem {op : HloOp τ sig Val} {W : List (Ref sig .tc)} {y : Ref sig .tc}
    (hw : op.writes = {Proc.devRef .tc y}) (hy : y ∈ W) : op.writes ⊆ (W.map (Proc.devRef (τ := τ) .tc)).toFinset :=
  hw ▸ Finset.singleton_subset_iff.mpr (List.mem_toFinset.mpr (List.mem_map_of_mem hy))

end Idealize.ShloMosaic.StableHlo
-- ==== Proof.K.Writes.lean ====
import proofs.«428193_j13675175870529_1_alg».proof.Proof.Gen.Kernel.Launch
import proofs.«428193_j13675175870529_1_alg».proof.Proof.LibWrites

noncomputable section

namespace Cert.Kernel.Hand

open Cert.Kernel Cert.Kernel.Gen
open Idealize.ShloMosaic Idealize.ShloMosaic.TcCoe Idealize.SL.Sem

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_cst, main_v6, main_v7, main_v8, main_cst_0, main_v9, main_v10, main_cst_1, main_v11, main_v12, main_cst_2]
theorem hostOps0_writes : (hostOps0 : List (HloOp τ sig (Elt F))).Forall fun op => op.writes ⊆ (hostOps0_W.map (Proc.devRef (τ := τ) .tc)).toFinset := by
  simp only [List.Forall]; repeat' apply And.intro
  all_goals exact StableHlo.writes_sub_of_mem rfl (by decide)

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals exact StableHlo.writes_sub_of_mem rfl (by decide)

theorem hostOps0_2_fresh : (hostOps0_2 : List (HloOp τ sig (Elt F))).Forall fun op => op.fresh = ∅ := by
  simp only [List.Forall]; repeat' constructor
abbrev hostOps0_2_W : List (Ref sig .tc) := [main_v14, main_cst_3]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals exact StableHlo.writes_sub_of_mem rfl (by decide)

theorem hostOps0_3_fresh : (hostOps0_3 : List (HloOp τ sig (Elt F))).Forall fun op => op.fresh = ∅ := by
  simp only [List.Forall]; repeat' constructor
abbrev hostOps0_3_W : List (Ref sig .tc) := [main_call1_v0, main_call1_v1, main_v15]
theorem hostOps0_3_writes : (hostOps0_3 : List (HloOp τ sig (Elt F))).Forall fun op => op.writes ⊆ (hostOps0_3_W.map (Proc.devRef (τ := τ) .tc)).toFinset := by
  simp only [List.Forall]; repeat' apply And.intro
  all_goals exact StableHlo.writes_sub_of_mem rfl (by decide)

theorem hostOps0_4_fresh : (hostOps0_4 : List (HloOp τ sig (Elt F))).Forall fun op => op.fresh = ∅ := by
  simp only [List.Forall]; repeat' constructor
abbrev hostOps0_4_W : List (Ref sig .tc) := [main_c, main_v16, main_v17, main_c_4, main_v18, main_v19, main_v20, main_v21, main_v22, main_v23, main_c_5, main_v24, main_v25, main_c_6, main_v26, main_v27, main_v28, main_v29, main_v30, main_v31, main_c_7, main_v32, main_v33, main_c_8, main_v34, main_v35, main_v36, main_v37, main_v38, main_v39, main_v40, main_v41, main_cst_9, main_v42, main_v43, main_v44, main_c_10, main_v45, main_v46, main_c_11, main_v47, main_v48, main_v49, main_v50, main_v51, main_v52, main_v53, main_v54, main_cst_12, main_v55, main_v56, main_v57, main_c_13, main_v58, main_v59, main_c_14, main_v60, main_v61, main_v62, main_v63, main_v64, main_v65, main_v66, main_v67, main_cst_15, main_v68, main_v69, main_v70, main_c_16, main_v71, main_v72, main_c_17, main_v73, main_v74, main_v75, main_v76, main_v77, main_v78, main_v79, main_v80, main_cst_18, main_v81, main_v82, main_v83, main_v84, main_v85, main_v86]
theorem hostOps0_4_writes : (hostOps0_4 : List (HloOp τ sig (Elt F))).Forall fun op => op.writes ⊆ (hostOps0_4_W.map (Proc.devRef (τ := τ) .tc)).toFinset := by
  simp only [List.Forall]; repeat' apply And.intro
  all_goals exact StableHlo.writes_sub_of_mem rfl (by decide)

theorem hostOps1_fresh : (hostOps1 : List (HloOp τ sig (Elt F))).Forall fun op => op.fresh = ∅ := by
  simp only [List.Forall]; repeat' constructor
abbrev hostOps1_W : List (Ref sig .tc) := [main_c_19, main_v88, main_v89, main_c_20, main_v90, main_v91, main_v92, main_v93, main_v94, main_v95, main_v96, main_v97, main_cst_21, main_v98, main_v99, main_v100, main_c_22, main_v101, main_v102, main_c_23, main_v103, main_v104, main_v105, main_v106, main_v107, main_v108, main_v109, main_v110, main_cst_24, main_v111, main_v112, main_v113, main_c_25, main_v114, main_v115, main_c_26, main_v116, main_v117, main_v118, main_v119, main_v120, main_v121, main_v122, main_v123, main_cst_27, main_v124, main_v125, main_v126, main_c_28, main_v127, main_v128, main_c_29, main_v129, main_v130, main_v131, main_v132, main_v133, main_v134, main_v135, main_v136, main_cst_30, main_v137, main_v138, main_v139, main_v140, main_v141, main_v142, main_v143, main_v144, main_v145, main_v146]
theorem hostOps1_writes : (hostOps1 : List (HloOp τ sig (Elt F))).Forall fun op => op.writes ⊆ (hostOps1_W.map (Proc.devRef (τ := τ) .tc)).toFinset := by
  simp only [List.Forall]; repeat' apply And.intro
  all_goals exact StableHlo.writes_sub_of_mem rfl (by decide)

theorem hostOps2_fresh : (hostOps2 : List (HloOp τ sig (Elt F))).Forall fun op => op.fresh = ∅ := by
  simp only [List.Forall]; repeat' constructor
abbrev hostOps2_W : List (Ref sig .tc) := [main_c_31, main_v148, main_v149, main_c_32, main_v150, main_v151, main_v152, main_v153, main_v154, main_v155, main_v156, main_v157, main_cst_33, main_v158, main_v159, main_v160, main_c_34, main_v161, main_v162, main_c_35, main_v163, main_v164, main_v165, main_v166, main_v167, main_v168, main_v169, main_v170, main_cst_36, main_v171, main_v172, main_v173, main_c_37, main_v174, main_v175, main_c_38, main_v176, main_v177, main_v178, main_v179, main_v180, main_v181, main_v182, main_v183, main_cst_39, main_v184, main_v185, main_v186, main_c_40, main_v187, main_v188, main_c_41, main_v189, main_v190, main_v191, main_v192, main_v193, main_v194, main_v195, main_v196, main_cst_42, main_v197, main_v198, main_v199, main_v200, main_v201, main_v202, main_v203, main_v204, main_v205, main_v206]
theorem hostOps2_writes : (hostOps2 : List (HloOp τ sig (Elt F))).Forall fun op => op.writes ⊆ (hostOps2_W.map (Proc.devRef (τ := τ) .tc)).toFinset := by
  simp only [List.Forall]; repeat' apply And.intro
  all_goals exact StableHlo.writes_sub_of_mem rfl (by decide)

theorem hostOps3_fresh : (hostOps3 : List (HloOp τ sig (Elt F))).Forall fun op => op.fresh = ∅ := by
  simp only [List.Forall]; repeat' constructor
abbrev hostOps3_W : List (Ref sig .tc) := [main_v208, main_v209]
theorem hostOps3_writes : (hostOps3 : List (HloOp τ sig (Elt F))).Forall fun op => op.writes ⊆ (hostOps3_W.map (Proc.devRef (τ := τ) .tc)).toFinset := by
  simp only [List.Forall]; repeat' apply And.intro
  all_goals exact StableHlo.writes_sub_of_mem rfl (by decide)

end Cert.Kernel.Hand

end
-- ==== Proof.K.Fold.lean ====
import proofs.«428193_j13675175870529_1_alg».proof.Proof.K.Dat0
import proofs.«428193_j13675175870529_1_alg».proof.Proof.K.Dat1
import proofs.«428193_j13675175870529_1_alg».proof.Proof.K.Dat2
import proofs.«428193_j13675175870529_1_alg».proof.Proof.K.Dat3
import proofs.«428193_j13675175870529_1_alg».proof.Proof.K.Writes
import Idealize.ShloMosaic.Lib.Pipeline.FrameSuffix
import Idealize.ShloMosaic.Lib.Pipeline.RegionsLoop
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev W5 : Dev nD → Valuation τ sig (Elt F) := fun c => StableHlo.after hostOps0_4 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N

abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N

abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec2 c (W9 m ρ c) fun w => (dat2 (V9 m ρ) c).arrAt w cfg2.N

abbrev W11 : Dev nD → Valuation τ sig (Elt F) := fun c => StableHlo.after hostOps3 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec3 c (W11 m ρ c) fun w => (dat3 (V11 m ρ) c).arrAt w cfg3.N

theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b := by decide) :
    W6 m ρ c (Proc.devRef .tc b) = W5 m ρ c (Proc.devRef .tc b) := by
  unfold W6; exact Pipeline.withArrays_of_ne spec0 c _ _ b hb

theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b := by decide) :
    W8 m ρ c (Proc.devRef .tc b) = W7 m ρ c (Proc.devRef .tc b) := by
  unfold W8; exact Pipeline.withArrays_of_ne spec1 c _ _ b hb

theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b := by decide) :
    W10 m ρ c (Proc.devRef .tc b) = W9 m ρ c (Proc.devRef .tc b) := by
  unfold W10; exact Pipeline.withArrays_of_ne spec2 c _ _ b hb

theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b := by decide) :
    W12 m ρ c (Proc.devRef .tc b) = W11 m ρ c (Proc.devRef .tc b) := by
  unfold W12; exact Pipeline.withArrays_of_ne spec3 c _ _ b hb

theorem W1_of (c : Dev nD) (r : Ref sig .tc) (h : r ∉ hostOps0_W := by decide) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W := by decide) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W := by decide) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W := by decide) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W := by decide) : W5 m ρ c (Proc.devRef .tc r) = W4 m ρ c (Proc.devRef .tc r) :=
  StableHlo.after_of_writes_sub hostOps0_4 _ hostOps0_4_writes h
theorem W7_of (c : Dev nD) (r : Ref sig .tc) (h : r ∉ hostOps1_W := by decide) : W7 m ρ c (Proc.devRef .tc r) = W6 m ρ c (Proc.devRef .tc r) :=
  StableHlo.after_of_writes_sub hostOps1 _ hostOps1_writes h
theorem W9_of (c : Dev nD) (r : Ref sig .tc) (h : r ∉ hostOps2_W := by decide) : W9 m ρ c (Proc.devRef .tc r) = W8 m ρ c (Proc.devRef .tc r) :=
  StableHlo.after_of_writes_sub hostOps2 _ hostOps2_writes h
theorem W11_of (c : Dev nD) (r : Ref sig .tc) (h : r ∉ hostOps3_W := by decide) : W11 m ρ c (Proc.devRef .tc r) = W10 m ρ c (Proc.devRef .tc r) :=
  StableHlo.after_of_writes_sub hostOps3 _ hostOps3_writes h

/-- A reference no host stretch writes and no region has among its arrays keeps its launch contents. -/
theorem W11_keep (c : Dev nD) (r : Ref sig .tc)
    (h0 : r ∉ hostOps0_W := by decide) (h1 : r ∉ hostOps0_1_W := by decide) (h2 : r ∉ hostOps0_2_W := by decide) (h3 : r ∉ hostOps0_3_W := by decide) (h4 : r ∉ hostOps0_4_W := by decide)
    (h5 : r ∉ hostOps1_W := by decide) (h6 : r ∉ hostOps2_W := by decide) (h7 : r ∉ hostOps3_W := by decide)
    (a0 : ∀ w, Pipeline.arrRef spec0 w ≠ r := by decide) (a1 : ∀ w, Pipeline.arrRef spec1 w ≠ r := by decide) (a2 : ∀ w, Pipeline.arrRef spec2 w ≠ r := by decide) :
    W11 m ρ c (Proc.devRef .tc r) = m ((c : Thread nD τ).loc r) :=
  (W11_of m ρ c r h7).trans <| (W10_of_ne m ρ c r a2).trans <| (W9_of m ρ c r h6).trans <| (W8_of_ne m ρ c r a1).trans <|
    (W7_of m ρ c r h5).trans <| (W6_of_ne m ρ c r a0).trans <| (W5_of m ρ c r h4).trans <| (W4_of m ρ c r h3).trans <|
    (W3_of m ρ c r h2).trans <| (W2_of m ρ c r h1).trans <| (W1_of m ρ c r h0).trans rfl

theorem W12_keep (c : Dev nD) (r : Ref sig .tc)
    (h0 : r ∉ hostOps0_W := by decide) (h1 : r ∉ hostOps0_1_W := by decide) (h2 : r ∉ hostOps0_2_W := by decide) (h3 : r ∉ hostOps0_3_W := by decide) (h4 : r ∉ hostOps0_4_W := by decide)
    (h5 : r ∉ hostOps1_W := by decide) (h6 : r ∉ hostOps2_W := by decide) (h7 : r ∉ hostOps3_W := by decide)
    (a0 : ∀ w, Pipeline.arrRef spec0 w ≠ r := by decide) (a1 : ∀ w, Pipeline.arrRef spec1 w ≠ r := by decide) (a2 : ∀ w, Pipeline.arrRef spec2 w ≠ r := by decide)
    (a3 : ∀ w, Pipeline.arrRef spec3 w ≠ r := by decide) :
    W12 m ρ c (Proc.devRef .tc r) = m ((c : Thread nD τ).loc r) :=
  (W12_of_ne m ρ c r a3).trans (W11_keep m ρ c r h0 h1 h2 h3 h4 h5 h6 h7 a0 a1 a2)

theorem W12_main_arg8 (c : Dev nD) : W12 m ρ c (Proc.devRef .tc main_arg8) = m ((c : Thread nD τ).loc main_arg8) :=
  (W12_arr m ρ c 2).trans <| ((dat3 (V11 m ρ) c).arrAt_in 2 rfl _).trans <| (A_eq3 (V11 m ρ) c 2).trans <|
    W11_keep m ρ c main_arg8

end Cert.Kernel.Hand

end
-- ==== Proof.K.Body0.lean ====
import proofs.«428193_j13675175870529_1_alg».proof.Proof.K.Dat0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

set_option maxHeartbeats 4000000 in

theorem sound_kernel0 (c : Dev nD) (E : Set ℕ) (i : grid0.Coords)
    (arg1 : Memref sig .tc .vmem S10000x10 .f32) (harg1 : arg1.IsWhole) (arg2 : Memref sig .tc .vmem S10x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x10 .f32) (x1 : Vec F S10x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__tagconv_kernel i arg1 harg1 arg2 harg2 arg3 harg3 arg4 harg4) K := by
  simp only [cc0__tagconv_kernel_eq_skeleton]; unfold cc0__tagconv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«428193_j13675175870529_1_alg».proof.Proof.K.Dat1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

set_option maxHeartbeats 4000000 in

theorem sound_kernel1 (c : Dev nD) (E : Set ℕ) (i : grid1.Coords)
    (arg1 : Memref sig .tc .vmem S10000x80 .f32) (harg1 : arg1.IsWhole) (arg2 : Memref sig .tc .vmem S80x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x80 .f32) (x1 : Vec F S80x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__tagconv_kernel i arg1 harg1 arg2 harg2 arg3 harg3 arg4 harg4) K := by
  simp only [cc1__tagconv_kernel_eq_skeleton]; unfold cc1__tagconv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«428193_j13675175870529_1_alg».proof.Proof.K.Dat2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

set_option maxHeartbeats 4000000 in

theorem sound_kernel2 (c : Dev nD) (E : Set ℕ) (i : grid2.Coords)
    (arg1 : Memref sig .tc .vmem S10000x80 .f32) (harg1 : arg1.IsWhole) (arg2 : Memref sig .tc .vmem S80x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x80 .f32) (x1 : Vec F S80x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__tagconv_kernel i arg1 harg1 arg2 harg2 arg3 harg3 arg4 harg4) K := by
  simp only [cc2__tagconv_kernel_eq_skeleton]; unfold cc2__tagconv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
import proofs.«428193_j13675175870529_1_alg».proof.Proof.K.Dat3
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1

theorem hcond3_1 : ∀ t : Fin cfg3.N, cond3_1 (grid3.coords t) ↔ t.val = 19 :=
  (by decide +kernel : ∀ t : Fin grid3.N, cond3_1 (grid3.coords t) ↔ t.val = 19)

theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

theorem zero_off3 : (![0, 0] : Fin 2 → Nat) = fun _ => 0 := funext fun a => by fin_cases a <;> rfl

theorem read_writes_whole3 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

theorem sep_regroup3 {M : Type} [URA M] (P Q R : sProp M) : iprop((P ∗ Q) ∗ R) = iprop(P ∗ Q ∗ R) :=
  Idealize.SL.BI.Entails.antisymm (Idealize.SL.BI.sep_assoc (P := P) (Q := Q) (R := R)) (Idealize.SL.BI.sep_assoc' (P := P) (Q := Q) (R := R))

theorem PhiA3_eq (c : Dev nD) :
    (Pipeline.ΦA spec3 c : sProp 𝕄)
      = iprop(others3 (F := F) c ∗ (∃ d, owns (c : Thread nD τ) scM3_0 fullShare d) ∗ (∃ d, owns (c : Thread nD τ) scM3_1 fullShare d)
          ∗ (∃ r, prngReg c r)) := by
  unfold Pipeline.ΦA others3; rw [scopedRest3_eq]; simp only [scM3_0, scM3_1, owns_whole, sep_regroup3]
  rfl

set_option maxHeartbeats 4000000 in

theorem sound_kernel3_mid (c : Dev nD) (E : Set ℕ) (i : grid3.Coords)
    (arg1 : Memref sig .tc .vmem S5000x16 .f32) (harg1 : arg1.IsWhole) (arg2 : Memref sig .tc .vmem S5000x1 .i32) (harg2 : arg2.IsWhole)
    (arg3 : Memref sig .tc .vmem S16x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x16 .f32) (harg6 : arg6.IsWhole)
    (arg7 : Memref sig .tc .vmem S64x1 .f32) (harg7 : arg7.IsWhole)
    (hc0 : ¬cond3_0 i) (hc1 : ¬cond3_1 i)
    (x0 : Vec F S5000x16 .f32) (x1 : Vec F S5000x1 .i32) (x2 : Vec F S16x1 .f32) (x3 : Vec F S1x1 .f32) (x4 : Vec F S64x1 .f32)
    (xs0 : Vec F S64x16 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay4 x1 x0 xs0) ∗ owns (c : Thread nD τ) arg7 fullShare (k3_pay5 x1 xs1)) -∗ K ⟨⟩))
      ⊢ wp frame (wpE (defs₀ (F := F)) Variants.none c none) E (cc3__pool_head_kernel i arg1 harg1 arg2 harg2 arg3 harg3 arg4 harg4 arg5 harg5 arg6 harg6 arg7 harg7) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    rw [read_writes_whole3 _ _ zero_off3]
    simp only [View.readAt_eq_ld, hf0, hf1, hfs0, View.ld_unit_zero (S := S5000x1) zero_off3, View.ld_unit_zero (S := S5000x16) zero_off3, View.ld_unit_zero (S := S64x16) zero_off3]
  iexists _; isplitr
  swap; · iexact HS1
  ipureintro
  rw [read_writes_whole3 _ _ zero_off3]
  simp only [View.readAt_eq_ld, hf1, hfs1, View.ld_unit_zero (S := S5000x1) zero_off3, View.ld_unit_zero (S := S64x1) zero_off3]

set_option maxHeartbeats 4000000 in

theorem sound_kernel3_first (c : Dev nD) (E : Set ℕ) (i : grid3.Coords)
    (arg1 : Memref sig .tc .vmem S5000x16 .f32) (harg1 : arg1.IsWhole) (arg2 : Memref sig .tc .vmem S5000x1 .i32) (harg2 : arg2.IsWhole)
    (arg3 : Memref sig .tc .vmem S16x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x16 .f32) (harg6 : arg6.IsWhole)
    (arg7 : Memref sig .tc .vmem S64x1 .f32) (harg7 : arg7.IsWhole)
    (hc0 : cond3_0 i) (hc1 : ¬cond3_1 i)
    (x0 : Vec F S5000x16 .f32) (x1 : Vec F S5000x1 .i32) (x2 : Vec F S16x1 .f32) (x3 : Vec F S1x1 .f32) (x4 : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay4 x1 x0 (k3_pay1 (F := F)))
            ∗ owns (c : Thread nD τ) arg7 fullShare (k3_pay5 x1 (k3_pay2 (F := F)))) -∗ K ⟨⟩))
      ⊢ wp frame (wpE (defs₀ (F := F)) Variants.none c none) E (cc3__pool_head_kernel i arg1 harg1 arg2 harg2 arg3 harg3 arg4 harg4 arg5 harg5 arg6 harg6 arg7 harg7) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    sl_unfold_run_names
    rw [read_writes_whole3 _ _ zero_off3]
    simp only [View.readAt_eq_ld, hf0, hf1, View.ld_unit_zero (S := S5000x1) zero_off3, View.ld_unit_zero (S := S5000x16) zero_off3, View.readCov_unit_zero (S := S64x16) _ zero_off3]
  iexists _; isplitr
  swap; · iexact HS1
  ipureintro
  sl_unfold_run_names
  rw [read_writes_whole3 _ _ zero_off3]
  simp only [View.readAt_eq_ld, hf1, View.ld_unit_zero (S := S5000x1) zero_off3, View.readCov_unit_zero (S := S64x1) _ zero_off3]

set_option maxHeartbeats 4000000 in

theorem sound_kernel3_last (c : Dev nD) (E : Set ℕ) (i : grid3.Coords)
    (arg1 : Memref sig .tc .vmem S5000x16 .f32) (harg1 : arg1.IsWhole) (arg2 : Memref sig .tc .vmem S5000x1 .i32) (harg2 : arg2.IsWhole)
    (arg3 : Memref sig .tc .vmem S16x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x16 .f32) (harg6 : arg6.IsWhole)
    (arg7 : Memref sig .tc .vmem S64x1 .f32) (harg7 : arg7.IsWhole)
    (hc0 : ¬cond3_0 i) (hc1 : cond3_1 i)
    (x0 : Vec F S5000x16 .f32) (x1 : Vec F S5000x1 .i32) (x2 : Vec F S16x1 .f32) (x3 : Vec F S1x1 .f32)
    (xs0 : Vec F S64x16 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k3_pay6 (k3_pay5 x1 xs1) (k3_pay4 x1 x0 xs0) x2 x3)
            ∗ owns (c : Thread nD τ) arg6 fullShare (k3_pay4 x1 x0 xs0) ∗ owns (c : Thread nD τ) arg7 fullShare (k3_pay5 x1 xs1)) -∗ K ⟨⟩))
      ⊢ wp frame (wpE (defs₀ (F := F)) Variants.none c none) E (cc3__pool_head_kernel i arg1 harg1 arg2 harg2 arg3 harg3 arg4 harg4 arg5 harg5 arg6 harg6 arg7 harg7) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [read_writes_whole3 _ _ zero_off3]
    simp only [View.readAt_eq_ld, hf0, hf1, hf2, hf3, hfs0, hfs1, View.ld_unit_zero (S := S5000x1) zero_off3, View.ld_unit_zero (S := S5000x16) zero_off3,
      View.ld_unit_zero (S := S64x16) zero_off3, View.ld_unit_zero (S := S64x1) zero_off3, View.ld_unit_zero (S := S16x1) zero_off3, View.ld_unit_zero (S := S1x1) zero_off3,
      View.readCov_unit_zero (S := S64x16) _ zero_off3, View.readCov_unit_zero (S := S64x1) _ zero_off3]
  isplitl [HS0]
  · iexists _; isplitr
    swap; · iexact HS0
    ipureintro
    sl_unfold_run_names
    rw [read_writes_whole3 _ _ zero_off3]
    simp only [View.readAt_eq_ld, hf0, hf1, hfs0, View.ld_unit_zero (S := S5000x1) zero_off3, View.ld_unit_zero (S := S5000x16) zero_off3, View.ld_unit_zero (S := S64x16) zero_off3]
  iexists _; isplitr
  swap; · iexact HS1
  ipureintro
  sl_unfold_run_names
  rw [read_writes_whole3 _ _ zero_off3]
  simp only [View.readAt_eq_ld, hf1, hfs1, View.ld_unit_zero (S := S5000x1) zero_off3, View.ld_unit_zero (S := S64x1) zero_off3]

theorem accs3_first (c : Dev nD) (t : Fin cfg3.N) (h0 : t.val = 0) :
    accs3 V c t.val t.isLt = (k3_pay4 (iblk3 V c 1 t) (iblk3 V c 0 t) (k3_pay1 (F := F)), k3_pay5 (iblk3 V c 1 t) (k3_pay2 (F := F))) := by
  obtain ⟨n, hn⟩ := t
  cases n with
  | zero => rfl
  | succ n => exact absurd h0 (Nat.succ_ne_zero _)

theorem accs3_pos (c : Dev nD) (t : Fin cfg3.N) (h0 : t.val ≠ 0) :
    accs3 V c t.val t.isLt
      = (k3_pay4 (iblk3 V c 1 t) (iblk3 V c 0 t) (accs3 V c (t.val - 1) (Nat.lt_of_le_of_lt (Nat.sub_le _ _) t.isLt)).1,
         k3_pay5 (iblk3 V c 1 t) (accs3 V c (t.val - 1) (Nat.lt_of_le_of_lt (Nat.sub_le _ _) t.isLt)).2) := by
  obtain ⟨n, hn⟩ := t
  cases n with
  | zero => exact absurd rfl h0
  | succ n => rfl

theorem PhiS3_pos (c : Dev nD) (n : ℕ) (h : n ≤ cfg3.N) (hz : n ≠ 0) :
    PhiS3 V c n h = iprop(others3 (F := F) c
      ∗ owns (c : Thread nD τ) scM3_0 fullShare (accs3 V c (n - 1) (by omega)).1
      ∗ owns (c : Thread nD τ) scM3_1 fullShare (accs3 V c (n - 1) (by omega)).2
      ∗ (∃ r, prngReg c r)) := by
  cases n with
  | zero => exact absurd rfl hz
  | succ n => rfl

theorem leaves3_0 (c : Dev nD) (t : Fin cfg3.N) :
    (dat3 V c).leavesExact 0 t = owns (c : Thread nD τ) (st3_0 t) fullShare (iblk3 V c 0 t) := by
  rw [← after3_0 V c t]
theorem leaves3_1 (c : Dev nD) (t : Fin cfg3.N) :
    (dat3 V c).leavesExact 1 t = owns (c : Thread nD τ) (st3_1 t) fullShare (iblk3 V c 1 t) := by
  rw [← after3_1 V c t]
theorem leaves3_2 (c : Dev nD) (t : Fin cfg3.N) :
    (dat3 V c).leavesExact 2 t = owns (c : Thread nD τ) (st3_2 t) fullShare (iblk3 V c 2 t) := by
  rw [← after3_2 V c t]
theorem leaves3_3 (c : Dev nD) (t : Fin cfg3.N) :
    (dat3 V c).leavesExact 3 t = owns (c : Thread nD τ) (st3_3 t) fullShare (iblk3 V c 3 t) := by
  rw [← after3_3 V c t]
theorem leaves3_4_idle (c : Dev nD) (t : Fin cfg3.N) (hc1 : ¬cond3_1 (grid3.coords t)) :
    (dat3 V c).leavesExact 4 t = iprop(∃ d, owns (c : Thread nD τ) (st3_4 t) fullShare ((dat3 V c).before 4 t d)) :=
  Dat.leavesExact_idle (dat3 V c) 4 t (idleAt3_4 t hc1) (noFlush3_4 t hc1)
theorem leaves3_4_live (c : Dev nD) (t : Fin cfg3.N) (hc1 : cond3_1 (grid3.coords t)) :
    (dat3 V c).leavesExact 4 t = owns (c : Thread nD τ) (st3_4 t) fullShare
      (k3_pay6 (accs3 V c t.val t.isLt).2 (accs3 V c t.val t.isLt).1 (iblk3 V c 2 t) (iblk3 V c 3 t)) := by
  rw [← after3_4 V c t]; unfold Dat.leavesExact; rw [liveAt3_4 t hc1]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, PhiS3_castSucc V c t]
  have hN : t.val < 20 := lt_of_lt_of_eq t.isLt (show cfg3.N = 20 from N_3)
  by_cases h0 : t.val = 0
  · have hc0 : cond3_0 (grid3.coords t) := (hcond3_0 t).mpr h0
    have hc1 : ¬cond3_1 (grid3.coords t) := fun h => by have := (hcond3_1 t).mp h; omega
    rw [leaves3_4_idle V c t hc1, PhiS3_zero V c _ _ h0, PhiA3_eq, accs3_first V c t h0]
    dsimp only
    iintro ⟨⟨Hoth, ⟨%ds0, HS0⟩, ⟨%ds1, HS1⟩, Hg⟩, Ho, ⟨%d0, H0⟩, ⟨%d1, H1⟩, ⟨%d2, H2⟩, ⟨%d3, H3⟩, ⟨%d4, H4⟩⟩
    iapply (sound_kernel3_first c Set.univ _ _ _ _ _ _ _ _ _ _ _ _ _ _ _ hc0 hc1 (iblk3 V c 0 t) (iblk3 V c 1 t) (iblk3 V c 2 t) (iblk3 V c 3 t)
      ((dat3 V c).before 4 t d4) _)
    iframe
    isplitl [HS0]; · iexists _; iexact HS0
    isplitl [HS1]; · iexists _; iexact HS1
    iintro ⟨H0, H1, H2, H3, H4, HS0, HS1⟩
    iframe
    iexists _; iexact H4
  · have hc0 : ¬cond3_0 (grid3.coords t) := fun h => h0 ((hcond3_0 t).mp h)
    rw [PhiS3_pos V c _ _ h0, accs3_pos V c t h0]
    by_cases h1 : t.val = 19
    · have hc1 : cond3_1 (grid3.coords t) := (hcond3_1 t).mpr h1
      rw [leaves3_4_live V c t hc1, accs3_pos V c t h0]
      dsimp only
      iintro ⟨⟨Hoth, HS0, HS1, Hg⟩, Ho, ⟨%d0, H0⟩, ⟨%d1, H1⟩, ⟨%d2, H2⟩, ⟨%d3, H3⟩, ⟨%d4, H4⟩⟩
      iapply (sound_kernel3_last c Set.univ _ _ _ _ _ _ _ _ _ _ _ _ _ _ _ hc0 hc1 (iblk3 V c 0 t) (iblk3 V c 1 t) (iblk3 V c 2 t) (iblk3 V c 3 t)
        (accs3 V c (t.val - 1) (Nat.lt_of_le_of_lt (Nat.sub_le _ _) t.isLt)).1 (accs3 V c (t.val - 1) (Nat.lt_of_le_of_lt (Nat.sub_le _ _) t.isLt)).2 _)
      iframe
      isplitl [H4]; · iexists _; iexact H4
      iintro ⟨H0, H1, H2, H3, H4, HS0, HS1⟩
      iframe
    · have hc1 : ¬cond3_1 (grid3.coords t) := fun h => h1 ((hcond3_1 t).mp h)
      rw [leaves3_4_idle V c t hc1]
      dsimp only
      iintro ⟨⟨Hoth, HS0, HS1, Hg⟩, Ho, ⟨%d0, H0⟩, ⟨%d1, H1⟩, ⟨%d2, H2⟩, ⟨%d3, H3⟩, ⟨%d4, H4⟩⟩
      iapply (sound_kernel3_mid c Set.univ _ _ _ _ _ _ _ _ _ _ _ _ _ _ _ hc0 hc1 (iblk3 V c 0 t) (iblk3 V c 1 t) (iblk3 V c 2 t) (iblk3 V c 3 t)
        ((dat3 V c).before 4 t d4)
        (accs3 V c (t.val - 1) (Nat.lt_of_le_of_lt (Nat.sub_le _ _) t.isLt)).1 (accs3 V c (t.val - 1) (Nat.lt_of_le_of_lt (Nat.sub_le _ _) t.isLt)).2 _)
      iframe
      iintro ⟨H0, H1, H2, H3, H4, HS0, HS1⟩
      iframe
      iexists _; iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]

theorem hout3 (c : Dev nD) : (dat3 V c).Φ (Fin.last cfg3.N) ⊢ Pipeline.ΦA spec3 c := by
  have hne : (Fin.last cfg3.N).val ≠ 0 := by rw [Fin.val_last]; have : cfg3.N = 20 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨Hoth, HS0, HS1, Hg⟩
  iframe
  isplitl [HS0]; · iexists _; iexact HS0
  iexists _; iexact HS1

end Cert.Kernel.Hand

end
-- ==== Proof.K.Run.lean ====
import proofs.«428193_j13675175870529_1_alg».proof.Proof.K.Fold
import proofs.«428193_j13675175870529_1_alg».proof.Proof.K.Body0
import proofs.«428193_j13675175870529_1_alg».proof.Proof.K.Body1
import proofs.«428193_j13675175870529_1_alg».proof.Proof.K.Body2
import proofs.«428193_j13675175870529_1_alg».proof.Proof.K.Body3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

abbrev atTc (W : Dev nD → Valuation τ sig (Elt F)) : (c : Dev nD) → (b : Ref sig .tc) → Buf (Elt F) ((c : Thread nD τ).loc b) := fun c b => W c b

set_option backward.isDefEq.respectTransparency.types false in
/-- A region whose arrays are taken out of the core's buffers at its entry and put back at its exit, for any of the pipelines. -/
def regOf (p : Fin 4) (launch : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (howed : ∀ c t, (pdats m ρ p c).owed t = 0)
    (hq : ∀ c w, (pdats m ρ p c).share w = fullShare) (hrec : ∀ c x, x ∈ (pdats m ρ p c).recorded 0)
    (hA : ∀ c w, (pdats m ρ p c).A w = atTc Win c (Pipeline.arrRef (pcfgs (F := F) p).spec w))
    (hΦ0 : ∀ c, Pipeline.ΦA (pcfgs (F := F) p).spec c ⊢ (pdats m ρ p c).Φ 0)
    (hΦN : ∀ c, (pdats m ρ p c).Φ (Fin.last _) ⊢ Pipeline.ΦA (pcfgs (F := F) p).spec c)
    (hF : ∀ c w, atTc Wout c (Pipeline.arrRef (pcfgs (F := F) p).spec w) = (pdats m ρ p c).arrAt w (Pipeline.pin (pcfgs (F := F)) adm p).N)
    (hrest : ∀ c (b : Ref sig .tc), (∀ w, Pipeline.arrRef (pcfgs (F := F) p).spec w ≠ b) → atTc Wout c b = atTc Win c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (atTc Win c)
  hentry c := by
    rw [Pipeline.ownSems0_none]
    have hsplit := Pipeline.arrays_of_unscopedBufs (p := p) (pcfgs (F := F)) adm (pdats m ρ) launch.win launch.arr_whole c
      (hq c) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl (hrec c x)
      iexact HO
    isplitl [Hp]; · iexact Hp
    iexact Hrest
  hin c := by
    refine (show _ ⊢ Pipeline.ΦA (pcfgs (F := F) p).spec c from ?_).trans (hΦ0 c)
    unfold Pipeline.ΦA
    iintro ⟨Hp, -, Hr⟩
    isplitl [Hr]; · iexact Hr
    iexact Hp
  hout c := by
    refine (hΦN c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) (hq c)
      (atTc Win c) (atTc Wout c) ((pdats m ρ p c).arrAt · (Pipeline.pin (pcfgs (F := F)) adm p).N) (fun w => (hF c w).symm)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W5 m ρ) (W6 m ρ) (fun c => (body_obligation0 (V5 m ρ) c).loose) (fun _ _ => rfl)
    (fun c => (pdats m ρ 0 c).share_full fun _ => rfl) (fun _ _ => trivial) (fun _ _ => rfl) (fun _ => .rfl) (fun _ => .rfl) (W6_arr m ρ) (fun c b hb => W6_of_ne m ρ c b hb)
set_option backward.isDefEq.respectTransparency.types false in
def reg1 : Pipeline.RegionSeg (pcfgs (F := F)) adm (pdats m ρ) () defs₀ 𝒱₀ L lv 1 :=
  regOf m ρ 1 launch1 (W7 m ρ) (W8 m ρ) (fun c => (body_obligation1 (V7 m ρ) c).loose) (fun _ _ => rfl)
    (fun c => (pdats m ρ 1 c).share_full fun _ => rfl) (fun _ _ => trivial) (fun _ _ => rfl) (fun _ => .rfl) (fun _ => .rfl) (W8_arr m ρ) (fun c b hb => W8_of_ne m ρ c b hb)
set_option backward.isDefEq.respectTransparency.types false in
def reg2 : Pipeline.RegionSeg (pcfgs (F := F)) adm (pdats m ρ) () defs₀ 𝒱₀ L lv 2 :=
  regOf m ρ 2 launch2 (W9 m ρ) (W10 m ρ) (fun c => (body_obligation2 (V9 m ρ) c).loose) (fun _ _ => rfl)
    (fun c => (pdats m ρ 2 c).share_full fun _ => rfl) (fun _ _ => trivial) (fun _ _ => rfl) (fun _ => .rfl) (fun _ => .rfl) (W10_arr m ρ) (fun c b hb => W10_of_ne m ρ c b hb)
set_option backward.isDefEq.respectTransparency.types false in
def reg3 : Pipeline.RegionSeg (pcfgs (F := F)) adm (pdats m ρ) () defs₀ 𝒱₀ L lv 3 :=
  regOf m ρ 3 launch3 (W11 m ρ) (W12 m ρ) (fun c => (body_obligation3 (V11 m ρ) c).loose) (fun _ _ => rfl)
    (fun c => (pdats m ρ 3 c).share_full fun _ => rfl) (fun _ _ => trivial) (fun _ _ => rfl) (hin3 (V11 m ρ)) (hout3 (V11 m ρ)) (W12_arr m ρ) (fun c b hb => W12_of_ne m ρ c b hb)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ) ]

theorem main_run (c : Dev nD) : main (F := F) c = Pipeline.Seg.run (segs m ρ) := (main_chain c).trans (by chain_rfl)

set_option backward.isDefEq.respectTransparency.types false in

/-- Twelve segments in a row: each host stretch and each region carries every buffer from one stage of the fold to the next. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W12_keep m ρ c main_arg0),
     (h c _ (mem_uc main_arg1 (by decide))).trans (W12_keep m ρ c main_arg1),
     (h c _ (mem_uc main_arg2 (by decide))).trans (W12_keep m ρ c main_arg2),
     (h c _ (mem_uc main_arg3 (by decide))).trans (W12_keep m ρ c main_arg3),
     (h c _ (mem_uc main_arg4 (by decide))).trans (W12_keep m ρ c main_arg4),
     (h c _ (mem_uc main_arg5 (by decide))).trans (W12_keep m ρ c main_arg5),
     (h c _ (mem_uc main_arg6 (by decide))).trans (W12_keep m ρ c main_arg6),
     (h c _ (mem_uc main_arg7 (by decide))).trans (W12_keep m ρ c main_arg7),
     (h c _ (mem_uc main_arg8 (by decide))).trans (W12_main_arg8 m ρ c),
     (h c _ (mem_uc main_arg9 (by decide))).trans (W12_keep m ρ c main_arg9)⟩)
    (run_all m ρ)

end Cert.Kernel.Hand

end
-- ==== Proof.KI.Dat0.lean ====
import proofs.«428193_j13675175870529_1_alg».proof.Proof.Gen.KernelIdeal.Launch
import proofs.«428193_j13675175870529_1_alg».proof.Proof.Gen.KernelIdeal.Skeleton
import proofs.«428193_j13675175870529_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x10 := Rect.unit (s := S10000x10) ![0, 0] S10000x10.size inb_S10000x10_S10000x10_0_0
abbrev r0_1 : Rect S10x16 := Rect.unit (s := S10x16) ![0, 0] S10x16.size inb_S10x16_S10x16_0_0
abbrev r0_2 : Rect S1x16 := Rect.unit (s := S1x16) ![0, 0] S1x16.size inb_S1x16_S1x16_0_0
abbrev r0_3 : Rect S10000x16 := Rect.unit (s := S10000x16) ![0, 0] S10000x16.size inb_S10000x16_S10000x16_0_0

def out0_3 (x0 : Vec F S10000x10 .f32) (x1 : Vec F S10x16 .f32) (x2 : Vec F S1x16 .f32) : Vec F S10000x16 .f32 :=
  View.canon [⟨r0_3, k0_pay1 (View.ld x0 r0_0) (View.ld x1 r0_1) (View.ld x2 r0_2)⟩]

theorem cover0_3 (p0 : Vec F S10000x16 .f32) (y : S10000x16.Idx) :
    ∃ pc ∈ ([⟨r0_3, p0⟩] : List (View.Piece (Elt F) S10000x16 .f32)), y ∈ pc.1.set :=
  View.cover_of_tiled [⟨r0_3, p0⟩] S10000x16.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.Dat1.lean ====
import proofs.«428193_j13675175870529_1_alg».proof.Proof.Gen.KernelIdeal.Launch
import proofs.«428193_j13675175870529_1_alg».proof.Proof.Gen.KernelIdeal.Skeleton
import proofs.«428193_j13675175870529_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x80 := Rect.unit (s := S10000x80) ![0, 0] S10000x80.size inb_S10000x80_S10000x80_0_0
abbrev r1_1 : Rect S80x16 := Rect.unit (s := S80x16) ![0, 0] S80x16.size inb_S80x16_S80x16_0_0
abbrev r1_2 : Rect S1x16 := Rect.unit (s := S1x16) ![0, 0] S1x16.size inb_S1x16_S1x16_0_0
abbrev r1_3 : Rect S10000x16 := Rect.unit (s := S10000x16) ![0, 0] S10000x16.size inb_S10000x16_S10000x16_0_0

def out1_3 (x0 : Vec F S10000x80 .f32) (x1 : Vec F S80x16 .f32) (x2 : Vec F S1x16 .f32) : Vec F S10000x16 .f32 :=
  View.canon [⟨r1_3, k1_pay1 (View.ld x0 r1_0) (View.ld x1 r1_1) (View.ld x2 r1_2)⟩]

theorem cover1_3 (p0 : Vec F S10000x16 .f32) (y : S10000x16.Idx) :
    ∃ pc ∈ ([⟨r1_3, p0⟩] : List (View.Piece (Elt F) S10000x16 .f32)), y ∈ pc.1.set :=
  View.cover_of_tiled [⟨r1_3, p0⟩] S10000x16.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.Dat2.lean ====
import proofs.«428193_j13675175870529_1_alg».proof.Proof.Gen.KernelIdeal.Launch
import proofs.«428193_j13675175870529_1_alg».proof.Proof.Gen.KernelIdeal.Skeleton
import proofs.«428193_j13675175870529_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x80 := Rect.unit (s := S10000x80) ![0, 0] S10000x80.size inb_S10000x80_S10000x80_0_0
abbrev r2_1 : Rect S80x16 := Rect.unit (s := S80x16) ![0, 0] S80x16.size inb_S80x16_S80x16_0_0
abbrev r2_2 : Rect S1x16 := Rect.unit (s := S1x16) ![0, 0] S1x16.size inb_S1x16_S1x16_0_0
abbrev r2_3 : Rect S10000x16 := Rect.unit (s := S10000x16) ![0, 0] S10000x16.size inb_S10000x16_S10000x16_0_0

def out2_3 (x0 : Vec F S10000x80 .f32) (x1 : Vec F S80x16 .f32) (x2 : Vec F S1x16 .f32) : Vec F S10000x16 .f32 :=
  View.canon [⟨r2_3, k2_pay1 (View.ld x0 r2_0) (View.ld x1 r2_1) (View.ld x2 r2_2)⟩]

theorem cover2_3 (p0 : Vec F S10000x16 .f32) (y : S10000x16.Idx) :
    ∃ pc ∈ ([⟨r2_3, p0⟩] : List (View.Piece (Elt F) S10000x16 .f32)), y ∈ pc.1.set :=
  View.cover_of_tiled [⟨r2_3, p0⟩] S10000x16.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.Dat3.lean ====
import proofs.«428193_j13675175870529_1_alg».proof.Proof.Gen.KernelIdeal.Launch
import proofs.«428193_j13675175870529_1_alg».proof.Proof.Gen.KernelIdeal.Skeleton
import proofs.«428193_j13675175870529_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3_0 : Memref sig .tc .vmem S64x16 .f32 := Memref.whole cc3_scratch0
abbrev scM3_1 : Memref sig .tc .vmem S64x1 .f32 := Memref.whole cc3_scratch1

def accs3 (c : Dev nD) : (n : ℕ) → n < cfg3.N → Vec F S64x16 .f32 × Vec F S64x1 .f32
  | 0, hn => (k3_pay4 (iblk3 V c 1 ⟨0, hn⟩) (iblk3 V c 0 ⟨0, hn⟩) (k3_pay1 (F := F)),
              k3_pay5 (iblk3 V c 1 ⟨0, hn⟩) (k3_pay2 (F := F)))
  | n + 1, hn => (k3_pay4 (iblk3 V c 1 ⟨n + 1, hn⟩) (iblk3 V c 0 ⟨n + 1, hn⟩) (accs3 c n (Nat.lt_of_succ_lt hn)).1,
                  k3_pay5 (iblk3 V c 1 ⟨n + 1, hn⟩) (accs3 c n (Nat.lt_of_succ_lt hn)).2)

theorem accs3_zero (c : Dev nD) (hn : 0 < cfg3.N) :
    accs3 V c 0 hn = (k3_pay4 (iblk3 V c 1 ⟨0, hn⟩) (iblk3 V c 0 ⟨0, hn⟩) (k3_pay1 (F := F)),
      k3_pay5 (iblk3 V c 1 ⟨0, hn⟩) (k3_pay2 (F := F))) := rfl

theorem accs3_succ (c : Dev nD) (n : ℕ) (hn : n + 1 < cfg3.N) :
    accs3 V c (n + 1) hn = (k3_pay4 (iblk3 V c 1 ⟨n + 1, hn⟩) (iblk3 V c 0 ⟨n + 1, hn⟩) (accs3 V c n (Nat.lt_of_succ_lt hn)).1,
      k3_pay5 (iblk3 V c 1 ⟨n + 1, hn⟩) (accs3 V c n (Nat.lt_of_succ_lt hn)).2) := rfl

def others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

def PhiS3 (c : Dev nD) : (n : ℕ) → n ≤ cfg3.N → sProp 𝕄
  | 0, _ => Pipeline.ΦA spec3 c
  | n + 1, hn => iprop(others3 (F := F) c
      ∗ owns (c : Thread nD τ) scM3_0 fullShare (accs3 V c n (Nat.lt_of_succ_le hn)).1
      ∗ owns (c : Thread nD τ) scM3_1 fullShare (accs3 V c n (Nat.lt_of_succ_le hn)).2
      ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(others3 (F := F) c
      ∗ owns (c : Thread nD τ) scM3_0 fullShare (accs3 V c n hn).1
      ∗ owns (c : Thread nD τ) scM3_1 fullShare (accs3 V c n hn).2
      ∗ (∃ r, prngReg c r)) := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay6 (accs3 V c t.val t.isLt).2 (accs3 V c t.val t.isLt).1 (iblk3 V c 2 t) (iblk3 V c 3 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay6 (accs3 V c t.val t.isLt).2 (accs3 V c t.val t.isLt).1 (iblk3 V c 2 t) (iblk3 V c 3 t) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

end Cert.KernelIdeal.Hand

end
-- ==== Proof.KI.Writes.lean ====
import proofs.«428193_j13675175870529_1_alg».proof.Proof.Gen.KernelIdeal.Launch
import proofs.«428193_j13675175870529_1_alg».proof.Proof.LibWrites

noncomputable section

namespace Cert.KernelIdeal.Hand

open Cert.KernelIdeal Cert.KernelIdeal.Gen
open Idealize.ShloMosaic Idealize.ShloMosaic.TcCoe Idealize.SL.Sem

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_cst, main_v6, main_v7, main_v8, main_cst_0, main_v9, main_v10, main_cst_1, main_v11, main_v12, main_cst_2]
theorem hostOps0_writes : (hostOps0 : List (HloOp τ sig (Elt F))).Forall fun op => op.writes ⊆ (hostOps0_W.map (Proc.devRef (τ := τ) .tc)).toFinset := by
  simp only [List.Forall]; repeat' apply And.intro
  all_goals exact StableHlo.writes_sub_of_mem rfl (by decide)

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals exact StableHlo.writes_sub_of_mem rfl (by decide)

theorem hostOps0_2_fresh : (hostOps0_2 : List (HloOp τ sig (Elt F))).Forall fun op => op.fresh = ∅ := by
  simp only [List.Forall]; repeat' constructor
abbrev hostOps0_2_W : List (Ref sig .tc) := [main_v14, main_cst_3]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals exact StableHlo.writes_sub_of_mem rfl (by decide)

theorem hostOps0_3_fresh : (hostOps0_3 : List (HloOp τ sig (Elt F))).Forall fun op => op.fresh = ∅ := by
  simp only [List.Forall]; repeat' constructor
abbrev hostOps0_3_W : List (Ref sig .tc) := [main_call1_v0, main_call1_v1, main_v15]
theorem hostOps0_3_writes : (hostOps0_3 : List (HloOp τ sig (Elt F))).Forall fun op => op.writes ⊆ (hostOps0_3_W.map (Proc.devRef (τ := τ) .tc)).toFinset := by
  simp only [List.Forall]; repeat' apply And.intro
  all_goals exact StableHlo.writes_sub_of_mem rfl (by decide)

theorem hostOps0_4_fresh : (hostOps0_4 : List (HloOp τ sig (Elt F))).Forall fun op => op.fresh = ∅ := by
  simp only [List.Forall]; repeat' constructor
abbrev hostOps0_4_W : List (Ref sig .tc) := [main_c, main_v16, main_v17, main_c_4, main_v18, main_v19, main_v20, main_v21, main_v22, main_v23, main_c_5, main_v24, main_v25, main_c_6, main_v26, main_v27, main_v28, main_v29, main_v30, main_v31, main_c_7, main_v32, main_v33, main_c_8, main_v34, main_v35, main_v36, main_v37, main_v38, main_v39, main_v40, main_v41, main_cst_9, main_v42, main_v43, main_v44, main_c_10, main_v45, main_v46, main_c_11, main_v47, main_v48, main_v49, main_v50, main_v51, main_v52, main_v53, main_v54, main_cst_12, main_v55, main_v56, main_v57, main_c_13, main_v58, main_v59, main_c_14, main_v60, main_v61, main_v62, main_v63, main_v64, main_v65, main_v66, main_v67, main_cst_15, main_v68, main_v69, main_v70, main_c_16, main_v71, main_v72, main_c_17, main_v73, main_v74, main_v75, main_v76, main_v77, main_v78, main_v79, main_v80, main_cst_18, main_v81, main_v82, main_v83, main_v84, main_v85, main_v86]
theorem hostOps0_4_writes : (hostOps0_4 : List (HloOp τ sig (Elt F))).Forall fun op => op.writes ⊆ (hostOps0_4_W.map (Proc.devRef (τ := τ) .tc)).toFinset := by
  simp only [List.Forall]; repeat' apply And.intro
  all_goals exact StableHlo.writes_sub_of_mem rfl (by decide)

theorem hostOps1_fresh : (hostOps1 : List (HloOp τ sig (Elt F))).Forall fun op => op.fresh = ∅ := by
  simp only [List.Forall]; repeat' constructor
abbrev hostOps1_W : List (Ref sig .tc) := [main_c_19, main_v88, main_v89, main_c_20, main_v90, main_v91, main_v92, main_v93, main_v94, main_v95, main_v96, main_v97, main_cst_21, main_v98, main_v99, main_v100, main_c_22, main_v101, main_v102, main_c_23, main_v103, main_v104, main_v105, main_v106, main_v107, main_v108, main_v109, main_v110, main_cst_24, main_v111, main_v112, main_v113, main_c_25, main_v114, main_v115, main_c_26, main_v116, main_v117, main_v118, main_v119, main_v120, main_v121, main_v122, main_v123, main_cst_27, main_v124, main_v125, main_v126, main_c_28, main_v127, main_v128, main_c_29, main_v129, main_v130, main_v131, main_v132, main_v133, main_v134, main_v135, main_v136, main_cst_30, main_v137, main_v138, main_v139, main_v140, main_v141, main_v142, main_v143, main_v144, main_v145, main_v146]
theorem hostOps1_writes : (hostOps1 : List (HloOp τ sig (Elt F))).Forall fun op => op.writes ⊆ (hostOps1_W.map (Proc.devRef (τ := τ) .tc)).toFinset := by
  simp only [List.Forall]; repeat' apply And.intro
  all_goals exact StableHlo.writes_sub_of_mem rfl (by decide)

theorem hostOps2_fresh : (hostOps2 : List (HloOp τ sig (Elt F))).Forall fun op => op.fresh = ∅ := by
  simp only [List.Forall]; repeat' constructor
abbrev hostOps2_W : List (Ref sig .tc) := [main_c_31, main_v148, main_v149, main_c_32, main_v150, main_v151, main_v152, main_v153, main_v154, main_v155, main_v156, main_v157, main_cst_33, main_v158, main_v159, main_v160, main_c_34, main_v161, main_v162, main_c_35, main_v163, main_v164, main_v165, main_v166, main_v167, main_v168, main_v169, main_v170, main_cst_36, main_v171, main_v172, main_v173, main_c_37, main_v174, main_v175, main_c_38, main_v176, main_v177, main_v178, main_v179, main_v180, main_v181, main_v182, main_v183, main_cst_39, main_v184, main_v185, main_v186, main_c_40, main_v187, main_v188, main_c_41, main_v189, main_v190, main_v191, main_v192, main_v193, main_v194, main_v195, main_v196, main_cst_42, main_v197, main_v198, main_v199, main_v200, main_v201, main_v202, main_v203, main_v204, main_v205, main_v206]
theorem hostOps2_writes : (hostOps2 : List (HloOp τ sig (Elt F))).Forall fun op => op.writes ⊆ (hostOps2_W.map (Proc.devRef (τ := τ) .tc)).toFinset := by
  simp only [List.Forall]; repeat' apply And.intro
  all_goals exact StableHlo.writes_sub_of_mem rfl (by decide)

theorem hostOps3_fresh : (hostOps3 : List (HloOp τ sig (Elt F))).Forall fun op => op.fresh = ∅ := by
  simp only [List.Forall]; repeat' constructor
abbrev hostOps3_W : List (Ref sig .tc) := [main_v208, main_v209]
theorem hostOps3_writes : (hostOps3 : List (HloOp τ sig (Elt F))).Forall fun op => op.writes ⊆ (hostOps3_W.map (Proc.devRef (τ := τ) .tc)).toFinset := by
  simp only [List.Forall]; repeat' apply And.intro
  all_goals exact StableHlo.writes_sub_of_mem rfl (by decide)

end Cert.KernelIdeal.Hand

end
-- ==== Proof.KI.Fold.lean ====
import proofs.«428193_j13675175870529_1_alg».proof.Proof.KI.Dat0
import proofs.«428193_j13675175870529_1_alg».proof.Proof.KI.Dat1
import proofs.«428193_j13675175870529_1_alg».proof.Proof.KI.Dat2
import proofs.«428193_j13675175870529_1_alg».proof.Proof.KI.Dat3
import proofs.«428193_j13675175870529_1_alg».proof.Proof.KI.Writes
import Idealize.ShloMosaic.Lib.Pipeline.FrameSuffix
import Idealize.ShloMosaic.Lib.Pipeline.RegionsLoop
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev W5 : Dev nD → Valuation τ sig (Elt F) := fun c => StableHlo.after hostOps0_4 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N

abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N

abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec2 c (W9 m ρ c) fun w => (dat2 (V9 m ρ) c).arrAt w cfg2.N

abbrev W11 : Dev nD → Valuation τ sig (Elt F) := fun c => StableHlo.after hostOps3 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec3 c (W11 m ρ c) fun w => (dat3 (V11 m ρ) c).arrAt w cfg3.N

theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b := by decide) :
    W6 m ρ c (Proc.devRef .tc b) = W5 m ρ c (Proc.devRef .tc b) := by
  unfold W6; exact Pipeline.withArrays_of_ne spec0 c _ _ b hb

theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b := by decide) :
    W8 m ρ c (Proc.devRef .tc b) = W7 m ρ c (Proc.devRef .tc b) := by
  unfold W8; exact Pipeline.withArrays_of_ne spec1 c _ _ b hb

theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b := by decide) :
    W10 m ρ c (Proc.devRef .tc b) = W9 m ρ c (Proc.devRef .tc b) := by
  unfold W10; exact Pipeline.withArrays_of_ne spec2 c _ _ b hb

theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b := by decide) :
    W12 m ρ c (Proc.devRef .tc b) = W11 m ρ c (Proc.devRef .tc b) := by
  unfold W12; exact Pipeline.withArrays_of_ne spec3 c _ _ b hb

theorem W1_of (c : Dev nD) (r : Ref sig .tc) (h : r ∉ hostOps0_W := by decide) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W := by decide) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W := by decide) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W := by decide) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W := by decide) : W5 m ρ c (Proc.devRef .tc r) = W4 m ρ c (Proc.devRef .tc r) :=
  StableHlo.after_of_writes_sub hostOps0_4 _ hostOps0_4_writes h
theorem W7_of (c : Dev nD) (r : Ref sig .tc) (h : r ∉ hostOps1_W := by decide) : W7 m ρ c (Proc.devRef .tc r) = W6 m ρ c (Proc.devRef .tc r) :=
  StableHlo.after_of_writes_sub hostOps1 _ hostOps1_writes h
theorem W9_of (c : Dev nD) (r : Ref sig .tc) (h : r ∉ hostOps2_W := by decide) : W9 m ρ c (Proc.devRef .tc r) = W8 m ρ c (Proc.devRef .tc r) :=
  StableHlo.after_of_writes_sub hostOps2 _ hostOps2_writes h
theorem W11_of (c : Dev nD) (r : Ref sig .tc) (h : r ∉ hostOps3_W := by decide) : W11 m ρ c (Proc.devRef .tc r) = W10 m ρ c (Proc.devRef .tc r) :=
  StableHlo.after_of_writes_sub hostOps3 _ hostOps3_writes h

/-- A reference no host stretch writes and no region has among its arrays keeps its launch contents. -/
theorem W11_keep (c : Dev nD) (r : Ref sig .tc)
    (h0 : r ∉ hostOps0_W := by decide) (h1 : r ∉ hostOps0_1_W := by decide) (h2 : r ∉ hostOps0_2_W := by decide) (h3 : r ∉ hostOps0_3_W := by decide) (h4 : r ∉ hostOps0_4_W := by decide)
    (h5 : r ∉ hostOps1_W := by decide) (h6 : r ∉ hostOps2_W := by decide) (h7 : r ∉ hostOps3_W := by decide)
    (a0 : ∀ w, Pipeline.arrRef spec0 w ≠ r := by decide) (a1 : ∀ w, Pipeline.arrRef spec1 w ≠ r := by decide) (a2 : ∀ w, Pipeline.arrRef spec2 w ≠ r := by decide) :
    W11 m ρ c (Proc.devRef .tc r) = m ((c : Thread nD τ).loc r) :=
  (W11_of m ρ c r h7).trans <| (W10_of_ne m ρ c r a2).trans <| (W9_of m ρ c r h6).trans <| (W8_of_ne m ρ c r a1).trans <|
    (W7_of m ρ c r h5).trans <| (W6_of_ne m ρ c r a0).trans <| (W5_of m ρ c r h4).trans <| (W4_of m ρ c r h3).trans <|
    (W3_of m ρ c r h2).trans <| (W2_of m ρ c r h1).trans <| (W1_of m ρ c r h0).trans rfl

theorem W12_keep (c : Dev nD) (r : Ref sig .tc)
    (h0 : r ∉ hostOps0_W := by decide) (h1 : r ∉ hostOps0_1_W := by decide) (h2 : r ∉ hostOps0_2_W := by decide) (h3 : r ∉ hostOps0_3_W := by decide) (h4 : r ∉ hostOps0_4_W := by decide)
    (h5 : r ∉ hostOps1_W := by decide) (h6 : r ∉ hostOps2_W := by decide) (h7 : r ∉ hostOps3_W := by decide)
    (a0 : ∀ w, Pipeline.arrRef spec0 w ≠ r := by decide) (a1 : ∀ w, Pipeline.arrRef spec1 w ≠ r := by decide) (a2 : ∀ w, Pipeline.arrRef spec2 w ≠ r := by decide)
    (a3 : ∀ w, Pipeline.arrRef spec3 w ≠ r := by decide) :
    W12 m ρ c (Proc.devRef .tc r) = m ((c : Thread nD τ).loc r) :=
  (W12_of_ne m ρ c r a3).trans (W11_keep m ρ c r h0 h1 h2 h3 h4 h5 h6 h7 a0 a1 a2)

theorem W12_main_arg8 (c : Dev nD) : W12 m ρ c (Proc.devRef .tc main_arg8) = m ((c : Thread nD τ).loc main_arg8) :=
  (W12_arr m ρ c 2).trans <| ((dat3 (V11 m ρ) c).arrAt_in 2 rfl _).trans <| (A_eq3 (V11 m ρ) c 2).trans <|
    W11_keep m ρ c main_arg8

end Cert.KernelIdeal.Hand

end
-- ==== Proof.KI.Body0.lean ====
import proofs.«428193_j13675175870529_1_alg».proof.Proof.KI.Dat0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

set_option maxHeartbeats 4000000 in

theorem sound_kernel0 (c : Dev nD) (E : Set ℕ) (i : grid0.Coords)
    (arg1 : Memref sig .tc .vmem S10000x10 .f32) (harg1 : arg1.IsWhole) (arg2 : Memref sig .tc .vmem S10x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x10 .f32) (x1 : Vec F S10x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__tagconv_kernel i arg1 harg1 arg2 harg2 arg3 harg3 arg4 harg4) K := by
  simp only [cc0__tagconv_kernel_eq_skeleton]; unfold cc0__tagconv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«428193_j13675175870529_1_alg».proof.Proof.KI.Dat1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

set_option maxHeartbeats 4000000 in

theorem sound_kernel1 (c : Dev nD) (E : Set ℕ) (i : grid1.Coords)
    (arg1 : Memref sig .tc .vmem S10000x80 .f32) (harg1 : arg1.IsWhole) (arg2 : Memref sig .tc .vmem S80x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x80 .f32) (x1 : Vec F S80x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__tagconv_kernel i arg1 harg1 arg2 harg2 arg3 harg3 arg4 harg4) K := by
  simp only [cc1__tagconv_kernel_eq_skeleton]; unfold cc1__tagconv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«428193_j13675175870529_1_alg».proof.Proof.KI.Dat2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

set_option maxHeartbeats 4000000 in

theorem sound_kernel2 (c : Dev nD) (E : Set ℕ) (i : grid2.Coords)
    (arg1 : Memref sig .tc .vmem S10000x80 .f32) (harg1 : arg1.IsWhole) (arg2 : Memref sig .tc .vmem S80x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x80 .f32) (x1 : Vec F S80x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__tagconv_kernel i arg1 harg1 arg2 harg2 arg3 harg3 arg4 harg4) K := by
  simp only [cc2__tagconv_kernel_eq_skeleton]; unfold cc2__tagconv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
import proofs.«428193_j13675175870529_1_alg».proof.Proof.KI.Dat3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1

theorem hcond3_1 : ∀ t : Fin cfg3.N, cond3_1 (grid3.coords t) ↔ t.val = 19 :=
  (by decide +kernel : ∀ t : Fin grid3.N, cond3_1 (grid3.coords t) ↔ t.val = 19)

theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

theorem zero_off3 : (![0, 0] : Fin 2 → Nat) = fun _ => 0 := funext fun a => by fin_cases a <;> rfl

theorem read_writes_whole3 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

theorem sep_regroup3 {M : Type} [URA M] (P Q R : sProp M) : iprop((P ∗ Q) ∗ R) = iprop(P ∗ Q ∗ R) :=
  Idealize.SL.BI.Entails.antisymm (Idealize.SL.BI.sep_assoc (P := P) (Q := Q) (R := R)) (Idealize.SL.BI.sep_assoc' (P := P) (Q := Q) (R := R))

theorem PhiA3_eq (c : Dev nD) :
    (Pipeline.ΦA spec3 c : sProp 𝕄)
      = iprop(others3 (F := F) c ∗ (∃ d, owns (c : Thread nD τ) scM3_0 fullShare d) ∗ (∃ d, owns (c : Thread nD τ) scM3_1 fullShare d)
          ∗ (∃ r, prngReg c r)) := by
  unfold Pipeline.ΦA others3; rw [scopedRest3_eq]; simp only [scM3_0, scM3_1, owns_whole, sep_regroup3]
  rfl

set_option maxHeartbeats 4000000 in

theorem sound_kernel3_mid (c : Dev nD) (E : Set ℕ) (i : grid3.Coords)
    (arg1 : Memref sig .tc .vmem S5000x16 .f32) (harg1 : arg1.IsWhole) (arg2 : Memref sig .tc .vmem S5000x1 .i32) (harg2 : arg2.IsWhole)
    (arg3 : Memref sig .tc .vmem S16x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x16 .f32) (harg6 : arg6.IsWhole)
    (arg7 : Memref sig .tc .vmem S64x1 .f32) (harg7 : arg7.IsWhole)
    (hc0 : ¬cond3_0 i) (hc1 : ¬cond3_1 i)
    (x0 : Vec F S5000x16 .f32) (x1 : Vec F S5000x1 .i32) (x2 : Vec F S16x1 .f32) (x3 : Vec F S1x1 .f32) (x4 : Vec F S64x1 .f32)
    (xs0 : Vec F S64x16 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay4 x1 x0 xs0) ∗ owns (c : Thread nD τ) arg7 fullShare (k3_pay5 x1 xs1)) -∗ K ⟨⟩))
      ⊢ wp frame (wpE (defs₀ (F := F)) Variants.none c none) E (cc3__pool_head_kernel i arg1 harg1 arg2 harg2 arg3 harg3 arg4 harg4 arg5 harg5 arg6 harg6 arg7 harg7) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    rw [read_writes_whole3 _ _ zero_off3]
    simp only [View.readAt_eq_ld, hf0, hf1, hfs0, View.ld_unit_zero (S := S5000x1) zero_off3, View.ld_unit_zero (S := S5000x16) zero_off3, View.ld_unit_zero (S := S64x16) zero_off3]
  iexists _; isplitr
  swap; · iexact HS1
  ipureintro
  rw [read_writes_whole3 _ _ zero_off3]
  simp only [View.readAt_eq_ld, hf1, hfs1, View.ld_unit_zero (S := S5000x1) zero_off3, View.ld_unit_zero (S := S64x1) zero_off3]

set_option maxHeartbeats 4000000 in

theorem sound_kernel3_first (c : Dev nD) (E : Set ℕ) (i : grid3.Coords)
    (arg1 : Memref sig .tc .vmem S5000x16 .f32) (harg1 : arg1.IsWhole) (arg2 : Memref sig .tc .vmem S5000x1 .i32) (harg2 : arg2.IsWhole)
    (arg3 : Memref sig .tc .vmem S16x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x16 .f32) (harg6 : arg6.IsWhole)
    (arg7 : Memref sig .tc .vmem S64x1 .f32) (harg7 : arg7.IsWhole)
    (hc0 : cond3_0 i) (hc1 : ¬cond3_1 i)
    (x0 : Vec F S5000x16 .f32) (x1 : Vec F S5000x1 .i32) (x2 : Vec F S16x1 .f32) (x3 : Vec F S1x1 .f32) (x4 : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay4 x1 x0 (k3_pay1 (F := F)))
            ∗ owns (c : Thread nD τ) arg7 fullShare (k3_pay5 x1 (k3_pay2 (F := F)))) -∗ K ⟨⟩))
      ⊢ wp frame (wpE (defs₀ (F := F)) Variants.none c none) E (cc3__pool_head_kernel i arg1 harg1 arg2 harg2 arg3 harg3 arg4 harg4 arg5 harg5 arg6 harg6 arg7 harg7) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    sl_unfold_run_names
    rw [read_writes_whole3 _ _ zero_off3]
    simp only [View.readAt_eq_ld, hf0, hf1, View.ld_unit_zero (S := S5000x1) zero_off3, View.ld_unit_zero (S := S5000x16) zero_off3, View.readCov_unit_zero (S := S64x16) _ zero_off3]
  iexists _; isplitr
  swap; · iexact HS1
  ipureintro
  sl_unfold_run_names
  rw [read_writes_whole3 _ _ zero_off3]
  simp only [View.readAt_eq_ld, hf1, View.ld_unit_zero (S := S5000x1) zero_off3, View.readCov_unit_zero (S := S64x1) _ zero_off3]

set_option maxHeartbeats 4000000 in

theorem sound_kernel3_last (c : Dev nD) (E : Set ℕ) (i : grid3.Coords)
    (arg1 : Memref sig .tc .vmem S5000x16 .f32) (harg1 : arg1.IsWhole) (arg2 : Memref sig .tc .vmem S5000x1 .i32) (harg2 : arg2.IsWhole)
    (arg3 : Memref sig .tc .vmem S16x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x16 .f32) (harg6 : arg6.IsWhole)
    (arg7 : Memref sig .tc .vmem S64x1 .f32) (harg7 : arg7.IsWhole)
    (hc0 : ¬cond3_0 i) (hc1 : cond3_1 i)
    (x0 : Vec F S5000x16 .f32) (x1 : Vec F S5000x1 .i32) (x2 : Vec F S16x1 .f32) (x3 : Vec F S1x1 .f32)
    (xs0 : Vec F S64x16 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k3_pay6 (k3_pay5 x1 xs1) (k3_pay4 x1 x0 xs0) x2 x3)
            ∗ owns (c : Thread nD τ) arg6 fullShare (k3_pay4 x1 x0 xs0) ∗ owns (c : Thread nD τ) arg7 fullShare (k3_pay5 x1 xs1)) -∗ K ⟨⟩))
      ⊢ wp frame (wpE (defs₀ (F := F)) Variants.none c none) E (cc3__pool_head_kernel i arg1 harg1 arg2 harg2 arg3 harg3 arg4 harg4 arg5 harg5 arg6 harg6 arg7 harg7) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [read_writes_whole3 _ _ zero_off3]
    simp only [View.readAt_eq_ld, hf0, hf1, hf2, hf3, hfs0, hfs1, View.ld_unit_zero (S := S5000x1) zero_off3, View.ld_unit_zero (S := S5000x16) zero_off3,
      View.ld_unit_zero (S := S64x16) zero_off3, View.ld_unit_zero (S := S64x1) zero_off3, View.ld_unit_zero (S := S16x1) zero_off3, View.ld_unit_zero (S := S1x1) zero_off3,
      View.readCov_unit_zero (S := S64x16) _ zero_off3, View.readCov_unit_zero (S := S64x1) _ zero_off3]
  isplitl [HS0]
  · iexists _; isplitr
    swap; · iexact HS0
    ipureintro
    sl_unfold_run_names
    rw [read_writes_whole3 _ _ zero_off3]
    simp only [View.readAt_eq_ld, hf0, hf1, hfs0, View.ld_unit_zero (S := S5000x1) zero_off3, View.ld_unit_zero (S := S5000x16) zero_off3, View.ld_unit_zero (S := S64x16) zero_off3]
  iexists _; isplitr
  swap; · iexact HS1
  ipureintro
  sl_unfold_run_names
  rw [read_writes_whole3 _ _ zero_off3]
  simp only [View.readAt_eq_ld, hf1, hfs1, View.ld_unit_zero (S := S5000x1) zero_off3, View.ld_unit_zero (S := S64x1) zero_off3]

theorem accs3_first (c : Dev nD) (t : Fin cfg3.N) (h0 : t.val = 0) :
    accs3 V c t.val t.isLt = (k3_pay4 (iblk3 V c 1 t) (iblk3 V c 0 t) (k3_pay1 (F := F)), k3_pay5 (iblk3 V c 1 t) (k3_pay2 (F := F))) := by
  obtain ⟨n, hn⟩ := t
  cases n with
  | zero => rfl
  | succ n => exact absurd h0 (Nat.succ_ne_zero _)

theorem accs3_pos (c : Dev nD) (t : Fin cfg3.N) (h0 : t.val ≠ 0) :
    accs3 V c t.val t.isLt
      = (k3_pay4 (iblk3 V c 1 t) (iblk3 V c 0 t) (accs3 V c (t.val - 1) (Nat.lt_of_le_of_lt (Nat.sub_le _ _) t.isLt)).1,
         k3_pay5 (iblk3 V c 1 t) (accs3 V c (t.val - 1) (Nat.lt_of_le_of_lt (Nat.sub_le _ _) t.isLt)).2) := by
  obtain ⟨n, hn⟩ := t
  cases n with
  | zero => exact absurd rfl h0
  | succ n => rfl

theorem PhiS3_pos (c : Dev nD) (n : ℕ) (h : n ≤ cfg3.N) (hz : n ≠ 0) :
    PhiS3 V c n h = iprop(others3 (F := F) c
      ∗ owns (c : Thread nD τ) scM3_0 fullShare (accs3 V c (n - 1) (by omega)).1
      ∗ owns (c : Thread nD τ) scM3_1 fullShare (accs3 V c (n - 1) (by omega)).2
      ∗ (∃ r, prngReg c r)) := by
  cases n with
  | zero => exact absurd rfl hz
  | succ n => rfl

theorem leaves3_0 (c : Dev nD) (t : Fin cfg3.N) :
    (dat3 V c).leavesExact 0 t = owns (c : Thread nD τ) (st3_0 t) fullShare (iblk3 V c 0 t) := by
  rw [← after3_0 V c t]
theorem leaves3_1 (c : Dev nD) (t : Fin cfg3.N) :
    (dat3 V c).leavesExact 1 t = owns (c : Thread nD τ) (st3_1 t) fullShare (iblk3 V c 1 t) := by
  rw [← after3_1 V c t]
theorem leaves3_2 (c : Dev nD) (t : Fin cfg3.N) :
    (dat3 V c).leavesExact 2 t = owns (c : Thread nD τ) (st3_2 t) fullShare (iblk3 V c 2 t) := by
  rw [← after3_2 V c t]
theorem leaves3_3 (c : Dev nD) (t : Fin cfg3.N) :
    (dat3 V c).leavesExact 3 t = owns (c : Thread nD τ) (st3_3 t) fullShare (iblk3 V c 3 t) := by
  rw [← after3_3 V c t]
theorem leaves3_4_idle (c : Dev nD) (t : Fin cfg3.N) (hc1 : ¬cond3_1 (grid3.coords t)) :
    (dat3 V c).leavesExact 4 t = iprop(∃ d, owns (c : Thread nD τ) (st3_4 t) fullShare ((dat3 V c).before 4 t d)) :=
  Dat.leavesExact_idle (dat3 V c) 4 t (idleAt3_4 t hc1) (noFlush3_4 t hc1)
theorem leaves3_4_live (c : Dev nD) (t : Fin cfg3.N) (hc1 : cond3_1 (grid3.coords t)) :
    (dat3 V c).leavesExact 4 t = owns (c : Thread nD τ) (st3_4 t) fullShare
      (k3_pay6 (accs3 V c t.val t.isLt).2 (accs3 V c t.val t.isLt).1 (iblk3 V c 2 t) (iblk3 V c 3 t)) := by
  rw [← after3_4 V c t]; unfold Dat.leavesExact; rw [liveAt3_4 t hc1]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, PhiS3_castSucc V c t]
  have hN : t.val < 20 := lt_of_lt_of_eq t.isLt (show cfg3.N = 20 from N_3)
  by_cases h0 : t.val = 0
  · have hc0 : cond3_0 (grid3.coords t) := (hcond3_0 t).mpr h0
    have hc1 : ¬cond3_1 (grid3.coords t) := fun h => by have := (hcond3_1 t).mp h; omega
    rw [leaves3_4_idle V c t hc1, PhiS3_zero V c _ _ h0, PhiA3_eq, accs3_first V c t h0]
    dsimp only
    iintro ⟨⟨Hoth, ⟨%ds0, HS0⟩, ⟨%ds1, HS1⟩, Hg⟩, Ho, ⟨%d0, H0⟩, ⟨%d1, H1⟩, ⟨%d2, H2⟩, ⟨%d3, H3⟩, ⟨%d4, H4⟩⟩
    iapply (sound_kernel3_first c Set.univ _ _ _ _ _ _ _ _ _ _ _ _ _ _ _ hc0 hc1 (iblk3 V c 0 t) (iblk3 V c 1 t) (iblk3 V c 2 t) (iblk3 V c 3 t)
      ((dat3 V c).before 4 t d4) _)
    iframe
    isplitl [HS0]; · iexists _; iexact HS0
    isplitl [HS1]; · iexists _; iexact HS1
    iintro ⟨H0, H1, H2, H3, H4, HS0, HS1⟩
    iframe
    iexists _; iexact H4
  · have hc0 : ¬cond3_0 (grid3.coords t) := fun h => h0 ((hcond3_0 t).mp h)
    rw [PhiS3_pos V c _ _ h0, accs3_pos V c t h0]
    by_cases h1 : t.val = 19
    · have hc1 : cond3_1 (grid3.coords t) := (hcond3_1 t).mpr h1
      rw [leaves3_4_live V c t hc1, accs3_pos V c t h0]
      dsimp only
      iintro ⟨⟨Hoth, HS0, HS1, Hg⟩, Ho, ⟨%d0, H0⟩, ⟨%d1, H1⟩, ⟨%d2, H2⟩, ⟨%d3, H3⟩, ⟨%d4, H4⟩⟩
      iapply (sound_kernel3_last c Set.univ _ _ _ _ _ _ _ _ _ _ _ _ _ _ _ hc0 hc1 (iblk3 V c 0 t) (iblk3 V c 1 t) (iblk3 V c 2 t) (iblk3 V c 3 t)
        (accs3 V c (t.val - 1) (Nat.lt_of_le_of_lt (Nat.sub_le _ _) t.isLt)).1 (accs3 V c (t.val - 1) (Nat.lt_of_le_of_lt (Nat.sub_le _ _) t.isLt)).2 _)
      iframe
      isplitl [H4]; · iexists _; iexact H4
      iintro ⟨H0, H1, H2, H3, H4, HS0, HS1⟩
      iframe
    · have hc1 : ¬cond3_1 (grid3.coords t) := fun h => h1 ((hcond3_1 t).mp h)
      rw [leaves3_4_idle V c t hc1]
      dsimp only
      iintro ⟨⟨Hoth, HS0, HS1, Hg⟩, Ho, ⟨%d0, H0⟩, ⟨%d1, H1⟩, ⟨%d2, H2⟩, ⟨%d3, H3⟩, ⟨%d4, H4⟩⟩
      iapply (sound_kernel3_mid c Set.univ _ _ _ _ _ _ _ _ _ _ _ _ _ _ _ hc0 hc1 (iblk3 V c 0 t) (iblk3 V c 1 t) (iblk3 V c 2 t) (iblk3 V c 3 t)
        ((dat3 V c).before 4 t d4)
        (accs3 V c (t.val - 1) (Nat.lt_of_le_of_lt (Nat.sub_le _ _) t.isLt)).1 (accs3 V c (t.val - 1) (Nat.lt_of_le_of_lt (Nat.sub_le _ _) t.isLt)).2 _)
      iframe
      iintro ⟨H0, H1, H2, H3, H4, HS0, HS1⟩
      iframe
      iexists _; iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]

theorem hout3 (c : Dev nD) : (dat3 V c).Φ (Fin.last cfg3.N) ⊢ Pipeline.ΦA spec3 c := by
  have hne : (Fin.last cfg3.N).val ≠ 0 := by rw [Fin.val_last]; have : cfg3.N = 20 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨Hoth, HS0, HS1, Hg⟩
  iframe
  isplitl [HS0]; · iexists _; iexact HS0
  iexists _; iexact HS1

end Cert.KernelIdeal.Hand

end
-- ==== Proof.KI.Run.lean ====
import proofs.«428193_j13675175870529_1_alg».proof.Proof.KI.Fold
import proofs.«428193_j13675175870529_1_alg».proof.Proof.KI.Body0
import proofs.«428193_j13675175870529_1_alg».proof.Proof.KI.Body1
import proofs.«428193_j13675175870529_1_alg».proof.Proof.KI.Body2
import proofs.«428193_j13675175870529_1_alg».proof.Proof.KI.Body3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

abbrev atTc (W : Dev nD → Valuation τ sig (Elt F)) : (c : Dev nD) → (b : Ref sig .tc) → Buf (Elt F) ((c : Thread nD τ).loc b) := fun c b => W c b

set_option backward.isDefEq.respectTransparency.types false in
/-- A region whose arrays are taken out of the core's buffers at its entry and put back at its exit, for any of the pipelines. -/
def regOf (p : Fin 4) (launch : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (howed : ∀ c t, (pdats m ρ p c).owed t = 0)
    (hq : ∀ c w, (pdats m ρ p c).share w = fullShare) (hrec : ∀ c x, x ∈ (pdats m ρ p c).recorded 0)
    (hA : ∀ c w, (pdats m ρ p c).A w = atTc Win c (Pipeline.arrRef (pcfgs (F := F) p).spec w))
    (hΦ0 : ∀ c, Pipeline.ΦA (pcfgs (F := F) p).spec c ⊢ (pdats m ρ p c).Φ 0)
    (hΦN : ∀ c, (pdats m ρ p c).Φ (Fin.last _) ⊢ Pipeline.ΦA (pcfgs (F := F) p).spec c)
    (hF : ∀ c w, atTc Wout c (Pipeline.arrRef (pcfgs (F := F) p).spec w) = (pdats m ρ p c).arrAt w (Pipeline.pin (pcfgs (F := F)) adm p).N)
    (hrest : ∀ c (b : Ref sig .tc), (∀ w, Pipeline.arrRef (pcfgs (F := F) p).spec w ≠ b) → atTc Wout c b = atTc Win c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (atTc Win c)
  hentry c := by
    rw [Pipeline.ownSems0_none]
    have hsplit := Pipeline.arrays_of_unscopedBufs (p := p) (pcfgs (F := F)) adm (pdats m ρ) launch.win launch.arr_whole c
      (hq c) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl (hrec c x)
      iexact HO
    isplitl [Hp]; · iexact Hp
    iexact Hrest
  hin c := by
    refine (show _ ⊢ Pipeline.ΦA (pcfgs (F := F) p).spec c from ?_).trans (hΦ0 c)
    unfold Pipeline.ΦA
    iintro ⟨Hp, -, Hr⟩
    isplitl [Hr]; · iexact Hr
    iexact Hp
  hout c := by
    refine (hΦN c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) (hq c)
      (atTc Win c) (atTc Wout c) ((pdats m ρ p c).arrAt · (Pipeline.pin (pcfgs (F := F)) adm p).N) (fun w => (hF c w).symm)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W5 m ρ) (W6 m ρ) (fun c => (body_obligation0 (V5 m ρ) c).loose) (fun _ _ => rfl)
    (fun c => (pdats m ρ 0 c).share_full fun _ => rfl) (fun _ _ => trivial) (fun _ _ => rfl) (fun _ => .rfl) (fun _ => .rfl) (W6_arr m ρ) (fun c b hb => W6_of_ne m ρ c b hb)
set_option backward.isDefEq.respectTransparency.types false in
def reg1 : Pipeline.RegionSeg (pcfgs (F := F)) adm (pdats m ρ) () defs₀ 𝒱₀ L lv 1 :=
  regOf m ρ 1 launch1 (W7 m ρ) (W8 m ρ) (fun c => (body_obligation1 (V7 m ρ) c).loose) (fun _ _ => rfl)
    (fun c => (pdats m ρ 1 c).share_full fun _ => rfl) (fun _ _ => trivial) (fun _ _ => rfl) (fun _ => .rfl) (fun _ => .rfl) (W8_arr m ρ) (fun c b hb => W8_of_ne m ρ c b hb)
set_option backward.isDefEq.respectTransparency.types false in
def reg2 : Pipeline.RegionSeg (pcfgs (F := F)) adm (pdats m ρ) () defs₀ 𝒱₀ L lv 2 :=
  regOf m ρ 2 launch2 (W9 m ρ) (W10 m ρ) (fun c => (body_obligation2 (V9 m ρ) c).loose) (fun _ _ => rfl)
    (fun c => (pdats m ρ 2 c).share_full fun _ => rfl) (fun _ _ => trivial) (fun _ _ => rfl) (fun _ => .rfl) (fun _ => .rfl) (W10_arr m ρ) (fun c b hb => W10_of_ne m ρ c b hb)
set_option backward.isDefEq.respectTransparency.types false in
def reg3 : Pipeline.RegionSeg (pcfgs (F := F)) adm (pdats m ρ) () defs₀ 𝒱₀ L lv 3 :=
  regOf m ρ 3 launch3 (W11 m ρ) (W12 m ρ) (fun c => (body_obligation3 (V11 m ρ) c).loose) (fun _ _ => rfl)
    (fun c => (pdats m ρ 3 c).share_full fun _ => rfl) (fun _ _ => trivial) (fun _ _ => rfl) (hin3 (V11 m ρ)) (hout3 (V11 m ρ)) (W12_arr m ρ) (fun c b hb => W12_of_ne m ρ c b hb)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ) ]

theorem main_run (c : Dev nD) : main (F := F) c = Pipeline.Seg.run (segs m ρ) := (main_chain c).trans (by chain_rfl)

set_option backward.isDefEq.respectTransparency.types false in

/-- Twelve segments in a row: each host stretch and each region carries every buffer from one stage of the fold to the next. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W12_keep m ρ c main_arg0),
     (h c _ (mem_uc main_arg1 (by decide))).trans (W12_keep m ρ c main_arg1),
     (h c _ (mem_uc main_arg2 (by decide))).trans (W12_keep m ρ c main_arg2),
     (h c _ (mem_uc main_arg3 (by decide))).trans (W12_keep m ρ c main_arg3),
     (h c _ (mem_uc main_arg4 (by decide))).trans (W12_keep m ρ c main_arg4),
     (h c _ (mem_uc main_arg5 (by decide))).trans (W12_keep m ρ c main_arg5),
     (h c _ (mem_uc main_arg6 (by decide))).trans (W12_keep m ρ c main_arg6),
     (h c _ (mem_uc main_arg7 (by decide))).trans (W12_keep m ρ c main_arg7),
     (h c _ (mem_uc main_arg8 (by decide))).trans (W12_main_arg8 m ρ c),
     (h c _ (mem_uc main_arg9 (by decide))).trans (W12_keep m ρ c main_arg9)⟩)
    (run_all m ρ)

end Cert.KernelIdeal.Hand

end
-- ==== Proof.LibNary5.lean ====
import Idealize.ShloMosaic.Lib.StableHlo.Run

namespace Idealize.ShloMosaic.StableHlo

open Idealize.ShloMosaic

variable {τ : Topo} {sig : RefSig} {Val : EltTy → Type}
variable {x a b c d y : Ref sig .tc}

/-- A five-operand operation at its own result: its function of each operand's contents at the operand's own reference. -/
theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Idealize.ShloMosaic.StableHlo
-- ==== Proof.Val.Terms.lean ====
import proofs.«428193_j13675175870529_1_alg».proof.Proof.Gen.KernelIdeal
import proofs.«428193_j13675175870529_1_alg».proof.Proof.Gen.ReferenceIdeal

noncomputable section

namespace Cert.KernelIdeal.Hand

open Cert.KernelIdeal Cert.KernelIdeal.Gen
open Idealize.ShloMosaic

variable {F : FTy → Type} [FloatOps F]

def srcK (ei : IVec S2x3200000 32) : IVec S3200000 32 :=
  (shapeCast _ (extractStridedSlice S1x3200000 ![0, 0] ei slices_S2x3200000_S1x3200000_0_0) shapeCasts_S1x3200000_S3200000)

def dstK (ei : IVec S2x3200000 32) : IVec S3200000 32 :=
  (shapeCast _ (extractStridedSlice S1x3200000 ![1, 0] ei slices_S2x3200000_S1x3200000_1_0) shapeCasts_S1x3200000_S3200000)

def normK (ei : IVec S2x3200000 32) (ea : FVec F S3200000x7 .f32) : FVec F S3200000 .f32 :=
  let w := shapeCast _ (extractStridedSlice S3200000x1 ![0, 6] ea slices_S3200000x7_S3200000x1_0_6) shapeCasts_S3200000x1_S3200000
  let zero := broadcastInDim S100000 ![] bcast_S_S100000 (constant S_ .f32 0x00000000#32)
  let deg := Host.scatterAdd scatter_S100000_S3200000x1_S3200000_n_0_0_1 zero (broadcastInDim S3200000x1 ![0] bcast_S3200000_S3200000x1_0 (dstK ei)) w
  let dinv := select (cmpf .ogt deg zero) (Host.rsqrt (select (cmpf .ogt deg zero) deg (broadcastInDim S100000 ![] bcast_S_S100000 (constant S_ .f32 0x3F800000#32)))) zero
  let look (x : IVec S3200000 32) := Host.gather gather_S100000_S3200000x1_S3200000_n_0_n_n_0_1_1 dinv (broadcastInDim S3200000x1 ![0] bcast_S3200000_S3200000x1_0
    (select (cmpi .slt x (broadcastInDim S3200000 ![] bcast_S_S3200000 (constantI S_ 32 0#32))) (addi x (broadcastInDim S3200000 ![] bcast_S_S3200000 (constantI S_ 32 100000#32))) x))
  mulf (mulf (look (srcK ei)) w) (look (dstK ei))

def hopK2 (nrm : FVec F S3200000 .f32) (src : IVec S3200000 32) (dst : IVec S3200000 32) (h : FVec F S100000x2 .f32) : FVec F S100000x2 .f32 :=
  (Host.scatterAdd scatter_S100000x2_S3200000x1_S3200000x2_1_0_0_1 (broadcastInDim S100000x2 ![] bcast_S_S100000x2 (constant S_ .f32 0x00000000#32)) (broadcastInDim S3200000x1 ![0] bcast_S3200000_S3200000x1_0 dst) (mulf (Host.gather gather_S100000x2_S3200000x1_S3200000x2_1_0_n_n_0_1_12 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))) (broadcastInDim S3200000x2 ![0, 1] bcast_S3200000x1_S3200000x2_0_1 (broadcastInDim S3200000x1 ![0] bcast_S3200000_S3200000x1_0 nrm))))

def hopK16 (nrm : FVec F S3200000 .f32) (src : IVec S3200000 32) (dst : IVec S3200000 32) (h : FVec F S100000x16 .f32) : FVec F S100000x16 .f32 :=
  (Host.scatterAdd scatter_S100000x16_S3200000x1_S3200000x16_1_0_0_1 (broadcastInDim S100000x16 ![] bcast_S_S100000x16 (constant S_ .f32 0x00000000#32)) (broadcastInDim S3200000x1 ![0] bcast_S3200000_S3200000x1_0 dst) (mulf (Host.gather gather_S100000x16_S3200000x1_S3200000x16_1_0_n_n_0_1_116 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))) (broadcastInDim S3200000x16 ![0, 1] bcast_S3200000x1_S3200000x16_0_1 (broadcastInDim S3200000x1 ![0] bcast_S3200000_S3200000x1_0 nrm))))

end Cert.KernelIdeal.Hand

namespace Cert.ReferenceIdeal.Hand

open Cert.ReferenceIdeal Cert.ReferenceIdeal.Gen
open Idealize.ShloMosaic

variable {F : FTy → Type} [FloatOps F]

def srcR (ei : IVec S2x3200000 32) : IVec S3200000 32 :=
  (shapeCast _ (extractStridedSlice S1x3200000 ![0, 0] ei slices_S2x3200000_S1x3200000_0_0) shapeCasts_S1x3200000_S3200000)

def dstR (ei : IVec S2x3200000 32) : IVec S3200000 32 :=
  (shapeCast _ (extractStridedSlice S1x3200000 ![1, 0] ei slices_S2x3200000_S1x3200000_1_0) shapeCasts_S1x3200000_S3200000)

def normR (ei : IVec S2x3200000 32) (ea : FVec F S3200000x7 .f32) : FVec F S3200000 .f32 :=
  let w := shapeCast _ (extractStridedSlice S3200000x1 ![0, 6] ea slices_S3200000x7_S3200000x1_0_6) shapeCasts_S3200000x1_S3200000
  let zero := broadcastInDim S100000 ![] bcast_S_S100000 (constant S_ .f32 0x00000000#32)
  let deg := Host.scatterAdd scatter_S100000_S3200000x1_S3200000_n_0_0_1 zero (broadcastInDim S3200000x1 ![0] bcast_S3200000_S3200000x1_0 (dstR ei)) w
  let dinv := select (cmpf .ogt deg zero) (Host.rsqrt (select (cmpf .ogt deg zero) deg (broadcastInDim S100000 ![] bcast_S_S100000 (constant S_ .f32 0x3F800000#32)))) zero
  let look (x : IVec S3200000 32) := Host.gather gather_S100000_S3200000x1_S3200000_n_0_n_n_0_1_1 dinv (broadcastInDim S3200000x1 ![0] bcast_S3200000_S3200000x1_0
    (select (cmpi .slt x (broadcastInDim S3200000 ![] bcast_S_S3200000 (constantI S_ 32 0#32))) (addi x (broadcastInDim S3200000 ![] bcast_S_S3200000 (constantI S_ 32 100000#32))) x))
  mulf (mulf (look (srcR ei)) w) (look (dstR ei))

def hopR2 (nrm : FVec F S3200000 .f32) (src : IVec S3200000 32) (dst : IVec S3200000 32) (h : FVec F S100000x2 .f32) : FVec F S100000x2 .f32 :=
  (Host.scatterAdd scatter_S100000x2_S3200000x1_S3200000x2_1_0_0_1 (broadcastInDim S100000x2 ![] bcast_S_S100000x2 (constant S_ .f32 0x00000000#32)) (broadcastInDim S3200000x1 ![0] bcast_S3200000_S3200000x1_0 dst) (mulf (Host.gather gather_S100000x2_S3200000x1_S3200000x2_1_0_n_n_0_1_12 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))) (broadcastInDim S3200000x2 ![0, 1] bcast_S3200000x1_S3200000x2_0_1 (broadcastInDim S3200000x1 ![0] bcast_S3200000_S3200000x1_0 nrm))))

def hopR16 (nrm : FVec F S3200000 .f32) (src : IVec S3200000 32) (dst : IVec S3200000 32) (h : FVec F S100000x16 .f32) : FVec F S100000x16 .f32 :=
  (Host.scatterAdd scatter_S100000x16_S3200000x1_S3200000x16_1_0_0_1 (broadcastInDim S100000x16 ![] bcast_S_S100000x16 (constant S_ .f32 0x00000000#32)) (broadcastInDim S3200000x1 ![0] bcast_S3200000_S3200000x1_0 dst) (mulf (Host.gather gather_S100000x16_S3200000x1_S3200000x16_1_0_n_n_0_1_116 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))) (broadcastInDim S3200000x16 ![0, 1] bcast_S3200000x1_S3200000x16_0_1 (broadcastInDim S3200000x1 ![0] bcast_S3200000_S3200000x1_0 nrm))))

end Cert.ReferenceIdeal.Hand

end
-- ==== Proof.Val.KRead.lean ====
import proofs.«428193_j13675175870529_1_alg».proof.Proof.KI.Fold
import proofs.«428193_j13675175870529_1_alg».proof.Proof.LibNary5
import proofs.«428193_j13675175870529_1_alg».proof.Proof.Val.Terms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

theorem k1_src (c : Dev nD) : W5 m ρ c (Proc.devRef .tc main_v1) = srcK (m ((c : Thread nD τ).loc main_arg1)) := by
  show StableHlo.after hostOps0_4 (StableHlo.after hostOps0_3 (StableHlo.after hostOps0_2 (StableHlo.after hostOps0_1
    (StableHlo.after hostOps0 (W0 m ρ c))))) _ = _
  after_results_simp
  rfl
set_option maxHeartbeats 4000000 in

theorem k1_dst (c : Dev nD) : W5 m ρ c (Proc.devRef .tc main_v3) = dstK (m ((c : Thread nD τ).loc main_arg1)) := by
  show StableHlo.after hostOps0_4 (StableHlo.after hostOps0_3 (StableHlo.after hostOps0_2 (StableHlo.after hostOps0_1
    (StableHlo.after hostOps0 (W0 m ρ c))))) _ = _
  after_results_simp
  rfl
set_option maxHeartbeats 8000000 in

theorem k1_norm (c : Dev nD) : W5 m ρ c (Proc.devRef .tc main_v31)
    = normK (m ((c : Thread nD τ).loc main_arg1)) (m ((c : Thread nD τ).loc main_arg2)) := by
  show StableHlo.after hostOps0_4 (StableHlo.after hostOps0_3 (StableHlo.after hostOps0_2 (StableHlo.after hostOps0_1
    (StableHlo.after hostOps0 (W0 m ρ c))))) _ = _
  after_results_simp
  rfl

set_option maxHeartbeats 4000000 in
section

theorem k1_h1 (c : Dev nD) :
    W5 m ρ c (Proc.devRef .tc main_v44) = hopK2 (W5 m ρ c (Proc.devRef .tc main_v31)) (W5 m ρ c (Proc.devRef .tc main_v1)) (W5 m ρ c (Proc.devRef .tc main_v3)) (W5 m ρ c (Proc.devRef .tc main_arg0)) := by
  simp only [W5]
  generalize W4 m ρ c = V
  after_results_simp
  rfl
theorem k1_h2 (c : Dev nD) :
    W5 m ρ c (Proc.devRef .tc main_v57) = hopK2 (W5 m ρ c (Proc.devRef .tc main_v31)) (W5 m ρ c (Proc.devRef .tc main_v1)) (W5 m ρ c (Proc.devRef .tc main_v3)) (W5 m ρ c (Proc.devRef .tc main_v44)) := by
  simp only [W5]
  generalize W4 m ρ c = V
  after_results_simp
  rfl
theorem k1_h3 (c : Dev nD) :
    W5 m ρ c (Proc.devRef .tc main_v70) = hopK2 (W5 m ρ c (Proc.devRef .tc main_v31)) (W5 m ρ c (Proc.devRef .tc main_v1)) (W5 m ρ c (Proc.devRef .tc main_v3)) (W5 m ρ c (Proc.devRef .tc main_v57)) := by
  simp only [W5]
  generalize W4 m ρ c = V
  after_results_simp
  rfl
theorem k1_h4 (c : Dev nD) :
    W5 m ρ c (Proc.devRef .tc main_v83) = hopK2 (W5 m ρ c (Proc.devRef .tc main_v31)) (W5 m ρ c (Proc.devRef .tc main_v1)) (W5 m ρ c (Proc.devRef .tc main_v3)) (W5 m ρ c (Proc.devRef .tc main_v70)) := by
  simp only [W5]
  generalize W4 m ρ c = V
  after_results_simp
  rfl

theorem k1_stack (c : Dev nD) :
    W5 m ρ c (Proc.devRef .tc main_v84) = concatenate S100000x10 1 [⟨S100000x2, (W5 m ρ c (Proc.devRef .tc main_arg0))⟩, ⟨S100000x2, (W5 m ρ c (Proc.devRef .tc main_v44))⟩, ⟨S100000x2, (W5 m ρ c (Proc.devRef .tc main_v57))⟩, ⟨S100000x2, (W5 m ρ c (Proc.devRef .tc main_v70))⟩, ⟨S100000x2, (W5 m ρ c (Proc.devRef .tc main_v83))⟩]
      concatenates_S100000x2_S100000x2_S100000x2_S100000x2_S100000x2_S100000x10_d1 := by
  simp only [W5]
  generalize W4 m ρ c = V
  simp only [StableHlo.after_cons, StableHlo.after_nil]
  repeat (first
    | rw [StableHlo.nary5_result]
    | (rw [StableHlo.reshape_result_ne]; rotate_left; decide)
    | (rw [StableHlo.unary_result_ne]; rotate_left; decide)
    | (rw [StableHlo.nary_result_ne]; rotate_left; decide))
  rfl

theorem k1_w (c : Dev nD) :
    W5 m ρ c (Proc.devRef .tc main_v85) = shapeCast S10x16 (W5 m ρ c (Proc.devRef .tc main_arg4)) shapeCasts_S5x2x16_S10x16 := by
  simp only [W5]
  generalize W4 m ρ c = V
  after_results_simp
  rfl

theorem k1_b (c : Dev nD) :
    W5 m ρ c (Proc.devRef .tc main_v86) = shapeCast S1x16 (W5 m ρ c (Proc.devRef .tc main_arg5)) shapeCasts_S16_S1x16 := by
  simp only [W5]
  generalize W4 m ρ c = V
  after_results_simp
  rfl

end

set_option maxHeartbeats 4000000 in
section

theorem k2_h1 (c : Dev nD) :
    W7 m ρ c (Proc.devRef .tc main_v100) = hopK16 (W7 m ρ c (Proc.devRef .tc main_v31)) (W7 m ρ c (Proc.devRef .tc main_v1)) (W7 m ρ c (Proc.devRef .tc main_v3)) (W7 m ρ c (Proc.devRef .tc main_v87)) := by
  simp only [W7]
  generalize W6 m ρ c = V
  after_results_simp
  rfl
theorem k2_h2 (c : Dev nD) :
    W7 m ρ c (Proc.devRef .tc main_v113) = hopK16 (W7 m ρ c (Proc.devRef .tc main_v31)) (W7 m ρ c (Proc.devRef .tc main_v1)) (W7 m ρ c (Proc.devRef .tc main_v3)) (W7 m ρ c (Proc.devRef .tc main_v100)) := by
  simp only [W7]
  generalize W6 m ρ c = V
  after_results_simp
  rfl
theorem k2_h3 (c : Dev nD) :
    W7 m ρ c (Proc.devRef .tc main_v126) = hopK16 (W7 m ρ c (Proc.devRef .tc main_v31)) (W7 m ρ c (Proc.devRef .tc main_v1)) (W7 m ρ c (Proc.devRef .tc main_v3)) (W7 m ρ c (Proc.devRef .tc main_v113)) := by
  simp only [W7]
  generalize W6 m ρ c = V
  after_results_simp
  rfl
theorem k2_h4 (c : Dev nD) :
    W7 m ρ c (Proc.devRef .tc main_v139) = hopK16 (W7 m ρ c (Proc.devRef .tc main_v31)) (W7 m ρ c (Proc.devRef .tc main_v1)) (W7 m ρ c (Proc.devRef .tc main_v3)) (W7 m ρ c (Proc.devRef .tc main_v126)) := by
  simp only [W7]
  generalize W6 m ρ c = V
  after_results_simp
  rfl

theorem k2_stack (c : Dev nD) :
    W7 m ρ c (Proc.devRef .tc main_v140) = concatenate S100000x80 1 [⟨S100000x16, (W7 m ρ c (Proc.devRef .tc main_v87))⟩, ⟨S100000x16, (W7 m ρ c (Proc.devRef .tc main_v100))⟩, ⟨S100000x16, (W7 m ρ c (Proc.devRef .tc main_v113))⟩, ⟨S100000x16, (W7 m ρ c (Proc.devRef .tc main_v126))⟩, ⟨S100000x16, (W7 m ρ c (Proc.devRef .tc main_v139))⟩]
      concatenates_S100000x16_S100000x16_S100000x16_S100000x16_S100000x16_S100000x80_d1 := by
  simp only [W7]
  generalize W6 m ρ c = V
  simp only [StableHlo.after_cons, StableHlo.after_nil]
  repeat (first
    | rw [StableHlo.nary5_result]
    | (rw [StableHlo.reshape_result_ne]; rotate_left; decide)
    | (rw [StableHlo.unary_result_ne]; rotate_left; decide)
    | (rw [StableHlo.nary_result_ne]; rotate_left; decide))
  rfl

theorem k2_w (c : Dev nD) :
    W7 m ρ c (Proc.devRef .tc main_v143) = shapeCast S80x16 (shapeCast S5x16x16 (extractStridedSlice S1x5x16x16 ![0, 0, 0, 0] (W7 m ρ c (Proc.devRef .tc main_arg6)) slices_S2x5x16x16_S1x5x16x16_0_0_0_0) shapeCasts_S1x5x16x16_S5x16x16) shapeCasts_S5x16x16_S80x16 := by
  simp only [W7]
  generalize W6 m ρ c = V
  after_results_simp
  rfl

theorem k2_b (c : Dev nD) :
    W7 m ρ c (Proc.devRef .tc main_v146) = shapeCast S1x16 (shapeCast S16 (extractStridedSlice S1x16 ![0, 0] (W7 m ρ c (Proc.devRef .tc main_arg7)) slices_S2x16_S1x16_0_0) shapeCasts_S1x16_S16) shapeCasts_S16_S1x16 := by
  simp only [W7]
  generalize W6 m ρ c = V
  after_results_simp
  rfl

end

set_option maxHeartbeats 4000000 in
section

theorem k3_h1 (c : Dev nD) :
    W9 m ρ c (Proc.devRef .tc main_v160) = hopK16 (W9 m ρ c (Proc.devRef .tc main_v31)) (W9 m ρ c (Proc.devRef .tc main_v1)) (W9 m ρ c (Proc.devRef .tc main_v3)) (W9 m ρ c (Proc.devRef .tc main_v147)) := by
  simp only [W9]
  generalize W8 m ρ c = V
  after_results_simp
  rfl
theorem k3_h2 (c : Dev nD) :
    W9 m ρ c (Proc.devRef .tc main_v173) = hopK16 (W9 m ρ c (Proc.devRef .tc main_v31)) (W9 m ρ c (Proc.devRef .tc main_v1)) (W9 m ρ c (Proc.devRef .tc main_v3)) (W9 m ρ c (Proc.devRef .tc main_v160)) := by
  simp only [W9]
  generalize W8 m ρ c = V
  after_results_simp
  rfl
theorem k3_h3 (c : Dev nD) :
    W9 m ρ c (Proc.devRef .tc main_v186) = hopK16 (W9 m ρ c (Proc.devRef .tc main_v31)) (W9 m ρ c (Proc.devRef .tc main_v1)) (W9 m ρ c (Proc.devRef .tc main_v3)) (W9 m ρ c (Proc.devRef .tc main_v173)) := by
  simp only [W9]
  generalize W8 m ρ c = V
  after_results_simp
  rfl
theorem k3_h4 (c : Dev nD) :
    W9 m ρ c (Proc.devRef .tc main_v199) = hopK16 (W9 m ρ c (Proc.devRef .tc main_v31)) (W9 m ρ c (Proc.devRef .tc main_v1)) (W9 m ρ c (Proc.devRef .tc main_v3)) (W9 m ρ c (Proc.devRef .tc main_v186)) := by
  simp only [W9]
  generalize W8 m ρ c = V
  after_results_simp
  rfl

theorem k3_stack (c : Dev nD) :
    W9 m ρ c (Proc.devRef .tc main_v200) = concatenate S100000x80 1 [⟨S100000x16, (W9 m ρ c (Proc.devRef .tc main_v147))⟩, ⟨S100000x16, (W9 m ρ c (Proc.devRef .tc main_v160))⟩, ⟨S100000x16, (W9 m ρ c (Proc.devRef .tc main_v173))⟩, ⟨S100000x16, (W9 m ρ c (Proc.devRef .tc main_v186))⟩, ⟨S100000x16, (W9 m ρ c (Proc.devRef .tc main_v199))⟩]
      concatenates_S100000x16_S100000x16_S100000x16_S100000x16_S100000x16_S100000x80_d1 := by
  simp only [W9]
  generalize W8 m ρ c = V
  simp only [StableHlo.after_cons, StableHlo.after_nil]
  repeat (first
    | rw [StableHlo.nary5_result]
    | (rw [StableHlo.reshape_result_ne]; rotate_left; decide)
    | (rw [StableHlo.unary_result_ne]; rotate_left; decide)
    | (rw [StableHlo.nary_result_ne]; rotate_left; decide))
  rfl

theorem k3_w (c : Dev nD) :
    W9 m ρ c (Proc.devRef .tc main_v203) = shapeCast S80x16 (shapeCast S5x16x16 (extractStridedSlice S1x5x16x16 ![1, 0, 0, 0] (W9 m ρ c (Proc.devRef .tc main_arg6)) slices_S2x5x16x16_S1x5x16x16_1_0_0_0) shapeCasts_S1x5x16x16_S5x16x16) shapeCasts_S5x16x16_S80x16 := by
  simp only [W9]
  generalize W8 m ρ c = V
  after_results_simp
  rfl

theorem k3_b (c : Dev nD) :
    W9 m ρ c (Proc.devRef .tc main_v206) = shapeCast S1x16 (shapeCast S16 (extractStridedSlice S1x16 ![1, 0] (W9 m ρ c (Proc.devRef .tc main_arg7)) slices_S2x16_S1x16_1_0) shapeCasts_S1x16_S16) shapeCasts_S16_S1x16 := by
  simp only [W9]
  generalize W8 m ρ c = V
  after_results_simp
  rfl

end

theorem k4_bcol (c : Dev nD) :
    W11 m ρ c (Proc.devRef .tc main_v208) = shapeCast S100000x1 (W11 m ρ c (Proc.devRef .tc main_arg3)) shapeCasts_S100000_S100000x1 := by
  simp only [W11]
  generalize W10 m ρ c = V
  after_results_simp
  rfl

theorem k4_bs (c : Dev nD) :
    W11 m ρ c (Proc.devRef .tc main_v209) = shapeCast S1x1 (W11 m ρ c (Proc.devRef .tc main_arg9)) shapeCasts_S1_S1x1 := by
  simp only [W11]
  generalize W10 m ρ c = V
  after_results_simp
  rfl

end Cert.KernelIdeal.Hand

end
-- ==== Proof.Val.Spec.lean ====
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

/-- The leaky rectifier: `a` where `a ≥ 0`, the slope times `a` elsewhere. -/
def leaky (a : Ideal .f32) : Ideal .f32 :=
  Scalar.select (FloatOps.cmpf (F := Ideal) .oge a (Ideal.ofBits .f32 0x00000000#32)) a (Ideal.ofBits .f32 0x3C23D70A#32 * a)

/-- A node's pre-activation: its row of stacked features against a weight column, plus the bias. -/
def preAct {K : Nat} (hc : FVec Ideal ⟨2, ![100000, K]⟩ .f32) (wc : FVec Ideal ⟨2, ![K, 16]⟩ .f32)
    (bb : FVec Ideal ⟨2, ![1, 16]⟩ .f32) (n : Fin 100000) (j : Fin 16) : Ideal .f32 :=
  (∑ k : Fin K, hc (ix2 n k) * wc (ix2 k j)) + bb (ix2 0 j)

/-- One layer as a function of whole arrays. -/
def dense {K : Nat} (hc : FVec Ideal ⟨2, ![100000, K]⟩ .f32) (wc : FVec Ideal ⟨2, ![K, 16]⟩ .f32)
    (bb : FVec Ideal ⟨2, ![1, 16]⟩ .f32) : FVec Ideal ⟨2, ![100000, 16]⟩ .f32 :=
  fun i => leaky (preAct hc wc bb (i 0) (i 1))

theorem dense_apply {K : Nat} (hc : FVec Ideal ⟨2, ![100000, K]⟩ .f32) (wc : FVec Ideal ⟨2, ![K, 16]⟩ .f32)
    (bb : FVec Ideal ⟨2, ![1, 16]⟩ .f32) (n : Fin 100000) (j : Fin 16) :
    dense hc wc bb (ix2 n j) = leaky (preAct hc wc bb n j) := rfl

/-- Node `r` belongs to graph `g`. -/
def inGraph (bcol : IVec ⟨2, ![100000, 1]⟩ 32) (g : Fin 64) (r : Fin 100000) : Prop :=
  (bcol (ix2 r 0)).toInt = (g.val : ℤ)

instance (bcol : IVec ⟨2, ![100000, 1]⟩ 32) (g : Fin 64) : DecidablePred (inGraph bcol g) :=
  fun _ => inferInstanceAs (Decidable (_ = _))

/-- The feature sum over a graph's nodes. -/
def poolSum (h : FVec Ideal ⟨2, ![100000, 16]⟩ .f32) (bcol : IVec ⟨2, ![100000, 1]⟩ 32) (g : Fin 64) (j : Fin 16) : Ideal .f32 :=
  ∑ r ∈ Finset.univ.filter (inGraph bcol g), h (ix2 r j)

/-- The number of a graph's nodes. -/
def poolCnt (bcol : IVec ⟨2, ![100000, 1]⟩ 32) (g : Fin 64) : Ideal .f32 :=
  ∑ _r ∈ Finset.univ.filter (inGraph bcol g), (1 : Ideal .f32)

/-- Mean pooling, the sum over `max (count, 1)`, through the linear head. -/
def pool (h : FVec Ideal ⟨2, ![100000, 16]⟩ .f32) (bcol : IVec ⟨2, ![100000, 1]⟩ 32)
    (ws : FVec Ideal ⟨2, ![16, 1]⟩ .f32) (bs : FVec Ideal ⟨2, ![1, 1]⟩ .f32) : FVec Ideal ⟨2, ![64, 1]⟩ .f32 :=
  fun i => (∑ j : Fin 16, Ideal.div (poolSum h bcol (i 0) j) (max (poolCnt bcol (i 0)) (Ideal.ofBits .f32 0x3F800000#32)) * ws (ix2 j 0))
    + bs (ix2 0 0)

theorem pool_apply (h : FVec Ideal ⟨2, ![100000, 16]⟩ .f32) (bcol : IVec ⟨2, ![100000, 1]⟩ 32)
    (ws : FVec Ideal ⟨2, ![16, 1]⟩ .f32) (bs : FVec Ideal ⟨2, ![1, 1]⟩ .f32) (g : Fin 64) :
    pool h bcol ws bs (ix2 g 0)
      = (∑ j : Fin 16, Ideal.div (poolSum h bcol g j) (max (poolCnt bcol g) (Ideal.ofBits .f32 0x3F800000#32)) * ws (ix2 j 0))
        + bs (ix2 0 0) := rfl

end Cert.Spec

end
-- ==== Proof.Val.DenseK0.lean ====
import proofs.«428193_j13675175870529_1_alg».proof.Proof.KI.Dat0
import proofs.«428193_j13675175870529_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem lhs_k0_pay1_0 (i : S10000x16.Idx) (q : dot_S10000x10_S10x16_S10000x16_1_0_0_1_n_n.contr.Idx) :
    (dot_S10000x10_S10x16_S10000x16_1_0_0_1_n_n.lhsIdx i q 0).val = (i 0).val := by
  unfold DotDims.lhsIdx
  rw [dif_neg (show ¬(0 : Fin S10000x10.rank) ∈ dot_S10000x10_S10x16_S10000x16_1_0_0_1_n_n.lhsBatch by decide), dif_pos (show (0 : Fin S10000x10.rank) ∈ dot_S10000x10_S10x16_S10000x16_1_0_0_1_n_n.lhsNonContracting by decide)]
  rfl
theorem lhs_k0_pay1_1 (i : S10000x16.Idx) (q : dot_S10000x10_S10x16_S10000x16_1_0_0_1_n_n.contr.Idx) :
    (dot_S10000x10_S10x16_S10000x16_1_0_0_1_n_n.lhsIdx i q 1).val = (q ⟨0, by decide⟩).val :=
  dot_S10000x10_S10x16_S10000x16_1_0_0_1_n_n.lhsIdx_val_of_single rfl i q

theorem rhs_k0_pay1_0 (i : S10000x16.Idx) (q : dot_S10000x10_S10x16_S10000x16_1_0_0_1_n_n.contr.Idx) :
    (dot_S10000x10_S10x16_S10000x16_1_0_0_1_n_n.rhsIdx i q 0).val = (q ⟨0, by decide⟩).val :=
  dot_S10000x10_S10x16_S10000x16_1_0_0_1_n_n.rhsIdx_val_of_single rfl i q
theorem rhs_k0_pay1_1 (i : S10000x16.Idx) (q : dot_S10000x10_S10x16_S10000x16_1_0_0_1_n_n.contr.Idx) :
    (dot_S10000x10_S10x16_S10000x16_1_0_0_1_n_n.rhsIdx i q 1).val = (i 1).val := by
  unfold DotDims.rhsIdx
  rw [dif_neg (show ¬(1 : Fin S10x16.rank) ∈ dot_S10000x10_S10x16_S10000x16_1_0_0_1_n_n.rhsBatch by decide), dif_pos (show (1 : Fin S10x16.rank) ∈ dot_S10000x10_S10x16_S10000x16_1_0_0_1_n_n.rhsNonContracting by decide)]
  rfl

theorem matmul_k0_pay1_apply {φ₁ φ₂ : FTy} (a : FVec Ideal S10000x10 φ₁) (b : FVec Ideal S10x16 φ₂) (p : Fin 10000) (q : Fin 16) :
    matmul dot_S10000x10_S10x16_S10000x16_1_0_0_1_n_n none a b (constant (F := Ideal) S10000x16 .f32 0x00000000#32) (ix2 p q)
      = ∑ k : Fin 10, a (ix2 p k) * b (ix2 k q) := by
  simp only [matmul]
  rw [Ideal.matmul_constant_zero_apply, ← Equiv.sum_comp (contrEquiv1 dot_S10000x10_S10x16_S10000x16_1_0_0_1_n_n 10 rfl rfl).symm]
  refine Finset.sum_congr rfl fun k _ => ?_
  have hk := contrEquiv1_symm_val dot_S10000x10_S10x16_S10000x16_1_0_0_1_n_n 10 rfl rfl k
  have el : dot_S10000x10_S10x16_S10000x16_1_0_0_1_n_n.lhsIdx (ix2 p q) ((contrEquiv1 dot_S10000x10_S10x16_S10000x16_1_0_0_1_n_n 10 rfl rfl).symm k) = ix2 p k := funext fun ax => Fin.ext (by
    match ax with
    | ⟨0, _⟩ => exact lhs_k0_pay1_0 _ _
    | ⟨1, _⟩ => exact (lhs_k0_pay1_1 _ _).trans hk)
  have er : dot_S10000x10_S10x16_S10000x16_1_0_0_1_n_n.rhsIdx (ix2 p q) ((contrEquiv1 dot_S10000x10_S10x16_S10000x16_1_0_0_1_n_n 10 rfl rfl).symm k) = ix2 k q := funext fun ax => Fin.ext (by
    match ax with
    | ⟨0, _⟩ => exact (rhs_k0_pay1_0 _ _).trans hk
    | ⟨1, _⟩ => exact rhs_k0_pay1_1 _ _)
  rw [el, er]

theorem k0_pay1_apply (x0 : Vec Ideal S10000x10 .f32) (x1 : Vec Ideal S10x16 .f32) (x2 : Vec Ideal S1x16 .f32)
    (p : Fin 10000) (q : Fin 16) :
    k0_pay1 x0 x1 x2 (ix2 p q)
      = Cert.Spec.leaky ((∑ k : Fin 10, x0 (ix2 p k) * x1 (ix2 k q)) + x2 (ix2 0 q)) := by
  unfold k0_pay1
  rw [shapeCast_self, shapeCast_self, shapeCast_self]
  show Cert.Spec.leaky (matmul dot_S10000x10_S10x16_S10000x16_1_0_0_1_n_n none
      (truncf .bf16 x0 bitsLt_bf16_f32) (truncf .bf16 x1 bitsLt_bf16_f32) (constant (F := Ideal) S10000x16 .f32 0x00000000#32) (ix2 p q)
      + broadcastTo S10000x16 x2 broadcasts_S1x16_S10000x16 (ix2 p q)) = _
  rw [matmul_k0_pay1_apply, broadcastTo_1b_ab_apply]
  rfl

theorem k0_pay1_eq_dense (x0 : Vec Ideal S10000x10 .f32) (x1 : Vec Ideal S10x16 .f32) (x2 : Vec Ideal S1x16 .f32)
    (hc : FVec Ideal S100000x10 .f32) (wc : FVec Ideal S10x16 .f32) (bb : FVec Ideal S1x16 .f32)
    (p : Fin 10000) (q : Fin 16) (r : Fin 100000)
    (h0 : ∀ k : Fin 10, x0 (ix2 p k) = hc (ix2 r k))
    (h1 : ∀ k : Fin 10, x1 (ix2 k q) = wc (ix2 k q))
    (h2 : x2 (ix2 0 q) = bb (ix2 0 q)) :
    k0_pay1 x0 x1 x2 (ix2 p q) = Cert.Spec.dense hc wc bb (ix2 r q) := by
  rw [k0_pay1_apply, Cert.Spec.dense_apply, h2,
    Finset.sum_congr rfl fun k _ => show x0 (ix2 p k) * x1 (ix2 k q) = hc (ix2 r k) * wc (ix2 k q) by rw [h0 k, h1 k]]
  rfl

variable (V : (c : Dev nD) → (b : Ref sig .tc) → Buf (Elt Ideal) ((c : Thread nD τ).loc b))

theorem hz0_3 : (![0, 0] : Fin 2 → Nat) = fun _ => 0 := funext fun a => by fin_cases a <;> rfl

theorem idx_facts0_3 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed0_3_eq (c : Dev nD) (t : Fin cfg0.N) :
    (dat0 (F := Ideal) V c).flushed 3 t
      = ((cfg0.win 3).blk t).view.read (Elt Ideal) (Cert.Spec.dense (V c main_v84) (V c main_v85) (V c main_v86)) := by
  show (cfg0.win 3).cut (grid0.coords t) ((dat0 (F := Ideal) V c).after 3 t) = _
  rw [after0_3]
  unfold out0_3
  rw [View.canon_unit_zero hz0_3]
  simp only [View.ld_unit_zero (S := S10000x10) hz0_3, View.ld_unit_zero (S := S10x16) hz0_3, View.ld_unit_zero (S := S1x16) hz0_3]
  obtain ⟨e00, e01, e10, e11, e20, e21, e30, e31⟩ := idx_facts0_3 t
  have htN : t.val < 10 := by have hN : cfg0.N = 10 := N_0; have := t.isLt; omega
  funext j
  show k0_pay1 (iblk0 V c 0 t) (iblk0 V c 1 t) (iblk0 V c 2 t) j
    = Cert.Spec.dense (V c main_v84) (V c main_v85) (V c main_v86) (((cfg0.win 3).blk t).view.emb j)
  obtain ⟨p, q, rfl⟩ : ∃ (p : Fin 10000) (q : Fin 16), j = ix2 p q := ⟨j 0, j 1, eq_ix2 j⟩
  have hp : p.val < 10000 := p.isLt
  have hemb : ((cfg0.win 3).blk t).view.emb (ix2 p q) = ix2 (⟨10000 * t.val + p.val, by omega⟩ : Fin 100000) q := by
    funext a; apply Fin.ext
    match a with
    | ⟨0, _⟩ => show win0_3.index t (0 : Fin 2) * 10000 + 1 * p.val = 10000 * t.val + p.val; omega
    | ⟨1, _⟩ => show win0_3.index t (1 : Fin 2) * 16 + 1 * q.val = q.val; omega
  rw [hemb]
  refine k0_pay1_eq_dense (iblk0 V c 0 t) (iblk0 V c 1 t) (iblk0 V c 2 t) (V c main_v84) (V c main_v85) (V c main_v86)
    p q ⟨10000 * t.val + p.val, by omega⟩ (fun k => ?_) (fun k => ?_) ?_
  · show V c main_v84 (((cfg0.win 0).blk t).view.emb (ix2 p k)) = V c main_v84 (ix2 (⟨10000 * t.val + p.val, by omega⟩ : Fin 100000) k)
    refine congrArg _ (funext fun a => Fin.ext ?_)
    match a with
    | ⟨0, _⟩ => show win0_0.index t (0 : Fin 2) * 10000 + 1 * p.val = 10000 * t.val + p.val; omega
    | ⟨1, _⟩ => show win0_0.index t (1 : Fin 2) * 10 + 1 * k.val = k.val; omega
  · show V c main_v85 (((cfg0.win 1).blk t).view.emb (ix2 k q)) = V c main_v85 (ix2 k q)
    refine congrArg _ (funext fun a => Fin.ext ?_)
    match a with
    | ⟨0, _⟩ => show win0_1.index t (0 : Fin 2) * 10 + 1 * k.val = k.val; omega
    | ⟨1, _⟩ => show win0_1.index t (1 : Fin 2) * 16 + 1 * q.val = q.val; omega
  · show V c main_v86 (((cfg0.win 2).blk t).view.emb (ix2 (0 : Fin 1) q)) = V c main_v86 (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 16 + 1 * q.val = q.val; omega

theorem mem_blk0_3 (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v87).slice (win0_3.rect t)).set ↔ _
  rw [View.set_slice_whole, Rect.mem_set_unit]
  exact Iff.rfl

theorem covered0_3 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have ht : (i 0).val / 10000 < cfg0.N := by have hN : cfg0.N = 10 := N_0; omega
  obtain ⟨-, -, -, -, -, -, e30, e31⟩ := idx_facts0_3 ⟨(i 0).val / 10000, ht⟩
  have e30' : win0_3.index ⟨(i 0).val / 10000, ht⟩ (0 : Fin 2) = (i 0).val / 10000 := e30
  refine ⟨⟨(i 0).val / 10000, ht⟩, flush0_3 _, ?_⟩
  rw [mem_blk0_3]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    omega
  | ⟨1, _⟩ =>
    show win0_3.index ⟨(i 0).val / 10000, ht⟩ (1 : Fin 2) * 16 ≤ (i 1).val
      ∧ (i 1).val < win0_3.index ⟨(i 0).val / 10000, ht⟩ (1 : Fin 2) * 16 + 16
    omega

theorem arr0_3 (V : (c : Dev nD) → (b : Ref sig .tc) → Buf (Elt Ideal) ((c : Thread nD τ).loc b)) (c : Dev nD) :
    (dat0 (F := Ideal) V c).arrAt 3 cfg0.N = Cert.Spec.dense (V c main_v84) (V c main_v85) (V c main_v86) :=
  (dat0 (F := Ideal) V c).arrAt_eq_of_cover 3 (Cert.Spec.dense (V c main_v84) (V c main_v85) (V c main_v86))
    (fun t _ => flushed0_3_eq V c t) covered0_3

end Cert.KernelIdeal.Hand

end
-- ==== Proof.Val.DenseK1.lean ====
import proofs.«428193_j13675175870529_1_alg».proof.Proof.KI.Dat1
import proofs.«428193_j13675175870529_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem lhs_k1_pay1_0 (i : S10000x16.Idx) (q : dot_S10000x80_S80x16_S10000x16_1_0_0_1_n_n.contr.Idx) :
    (dot_S10000x80_S80x16_S10000x16_1_0_0_1_n_n.lhsIdx i q 0).val = (i 0).val := by
  unfold DotDims.lhsIdx
  rw [dif_neg (show ¬(0 : Fin S10000x80.rank) ∈ dot_S10000x80_S80x16_S10000x16_1_0_0_1_n_n.lhsBatch by decide), dif_pos (show (0 : Fin S10000x80.rank) ∈ dot_S10000x80_S80x16_S10000x16_1_0_0_1_n_n.lhsNonContracting by decide)]
  rfl
theorem lhs_k1_pay1_1 (i : S10000x16.Idx) (q : dot_S10000x80_S80x16_S10000x16_1_0_0_1_n_n.contr.Idx) :
    (dot_S10000x80_S80x16_S10000x16_1_0_0_1_n_n.lhsIdx i q 1).val = (q ⟨0, by decide⟩).val :=
  dot_S10000x80_S80x16_S10000x16_1_0_0_1_n_n.lhsIdx_val_of_single rfl i q

theorem rhs_k1_pay1_0 (i : S10000x16.Idx) (q : dot_S10000x80_S80x16_S10000x16_1_0_0_1_n_n.contr.Idx) :
    (dot_S10000x80_S80x16_S10000x16_1_0_0_1_n_n.rhsIdx i q 0).val = (q ⟨0, by decide⟩).val :=
  dot_S10000x80_S80x16_S10000x16_1_0_0_1_n_n.rhsIdx_val_of_single rfl i q
theorem rhs_k1_pay1_1 (i : S10000x16.Idx) (q : dot_S10000x80_S80x16_S10000x16_1_0_0_1_n_n.contr.Idx) :
    (dot_S10000x80_S80x16_S10000x16_1_0_0_1_n_n.rhsIdx i q 1).val = (i 1).val := by
  unfold DotDims.rhsIdx
  rw [dif_neg (show ¬(1 : Fin S80x16.rank) ∈ dot_S10000x80_S80x16_S10000x16_1_0_0_1_n_n.rhsBatch by decide), dif_pos (show (1 : Fin S80x16.rank) ∈ dot_S10000x80_S80x16_S10000x16_1_0_0_1_n_n.rhsNonContracting by decide)]
  rfl

theorem matmul_k1_pay1_apply {φ₁ φ₂ : FTy} (a : FVec Ideal S10000x80 φ₁) (b : FVec Ideal S80x16 φ₂) (p : Fin 10000) (q : Fin 16) :
    matmul dot_S10000x80_S80x16_S10000x16_1_0_0_1_n_n none a b (constant (F := Ideal) S10000x16 .f32 0x00000000#32) (ix2 p q)
      = ∑ k : Fin 80, a (ix2 p k) * b (ix2 k q) := by
  simp only [matmul]
  rw [Ideal.matmul_constant_zero_apply, ← Equiv.sum_comp (contrEquiv1 dot_S10000x80_S80x16_S10000x16_1_0_0_1_n_n 80 rfl rfl).symm]
  refine Finset.sum_congr rfl fun k _ => ?_
  have hk := contrEquiv1_symm_val dot_S10000x80_S80x16_S10000x16_1_0_0_1_n_n 80 rfl rfl k
  have el : dot_S10000x80_S80x16_S10000x16_1_0_0_1_n_n.lhsIdx (ix2 p q) ((contrEquiv1 dot_S10000x80_S80x16_S10000x16_1_0_0_1_n_n 80 rfl rfl).symm k) = ix2 p k := funext fun ax => Fin.ext (by
    match ax with
    | ⟨0, _⟩ => exact lhs_k1_pay1_0 _ _
    | ⟨1, _⟩ => exact (lhs_k1_pay1_1 _ _).trans hk)
  have er : dot_S10000x80_S80x16_S10000x16_1_0_0_1_n_n.rhsIdx (ix2 p q) ((contrEquiv1 dot_S10000x80_S80x16_S10000x16_1_0_0_1_n_n 80 rfl rfl).symm k) = ix2 k q := funext fun ax => Fin.ext (by
    match ax with
    | ⟨0, _⟩ => exact (rhs_k1_pay1_0 _ _).trans hk
    | ⟨1, _⟩ => exact rhs_k1_pay1_1 _ _)
  rw [el, er]

theorem k1_pay1_apply (x0 : Vec Ideal S10000x80 .f32) (x1 : Vec Ideal S80x16 .f32) (x2 : Vec Ideal S1x16 .f32)
    (p : Fin 10000) (q : Fin 16) :
    k1_pay1 x0 x1 x2 (ix2 p q)
      = Cert.Spec.leaky ((∑ k : Fin 80, x0 (ix2 p k) * x1 (ix2 k q)) + x2 (ix2 0 q)) := by
  unfold k1_pay1
  rw [shapeCast_self, shapeCast_self, shapeCast_self]
  show Cert.Spec.leaky (matmul dot_S10000x80_S80x16_S10000x16_1_0_0_1_n_n none
      (truncf .bf16 x0 bitsLt_bf16_f32) (truncf .bf16 x1 bitsLt_bf16_f32) (constant (F := Ideal) S10000x16 .f32 0x00000000#32) (ix2 p q)
      + broadcastTo S10000x16 x2 broadcasts_S1x16_S10000x16 (ix2 p q)) = _
  rw [matmul_k1_pay1_apply, broadcastTo_1b_ab_apply]
  rfl

theorem k1_pay1_eq_dense (x0 : Vec Ideal S10000x80 .f32) (x1 : Vec Ideal S80x16 .f32) (x2 : Vec Ideal S1x16 .f32)
    (hc : FVec Ideal S100000x80 .f32) (wc : FVec Ideal S80x16 .f32) (bb : FVec Ideal S1x16 .f32)
    (p : Fin 10000) (q : Fin 16) (r : Fin 100000)
    (h0 : ∀ k : Fin 80, x0 (ix2 p k) = hc (ix2 r k))
    (h1 : ∀ k : Fin 80, x1 (ix2 k q) = wc (ix2 k q))
    (h2 : x2 (ix2 0 q) = bb (ix2 0 q)) :
    k1_pay1 x0 x1 x2 (ix2 p q) = Cert.Spec.dense hc wc bb (ix2 r q) := by
  rw [k1_pay1_apply, Cert.Spec.dense_apply, h2,
    Finset.sum_congr rfl fun k _ => show x0 (ix2 p k) * x1 (ix2 k q) = hc (ix2 r k) * wc (ix2 k q) by rw [h0 k, h1 k]]
  rfl

variable (V : (c : Dev nD) → (b : Ref sig .tc) → Buf (Elt Ideal) ((c : Thread nD τ).loc b))

theorem hz1_3 : (![0, 0] : Fin 2 → Nat) = fun _ => 0 := funext fun a => by fin_cases a <;> rfl

theorem idx_facts1_3 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed1_3_eq (c : Dev nD) (t : Fin cfg1.N) :
    (dat1 (F := Ideal) V c).flushed 3 t
      = ((cfg1.win 3).blk t).view.read (Elt Ideal) (Cert.Spec.dense (V c main_v140) (V c main_v143) (V c main_v146)) := by
  show (cfg1.win 3).cut (grid1.coords t) ((dat1 (F := Ideal) V c).after 3 t) = _
  rw [after1_3]
  unfold out1_3
  rw [View.canon_unit_zero hz1_3]
  simp only [View.ld_unit_zero (S := S10000x80) hz1_3, View.ld_unit_zero (S := S80x16) hz1_3, View.ld_unit_zero (S := S1x16) hz1_3]
  obtain ⟨e00, e01, e10, e11, e20, e21, e30, e31⟩ := idx_facts1_3 t
  have htN : t.val < 10 := by have hN : cfg1.N = 10 := N_1; have := t.isLt; omega
  funext j
  show k1_pay1 (iblk1 V c 0 t) (iblk1 V c 1 t) (iblk1 V c 2 t) j
    = Cert.Spec.dense (V c main_v140) (V c main_v143) (V c main_v146) (((cfg1.win 3).blk t).view.emb j)
  obtain ⟨p, q, rfl⟩ : ∃ (p : Fin 10000) (q : Fin 16), j = ix2 p q := ⟨j 0, j 1, eq_ix2 j⟩
  have hp : p.val < 10000 := p.isLt
  have hemb : ((cfg1.win 3).blk t).view.emb (ix2 p q) = ix2 (⟨10000 * t.val + p.val, by omega⟩ : Fin 100000) q := by
    funext a; apply Fin.ext
    match a with
    | ⟨0, _⟩ => show win1_3.index t (0 : Fin 2) * 10000 + 1 * p.val = 10000 * t.val + p.val; omega
    | ⟨1, _⟩ => show win1_3.index t (1 : Fin 2) * 16 + 1 * q.val = q.val; omega
  rw [hemb]
  refine k1_pay1_eq_dense (iblk1 V c 0 t) (iblk1 V c 1 t) (iblk1 V c 2 t) (V c main_v140) (V c main_v143) (V c main_v146)
    p q ⟨10000 * t.val + p.val, by omega⟩ (fun k => ?_) (fun k => ?_) ?_
  · show V c main_v140 (((cfg1.win 0).blk t).view.emb (ix2 p k)) = V c main_v140 (ix2 (⟨10000 * t.val + p.val, by omega⟩ : Fin 100000) k)
    refine congrArg _ (funext fun a => Fin.ext ?_)
    match a with
    | ⟨0, _⟩ => show win1_0.index t (0 : Fin 2) * 10000 + 1 * p.val = 10000 * t.val + p.val; omega
    | ⟨1, _⟩ => show win1_0.index t (1 : Fin 2) * 80 + 1 * k.val = k.val; omega
  · show V c main_v143 (((cfg1.win 1).blk t).view.emb (ix2 k q)) = V c main_v143 (ix2 k q)
    refine congrArg _ (funext fun a => Fin.ext ?_)
    match a with
    | ⟨0, _⟩ => show win1_1.index t (0 : Fin 2) * 80 + 1 * k.val = k.val; omega
    | ⟨1, _⟩ => show win1_1.index t (1 : Fin 2) * 16 + 1 * q.val = q.val; omega
  · show V c main_v146 (((cfg1.win 2).blk t).view.emb (ix2 (0 : Fin 1) q)) = V c main_v146 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 16 + 1 * q.val = q.val; omega

theorem mem_blk1_3 (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v147).slice (win1_3.rect t)).set ↔ _
  rw [View.set_slice_whole, Rect.mem_set_unit]
  exact Iff.rfl

theorem covered1_3 (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have ht : (i 0).val / 10000 < cfg1.N := by have hN : cfg1.N = 10 := N_1; omega
  obtain ⟨-, -, -, -, -, -, e30, e31⟩ := idx_facts1_3 ⟨(i 0).val / 10000, ht⟩
  have e30' : win1_3.index ⟨(i 0).val / 10000, ht⟩ (0 : Fin 2) = (i 0).val / 10000 := e30
  refine ⟨⟨(i 0).val / 10000, ht⟩, flush1_3 _, ?_⟩
  rw [mem_blk1_3]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    omega
  | ⟨1, _⟩ =>
    show win1_3.index ⟨(i 0).val / 10000, ht⟩ (1 : Fin 2) * 16 ≤ (i 1).val
      ∧ (i 1).val < win1_3.index ⟨(i 0).val / 10000, ht⟩ (1 : Fin 2) * 16 + 16
    omega

theorem arr1_3 (V : (c : Dev nD) → (b : Ref sig .tc) → Buf (Elt Ideal) ((c : Thread nD τ).loc b)) (c : Dev nD) :
    (dat1 (F := Ideal) V c).arrAt 3 cfg1.N = Cert.Spec.dense (V c main_v140) (V c main_v143) (V c main_v146) :=
  (dat1 (F := Ideal) V c).arrAt_eq_of_cover 3 (Cert.Spec.dense (V c main_v140) (V c main_v143) (V c main_v146))
    (fun t _ => flushed1_3_eq V c t) covered1_3

end Cert.KernelIdeal.Hand

end
-- ==== Proof.Val.DenseK2.lean ====
import proofs.«428193_j13675175870529_1_alg».proof.Proof.KI.Dat2
import proofs.«428193_j13675175870529_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem lhs_k2_pay1_0 (i : S10000x16.Idx) (q : dot_S10000x80_S80x16_S10000x16_1_0_0_1_n_n.contr.Idx) :
    (dot_S10000x80_S80x16_S10000x16_1_0_0_1_n_n.lhsIdx i q 0).val = (i 0).val := by
  unfold DotDims.lhsIdx
  rw [dif_neg (show ¬(0 : Fin S10000x80.rank) ∈ dot_S10000x80_S80x16_S10000x16_1_0_0_1_n_n.lhsBatch by decide), dif_pos (show (0 : Fin S10000x80.rank) ∈ dot_S10000x80_S80x16_S10000x16_1_0_0_1_n_n.lhsNonContracting by decide)]
  rfl
theorem lhs_k2_pay1_1 (i : S10000x16.Idx) (q : dot_S10000x80_S80x16_S10000x16_1_0_0_1_n_n.contr.Idx) :
    (dot_S10000x80_S80x16_S10000x16_1_0_0_1_n_n.lhsIdx i q 1).val = (q ⟨0, by decide⟩).val :=
  dot_S10000x80_S80x16_S10000x16_1_0_0_1_n_n.lhsIdx_val_of_single rfl i q

theorem rhs_k2_pay1_0 (i : S10000x16.Idx) (q : dot_S10000x80_S80x16_S10000x16_1_0_0_1_n_n.contr.Idx) :
    (dot_S10000x80_S80x16_S10000x16_1_0_0_1_n_n.rhsIdx i q 0).val = (q ⟨0, by decide⟩).val :=
  dot_S10000x80_S80x16_S10000x16_1_0_0_1_n_n.rhsIdx_val_of_single rfl i q
theorem rhs_k2_pay1_1 (i : S10000x16.Idx) (q : dot_S10000x80_S80x16_S10000x16_1_0_0_1_n_n.contr.Idx) :
    (dot_S10000x80_S80x16_S10000x16_1_0_0_1_n_n.rhsIdx i q 1).val = (i 1).val := by
  unfold DotDims.rhsIdx
  rw [dif_neg (show ¬(1 : Fin S80x16.rank) ∈ dot_S10000x80_S80x16_S10000x16_1_0_0_1_n_n.rhsBatch by decide), dif_pos (show (1 : Fin S80x16.rank) ∈ dot_S10000x80_S80x16_S10000x16_1_0_0_1_n_n.rhsNonContracting by decide)]
  rfl

theorem matmul_k2_pay1_apply {φ₁ φ₂ : FTy} (a : FVec Ideal S10000x80 φ₁) (b : FVec Ideal S80x16 φ₂) (p : Fin 10000) (q : Fin 16) :
    matmul dot_S10000x80_S80x16_S10000x16_1_0_0_1_n_n none a b (constant (F := Ideal) S10000x16 .f32 0x00000000#32) (ix2 p q)
      = ∑ k : Fin 80, a (ix2 p k) * b (ix2 k q) := by
  simp only [matmul]
  rw [Ideal.matmul_constant_zero_apply, ← Equiv.sum_comp (contrEquiv1 dot_S10000x80_S80x16_S10000x16_1_0_0_1_n_n 80 rfl rfl).symm]
  refine Finset.sum_congr rfl fun k _ => ?_
  have hk := contrEquiv1_symm_val dot_S10000x80_S80x16_S10000x16_1_0_0_1_n_n 80 rfl rfl k
  have el : dot_S10000x80_S80x16_S10000x16_1_0_0_1_n_n.lhsIdx (ix2 p q) ((contrEquiv1 dot_S10000x80_S80x16_S10000x16_1_0_0_1_n_n 80 rfl rfl).symm k) = ix2 p k := funext fun ax => Fin.ext (by
    match ax with
    | ⟨0, _⟩ => exact lhs_k2_pay1_0 _ _
    | ⟨1, _⟩ => exact (lhs_k2_pay1_1 _ _).trans hk)
  have er : dot_S10000x80_S80x16_S10000x16_1_0_0_1_n_n.rhsIdx (ix2 p q) ((contrEquiv1 dot_S10000x80_S80x16_S10000x16_1_0_0_1_n_n 80 rfl rfl).symm k) = ix2 k q := funext fun ax => Fin.ext (by
    match ax with
    | ⟨0, _⟩ => exact (rhs_k2_pay1_0 _ _).trans hk
    | ⟨1, _⟩ => exact rhs_k2_pay1_1 _ _)
  rw [el, er]

theorem k2_pay1_apply (x0 : Vec Ideal S10000x80 .f32) (x1 : Vec Ideal S80x16 .f32) (x2 : Vec Ideal S1x16 .f32)
    (p : Fin 10000) (q : Fin 16) :
    k2_pay1 x0 x1 x2 (ix2 p q)
      = Cert.Spec.leaky ((∑ k : Fin 80, x0 (ix2 p k) * x1 (ix2 k q)) + x2 (ix2 0 q)) := by
  unfold k2_pay1
  rw [shapeCast_self, shapeCast_self, shapeCast_self]
  show Cert.Spec.leaky (matmul dot_S10000x80_S80x16_S10000x16_1_0_0_1_n_n none
      (truncf .bf16 x0 bitsLt_bf16_f32) (truncf .bf16 x1 bitsLt_bf16_f32) (constant (F := Ideal) S10000x16 .f32 0x00000000#32) (ix2 p q)
      + broadcastTo S10000x16 x2 broadcasts_S1x16_S10000x16 (ix2 p q)) = _
  rw [matmul_k2_pay1_apply, broadcastTo_1b_ab_apply]
  rfl

theorem k2_pay1_eq_dense (x0 : Vec Ideal S10000x80 .f32) (x1 : Vec Ideal S80x16 .f32) (x2 : Vec Ideal S1x16 .f32)
    (hc : FVec Ideal S100000x80 .f32) (wc : FVec Ideal S80x16 .f32) (bb : FVec Ideal S1x16 .f32)
    (p : Fin 10000) (q : Fin 16) (r : Fin 100000)
    (h0 : ∀ k : Fin 80, x0 (ix2 p k) = hc (ix2 r k))
    (h1 : ∀ k : Fin 80, x1 (ix2 k q) = wc (ix2 k q))
    (h2 : x2 (ix2 0 q) = bb (ix2 0 q)) :
    k2_pay1 x0 x1 x2 (ix2 p q) = Cert.Spec.dense hc wc bb (ix2 r q) := by
  rw [k2_pay1_apply, Cert.Spec.dense_apply, h2,
    Finset.sum_congr rfl fun k _ => show x0 (ix2 p k) * x1 (ix2 k q) = hc (ix2 r k) * wc (ix2 k q) by rw [h0 k, h1 k]]
  rfl

variable (V : (c : Dev nD) → (b : Ref sig .tc) → Buf (Elt Ideal) ((c : Thread nD τ).loc b))

theorem hz2_3 : (![0, 0] : Fin 2 → Nat) = fun _ => 0 := funext fun a => by fin_cases a <;> rfl

theorem idx_facts2_3 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed2_3_eq (c : Dev nD) (t : Fin cfg2.N) :
    (dat2 (F := Ideal) V c).flushed 3 t
      = ((cfg2.win 3).blk t).view.read (Elt Ideal) (Cert.Spec.dense (V c main_v200) (V c main_v203) (V c main_v206)) := by
  show (cfg2.win 3).cut (grid2.coords t) ((dat2 (F := Ideal) V c).after 3 t) = _
  rw [after2_3]
  unfold out2_3
  rw [View.canon_unit_zero hz2_3]
  simp only [View.ld_unit_zero (S := S10000x80) hz2_3, View.ld_unit_zero (S := S80x16) hz2_3, View.ld_unit_zero (S := S1x16) hz2_3]
  obtain ⟨e00, e01, e10, e11, e20, e21, e30, e31⟩ := idx_facts2_3 t
  have htN : t.val < 10 := by have hN : cfg2.N = 10 := N_2; have := t.isLt; omega
  funext j
  show k2_pay1 (iblk2 V c 0 t) (iblk2 V c 1 t) (iblk2 V c 2 t) j
    = Cert.Spec.dense (V c main_v200) (V c main_v203) (V c main_v206) (((cfg2.win 3).blk t).view.emb j)
  obtain ⟨p, q, rfl⟩ : ∃ (p : Fin 10000) (q : Fin 16), j = ix2 p q := ⟨j 0, j 1, eq_ix2 j⟩
  have hp : p.val < 10000 := p.isLt
  have hemb : ((cfg2.win 3).blk t).view.emb (ix2 p q) = ix2 (⟨10000 * t.val + p.val, by omega⟩ : Fin 100000) q := by
    funext a; apply Fin.ext
    match a with
    | ⟨0, _⟩ => show win2_3.index t (0 : Fin 2) * 10000 + 1 * p.val = 10000 * t.val + p.val; omega
    | ⟨1, _⟩ => show win2_3.index t (1 : Fin 2) * 16 + 1 * q.val = q.val; omega
  rw [hemb]
  refine k2_pay1_eq_dense (iblk2 V c 0 t) (iblk2 V c 1 t) (iblk2 V c 2 t) (V c main_v200) (V c main_v203) (V c main_v206)
    p q ⟨10000 * t.val + p.val, by omega⟩ (fun k => ?_) (fun k => ?_) ?_
  · show V c main_v200 (((cfg2.win 0).blk t).view.emb (ix2 p k)) = V c main_v200 (ix2 (⟨10000 * t.val + p.val, by omega⟩ : Fin 100000) k)
    refine congrArg _ (funext fun a => Fin.ext ?_)
    match a with
    | ⟨0, _⟩ => show win2_0.index t (0 : Fin 2) * 10000 + 1 * p.val = 10000 * t.val + p.val; omega
    | ⟨1, _⟩ => show win2_0.index t (1 : Fin 2) * 80 + 1 * k.val = k.val; omega
  · show V c main_v203 (((cfg2.win 1).blk t).view.emb (ix2 k q)) = V c main_v203 (ix2 k q)
    refine congrArg _ (funext fun a => Fin.ext ?_)
    match a with
    | ⟨0, _⟩ => show win2_1.index t (0 : Fin 2) * 80 + 1 * k.val = k.val; omega
    | ⟨1, _⟩ => show win2_1.index t (1 : Fin 2) * 16 + 1 * q.val = q.val; omega
  · show V c main_v206 (((cfg2.win 2).blk t).view.emb (ix2 (0 : Fin 1) q)) = V c main_v206 (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 16 + 1 * q.val = q.val; omega

theorem mem_blk2_3 (t : Fin cfg2.N) (i : S100000x16.Idx) :
    i ∈ ((cfg2.win 3).blk t).view.set ↔ ∀ a : Fin 2, win2_3.index t a * S10000x16.size a ≤ (i a).val ∧ (i a).val < win2_3.index t a * S10000x16.size a + S10000x16.size a := by
  show i ∈ ((View.whole main_v207).slice (win2_3.rect t)).set ↔ _
  rw [View.set_slice_whole, Rect.mem_set_unit]
  exact Iff.rfl

theorem covered2_3 (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have ht : (i 0).val / 10000 < cfg2.N := by have hN : cfg2.N = 10 := N_2; omega
  obtain ⟨-, -, -, -, -, -, e30, e31⟩ := idx_facts2_3 ⟨(i 0).val / 10000, ht⟩
  have e30' : win2_3.index ⟨(i 0).val / 10000, ht⟩ (0 : Fin 2) = (i 0).val / 10000 := e30
  refine ⟨⟨(i 0).val / 10000, ht⟩, flush2_3 _, ?_⟩
  rw [mem_blk2_3]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    omega
  | ⟨1, _⟩ =>
    show win2_3.index ⟨(i 0).val / 10000, ht⟩ (1 : Fin 2) * 16 ≤ (i 1).val
      ∧ (i 1).val < win2_3.index ⟨(i 0).val / 10000, ht⟩ (1 : Fin 2) * 16 + 16
    omega

theorem arr2_3 (V : (c : Dev nD) → (b : Ref sig .tc) → Buf (Elt Ideal) ((c : Thread nD τ).loc b)) (c : Dev nD) :
    (dat2 (F := Ideal) V c).arrAt 3 cfg2.N = Cert.Spec.dense (V c main_v200) (V c main_v203) (V c main_v206) :=
  (dat2 (F := Ideal) V c).arrAt_eq_of_cover 3 (Cert.Spec.dense (V c main_v200) (V c main_v203) (V c main_v206))
    (fun t _ => flushed2_3_eq V c t) covered2_3

end Cert.KernelIdeal.Hand

end
-- ==== Proof.Val.PoolK.lean ====
import proofs.«428193_j13675175870529_1_alg».proof.Proof.KI.Dat3
import proofs.«428193_j13675175870529_1_alg».proof.Proof.Val.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

namespace PoolK

/-- The one-hot entry: 1 when the node's graph word is `g`, else 0. -/
def hot (w : BitVec 32) (g : Fin 64) : EReal := if w.toInt = (g.val : ℤ) then 1 else 0

theorem hot_mul (w : BitVec 32) (g : Fin 64) (x : EReal) : hot w g * x = if w.toInt = (g.val : ℤ) then x else 0 := by
  unfold hot; split
  · exact one_mul x
  · exact zero_mul x

theorem eq_ofNat_iff_toInt (w : BitVec 32) (g : Fin 64) : w = BitVec.ofNat 32 g.val ↔ w.toInt = (g.val : ℤ) := by
  have hg : (BitVec.ofNat 32 g.val).toInt = (g.val : ℤ) := by
    have hlt := g.isLt
    have h2 : g.val % 2 ^ 32 = g.val := Nat.mod_eq_of_lt (by omega)
    rw [BitVec.toInt_eq_toNat_cond, BitVec.toNat_ofNat, h2, if_pos (by omega)]
  constructor
  · intro h; rw [h, hg]
  · intro h; exact BitVec.eq_of_toInt_eq (h.trans hg.symm)

theorem sitofp_cmpi_eq (w : BitVec 32) (g : Fin 64) :
    (FloatOps.sitofp (F := Ideal) .f32 ((IntOp.cmpi .eq w (BitVec.ofNat 32 g.val)).setWidth 32) : Ideal .f32) = hot w g := by
  show (((((IntOp.cmpi .eq w (BitVec.ofNat 32 g.val)).setWidth 32).toInt : ℝ)) : EReal) = hot w g
  unfold hot IntOp.cmpi
  by_cases h : w = BitVec.ofNat 32 g.val
  · rw [if_pos ((eq_ofNat_iff_toInt w g).mp h)]
    have : (w == BitVec.ofNat 32 g.val) = true := by simpa using h
    simp [this]
  · rw [if_neg (fun h' => h ((eq_ofNat_iff_toInt w g).mpr h'))]
    have : (w == BitVec.ofNat 32 g.val) = false := by simpa using h
    simp [this]

theorem one_bf16 : Ideal.ofBits .bf16 0x3F80#16 = 1 := by
  simp [Ideal.ofBits, Ideal.ieee]
  rw [← EReal.coe_mul]; norm_num

def below (p : Fin 100000 → Prop) [DecidablePred p] (f : Fin 100000 → EReal) (i : ℕ) : EReal :=
  if h : i < 100000 then (if p ⟨i, h⟩ then f ⟨i, h⟩ else 0) else 0

theorem below_of_lt (p : Fin 100000 → Prop) [DecidablePred p] (f : Fin 100000 → EReal) (i : ℕ) (h : i < 100000) :
    below p f i = if p ⟨i, h⟩ then f ⟨i, h⟩ else 0 := dif_pos h

theorem sum_below_all (p : Fin 100000 → Prop) [DecidablePred p] (f : Fin 100000 → EReal) :
    ∑ i ∈ Finset.range 100000, below p f i = ∑ r ∈ Finset.univ.filter p, f r := by
  rw [Finset.sum_filter, ← Fin.sum_univ_eq_sum_range]
  refine Finset.sum_congr rfl fun r _ => ?_
  unfold below
  rw [dif_pos r.isLt]

theorem sum_below_step (p : Fin 100000 → Prop) [DecidablePred p] (f : Fin 100000 → EReal) (n : ℕ) :
    ∑ i ∈ Finset.range (5000 * (n + 1)), below p f i
      = ∑ i ∈ Finset.range (5000 * n), below p f i + ∑ k : Fin 5000, below p f (5000 * n + k.val) := by
  rw [show 5000 * (n + 1) = 5000 * n + 5000 by ring, Finset.sum_range_add, Fin.sum_univ_eq_sum_range (fun k => below p f (5000 * n + k))]

theorem bcast_col_5000 (v : IVec S5000x1 32) (r : Fin 5000) (g : Fin 64) :
    broadcastTo S5000x64 v broadcasts_S5000x1_S5000x64 (ix2 r g) = v (ix2 r 0) := by
  refine broadcastTo_apply v broadcasts_S5000x1_S5000x64 (ix2 r g) (ix2 r 0) fun a => ?_
  match a with
  | ⟨0, _⟩ => rfl
  | ⟨1, _⟩ => rfl

theorem pay3_apply (v4 : Vec Ideal S5000x1 .i32) (r : Fin 5000) (g : Fin 64) :
    k3_pay3 (F := Ideal) v4 (ix2 r g) = hot (v4 (ix2 r 0)) g := by
  unfold k3_pay3
  show FloatOps.sitofp (F := Ideal) .f32 ((IntOp.cmpi .eq (broadcastTo S5000x64 (shapeCast S5000x1 v4 shapeCasts_S5000x1_S5000x1) broadcasts_S5000x1_S5000x64 (ix2 r g))
      (iota .tc S5000x64 32 [1] iota_S5000x64_d1_w32 (ix2 r g))).setWidth 32) = _
  rw [shapeCast_self, iota_single_apply, bcast_col_5000]
  exact sitofp_cmpi_eq (v4 (ix2 r 0)) g

theorem lhs_acc_0 (i : S64x16.Idx) (q : dot_S5000x64_S5000x16_S64x16_0_0_1_1_n_n.contr.Idx) :
    (dot_S5000x64_S5000x16_S64x16_0_0_1_1_n_n.lhsIdx i q 0).val = (q ⟨0, by decide⟩).val :=
  dot_S5000x64_S5000x16_S64x16_0_0_1_1_n_n.lhsIdx_val_of_single rfl i q
theorem lhs_acc_1 (i : S64x16.Idx) (q : dot_S5000x64_S5000x16_S64x16_0_0_1_1_n_n.contr.Idx) :
    (dot_S5000x64_S5000x16_S64x16_0_0_1_1_n_n.lhsIdx i q 1).val = (i 0).val := by
  unfold DotDims.lhsIdx
  rw [dif_neg (show ¬(1 : Fin S5000x64.rank) ∈ dot_S5000x64_S5000x16_S64x16_0_0_1_1_n_n.lhsBatch by decide), dif_pos (show (1 : Fin S5000x64.rank) ∈ dot_S5000x64_S5000x16_S64x16_0_0_1_1_n_n.lhsNonContracting by decide)]
  rfl
theorem rhs_acc_0 (i : S64x16.Idx) (q : dot_S5000x64_S5000x16_S64x16_0_0_1_1_n_n.contr.Idx) :
    (dot_S5000x64_S5000x16_S64x16_0_0_1_1_n_n.rhsIdx i q 0).val = (q ⟨0, by decide⟩).val :=
  dot_S5000x64_S5000x16_S64x16_0_0_1_1_n_n.rhsIdx_val_of_single rfl i q
theorem rhs_acc_1 (i : S64x16.Idx) (q : dot_S5000x64_S5000x16_S64x16_0_0_1_1_n_n.contr.Idx) :
    (dot_S5000x64_S5000x16_S64x16_0_0_1_1_n_n.rhsIdx i q 1).val = (i 1).val := by
  unfold DotDims.rhsIdx
  rw [dif_neg (show ¬(1 : Fin S5000x16.rank) ∈ dot_S5000x64_S5000x16_S64x16_0_0_1_1_n_n.rhsBatch by decide), dif_pos (show (1 : Fin S5000x16.rank) ∈ dot_S5000x64_S5000x16_S64x16_0_0_1_1_n_n.rhsNonContracting by decide)]
  rfl

theorem matmul_acc_apply (lhs : FVec Ideal S5000x64 .bf16) (rhs : FVec Ideal S5000x16 .bf16) (g : Fin 64) (j : Fin 16) :
    matmul dot_S5000x64_S5000x16_S64x16_0_0_1_1_n_n none lhs rhs (constant S64x16 .f32 0x00000000#32) (ix2 g j)
      = ∑ r : Fin 5000, lhs (ix2 r g) * rhs (ix2 r j) := by
  simp only [matmul]
  rw [Ideal.matmul_constant_zero_apply, ← Equiv.sum_comp (ValueIdx.contrEquiv1 dot_S5000x64_S5000x16_S64x16_0_0_1_1_n_n 5000 rfl rfl).symm]
  refine Finset.sum_congr rfl fun k _ => ?_
  have hk := ValueIdx.contrEquiv1_symm_val dot_S5000x64_S5000x16_S64x16_0_0_1_1_n_n 5000 rfl rfl k
  have el : dot_S5000x64_S5000x16_S64x16_0_0_1_1_n_n.lhsIdx (ix2 g j) ((ValueIdx.contrEquiv1 dot_S5000x64_S5000x16_S64x16_0_0_1_1_n_n 5000 rfl rfl).symm k) = ix2 k g := funext fun a => Fin.ext (by
    match a with
    | ⟨0, _⟩ => exact (lhs_acc_0 _ _).trans hk
    | ⟨1, _⟩ => exact lhs_acc_1 _ _)
  have er : dot_S5000x64_S5000x16_S64x16_0_0_1_1_n_n.rhsIdx (ix2 g j) ((ValueIdx.contrEquiv1 dot_S5000x64_S5000x16_S64x16_0_0_1_1_n_n 5000 rfl rfl).symm k) = ix2 k j := funext fun a => Fin.ext (by
    match a with
    | ⟨0, _⟩ => exact (rhs_acc_0 _ _).trans hk
    | ⟨1, _⟩ => exact rhs_acc_1 _ _)
  rw [el, er]

theorem pay4_apply (v4 : Vec Ideal S5000x1 .i32) (v11 : Vec Ideal S5000x16 .f32) (v15 : Vec Ideal S64x16 .f32) (g : Fin 64) (j : Fin 16) :
    k3_pay4 (F := Ideal) v4 v11 v15 (ix2 g j) = v15 (ix2 g j) + ∑ r : Fin 5000, hot (v4 (ix2 r 0)) g * v11 (ix2 r j) := by
  unfold k3_pay4
  simp only [shapeCast_self]
  rw [addf_apply, matmul_acc_apply]
  refine congrArg (v15 (ix2 g j) + ·) (Finset.sum_congr rfl fun r _ => ?_)
  rw [pay3_apply, truncf_apply]

theorem lhs_cnt_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem lhs_cnt_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem rhs_cnt_0 (i : S64x1.Idx) (q : dot_S5000x64_S5000x1_S64x1_0_0_1_1_n_n.contr.Idx) :
    (dot_S5000x64_S5000x1_S64x1_0_0_1_1_n_n.rhsIdx i q 0).val = (q ⟨0, by decide⟩).val :=
  dot_S5000x64_S5000x1_S64x1_0_0_1_1_n_n.rhsIdx_val_of_single rfl i q
theorem rhs_cnt_1 (i : S64x1.Idx) (q : dot_S5000x64_S5000x1_S64x1_0_0_1_1_n_n.contr.Idx) :
    (dot_S5000x64_S5000x1_S64x1_0_0_1_1_n_n.rhsIdx i q 1).val = (i 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

theorem matmul_cnt_apply (lhs : FVec Ideal S5000x64 .bf16) (rhs : FVec Ideal S5000x1 .bf16) (g : Fin 64) :
    matmul dot_S5000x64_S5000x1_S64x1_0_0_1_1_n_n none lhs rhs (constant S64x1 .f32 0x00000000#32) (ix2 g (0 : Fin 1))
      = ∑ r : Fin 5000, lhs (ix2 r g) * rhs (ix2 r (0 : Fin 1)) := by
  simp only [matmul]
  rw [Ideal.matmul_constant_zero_apply, ← Equiv.sum_comp (ValueIdx.contrEquiv1 dot_S5000x64_S5000x1_S64x1_0_0_1_1_n_n 5000 rfl rfl).symm]
  refine Finset.sum_congr rfl fun k _ => ?_
  have hk := ValueIdx.contrEquiv1_symm_val dot_S5000x64_S5000x1_S64x1_0_0_1_1_n_n 5000 rfl rfl k
  have el : dot_S5000x64_S5000x1_S64x1_0_0_1_1_n_n.lhsIdx (ix2 g (0 : Fin 1)) ((ValueIdx.contrEquiv1 dot_S5000x64_S5000x1_S64x1_0_0_1_1_n_n 5000 rfl rfl).symm k) = ix2 k g := funext fun a => Fin.ext (by
    match a with
    | ⟨0, _⟩ => exact (lhs_cnt_0 _ _).trans hk
    | ⟨1, _⟩ => exact lhs_cnt_1 _ _)
  have er : dot_S5000x64_S5000x1_S64x1_0_0_1_1_n_n.rhsIdx (ix2 g (0 : Fin 1)) ((ValueIdx.contrEquiv1 dot_S5000x64_S5000x1_S64x1_0_0_1_1_n_n 5000 rfl rfl).symm k) = ix2 k (0 : Fin 1) := funext fun a => Fin.ext (by
    match a with
    | ⟨0, _⟩ => exact (rhs_cnt_0 _ _).trans hk
    | ⟨1, _⟩ => exact rhs_cnt_1 _ _)
  rw [el, er]

theorem pay5_apply (v4 : Vec Ideal S5000x1 .i32) (v21 : Vec Ideal S64x1 .f32) (g : Fin 64) :
    k3_pay5 (F := Ideal) v4 v21 (ix2 g 0) = v21 (ix2 g 0) + ∑ r : Fin 5000, hot (v4 (ix2 r 0)) g * 1 := by
  unfold k3_pay5
  simp only [shapeCast_self]
  rw [addf_apply, matmul_cnt_apply]
  refine congrArg (v21 (ix2 g 0) + ·) (Finset.sum_congr rfl fun r _ => ?_)
  rw [pay3_apply, broadcast_apply]
  exact congrArg (hot (v4 (ix2 r 0)) g * ·) one_bf16

theorem lhs_head_0 (i : S64x1.Idx) (q : dot_S64x16_S16x1_S64x1_1_0_0_1_n_n.contr.Idx) :
    (dot_S64x16_S16x1_S64x1_1_0_0_1_n_n.lhsIdx i q 0).val = (i 0).val := by
  unfold DotDims.lhsIdx
  rw [dif_neg (show ¬(0 : Fin S64x16.rank) ∈ dot_S64x16_S16x1_S64x1_1_0_0_1_n_n.lhsBatch by decide), dif_pos (show (0 : Fin S64x16.rank) ∈ dot_S64x16_S16x1_S64x1_1_0_0_1_n_n.lhsNonContracting by decide)]
  rfl
theorem lhs_head_1 (i : S64x1.Idx) (q : dot_S64x16_S16x1_S64x1_1_0_0_1_n_n.contr.Idx) :
    (dot_S64x16_S16x1_S64x1_1_0_0_1_n_n.lhsIdx i q 1).val = (q ⟨0, by decide⟩).val :=
  dot_S64x16_S16x1_S64x1_1_0_0_1_n_n.lhsIdx_val_of_single rfl i q
theorem rhs_head_0 (i : S64x1.Idx) (q : dot_S64x16_S16x1_S64x1_1_0_0_1_n_n.contr.Idx) :
    (dot_S64x16_S16x1_S64x1_1_0_0_1_n_n.rhsIdx i q 0).val = (q ⟨0, by decide⟩).val :=
  dot_S64x16_S16x1_S64x1_1_0_0_1_n_n.rhsIdx_val_of_single rfl i q
theorem rhs_head_1 (i : S64x1.Idx) (q : dot_S64x16_S16x1_S64x1_1_0_0_1_n_n.contr.Idx) :
    (dot_S64x16_S16x1_S64x1_1_0_0_1_n_n.rhsIdx i q 1).val = (i 1).val := by
  unfold DotDims.rhsIdx
  rw [dif_neg (show ¬(1 : Fin S16x1.rank) ∈ dot_S64x16_S16x1_S64x1_1_0_0_1_n_n.rhsBatch by decide), dif_pos (show (1 : Fin S16x1.rank) ∈ dot_S64x16_S16x1_S64x1_1_0_0_1_n_n.rhsNonContracting by decide)]
  rfl

theorem matmul_head_apply (lhs : FVec Ideal S64x16 .bf16) (rhs : FVec Ideal S16x1 .bf16) (g : Fin 64) :
    matmul dot_S64x16_S16x1_S64x1_1_0_0_1_n_n none lhs rhs (constant S64x1 .f32 0x00000000#32) (ix2 g (0 : Fin 1))
      = ∑ j : Fin 16, lhs (ix2 g j) * rhs (ix2 j (0 : Fin 1)) := by
  simp only [matmul]
  rw [Ideal.matmul_constant_zero_apply, ← Equiv.sum_comp (ValueIdx.contrEquiv1 dot_S64x16_S16x1_S64x1_1_0_0_1_n_n 16 rfl rfl).symm]
  refine Finset.sum_congr rfl fun k _ => ?_
  have hk := ValueIdx.contrEquiv1_symm_val dot_S64x16_S16x1_S64x1_1_0_0_1_n_n 16 rfl rfl k
  have el : dot_S64x16_S16x1_S64x1_1_0_0_1_n_n.lhsIdx (ix2 g (0 : Fin 1)) ((ValueIdx.contrEquiv1 dot_S64x16_S16x1_S64x1_1_0_0_1_n_n 16 rfl rfl).symm k) = ix2 g k := funext fun a => Fin.ext (by
    match a with
    | ⟨0, _⟩ => exact lhs_head_0 _ _
    | ⟨1, _⟩ => exact (lhs_head_1 _ _).trans hk)
  have er : dot_S64x16_S16x1_S64x1_1_0_0_1_n_n.rhsIdx (ix2 g (0 : Fin 1)) ((ValueIdx.contrEquiv1 dot_S64x16_S16x1_S64x1_1_0_0_1_n_n 16 rfl rfl).symm k) = ix2 k (0 : Fin 1) := funext fun a => Fin.ext (by
    match a with
    | ⟨0, _⟩ => exact (rhs_head_0 _ _).trans hk
    | ⟨1, _⟩ => exact rhs_head_1 _ _)
  rw [el, er]

theorem bcast_col_64 (v : FVec Ideal S64x1 .f32) (g : Fin 64) (j : Fin 16) :
    broadcastTo S64x16 v broadcasts_S64x1_S64x16 (ix2 g j) = v (ix2 g 0) := by
  refine broadcastTo_apply v broadcasts_S64x1_S64x16 (ix2 g j) (ix2 g 0) fun a => ?_
  match a with
  | ⟨0, _⟩ => rfl
  | ⟨1, _⟩ => rfl

theorem bcast_one_64 (v : FVec Ideal S1x1 .f32) (g : Fin 64) :
    broadcastTo S64x1 v broadcasts_S1x1_S64x1 (ix2 g (0 : Fin 1)) = v (ix2 0 0) := by
  refine broadcastTo_apply v broadcasts_S1x1_S64x1 (ix2 g (0 : Fin 1)) (ix2 0 0) fun a => ?_
  match a with
  | ⟨0, _⟩ => rfl
  | ⟨1, _⟩ => rfl

theorem pay6_apply (cnt : Vec Ideal S64x1 .f32) (acc : Vec Ideal S64x16 .f32) (ws : Vec Ideal S16x1 .f32) (bs : Vec Ideal S1x1 .f32) (g : Fin 64) :
    k3_pay6 (F := Ideal) cnt acc ws bs (ix2 g 0)
      = (∑ j : Fin 16, Ideal.div (acc (ix2 g j)) (max (cnt (ix2 g 0)) (Ideal.ofBits .f32 0x3F800000#32)) * ws (ix2 j 0)) + bs (ix2 0 0) := by
  unfold k3_pay6
  simp only [shapeCast_self]
  rw [addf_apply, matmul_head_apply, bcast_one_64]
  refine congrArg (· + bs (ix2 0 0)) (Finset.sum_congr rfl fun j _ => ?_)
  rw [truncf_apply, truncf_apply, divf_apply, bcast_col_64, maximumf_apply, broadcast_apply]
  rfl

abbrev hblk (c : Dev nD) (t : Fin cfg3.N) : Vec Ideal S5000x16 .f32 := iblk3 V c 0 t
abbrev wblk (c : Dev nD) (t : Fin cfg3.N) : Vec Ideal S5000x1 .i32 := iblk3 V c 1 t
abbrev wsblk (c : Dev nD) (t : Fin cfg3.N) : Vec Ideal S16x1 .f32 := iblk3 V c 2 t
abbrev bsblk (c : Dev nD) (t : Fin cfg3.N) : Vec Ideal S1x1 .f32 := iblk3 V c 3 t
abbrev harr (c : Dev nD) : FVec Ideal ⟨2, ![100000, 16]⟩ .f32 := V c main_v207
abbrev warr (c : Dev nD) : IVec ⟨2, ![100000, 1]⟩ 32 := V c main_v208
abbrev wsarr (c : Dev nD) : FVec Ideal ⟨2, ![16, 1]⟩ .f32 := V c main_arg8
abbrev bsarr (c : Dev nD) : FVec Ideal ⟨2, ![1, 1]⟩ .f32 := V c main_v209

theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_1 : ∀ t : Fin cfg3.N, win3_1.index t 0 = t.val ∧ win3_1.index t 1 = 0 :=
  (by decide +kernel : ∀ t : Fin grid3.N, win3_1.index t 0 = t.val ∧ win3_1.index t 1 = 0)
theorem idx3_2 : ∀ t : Fin cfg3.N, win3_2.index t 0 = 0 ∧ win3_2.index t 1 = 0 :=
  (by decide +kernel : ∀ t : Fin grid3.N, win3_2.index t 0 = 0 ∧ win3_2.index t 1 = 0)
theorem idx3_3 : ∀ t : Fin cfg3.N, win3_3.index t 0 = 0 ∧ win3_3.index t 1 = 0 :=
  (by decide +kernel : ∀ t : Fin grid3.N, win3_3.index t 0 = 0 ∧ win3_3.index t 1 = 0)
theorem idx3_4 : ∀ t : Fin cfg3.N, win3_4.index t 0 = 0 ∧ win3_4.index t 1 = 0 :=
  (by decide +kernel : ∀ t : Fin grid3.N, win3_4.index t 0 = 0 ∧ win3_4.index t 1 = 0)

theorem hblk_apply (c : Dev nD) (t : Fin cfg3.N) (r : Fin 5000) (j : Fin 16) (hr : 5000 * t.val + r.val < 100000) :
    hblk V c t (ix2 r j) = harr V c (ix2 ⟨5000 * t.val + r.val, hr⟩ j) := by
  unfold hblk iblk3
  rw [View.read_apply]
  show V c main_v207 (((cfg3.win 0).blk t).view.emb (ix2 r j)) = V c main_v207 (ix2 ⟨5000 * t.val + r.val, hr⟩ j)
  refine congrArg (V c main_v207) (funext fun a => Fin.ext ?_)
  match a with
  | ⟨0, _⟩ => show win3_0.index t 0 * 5000 + 1 * r.val = 5000 * t.val + r.val; rw [(idx3_0 t).1]; omega
  | ⟨1, _⟩ => show win3_0.index t 1 * 16 + 1 * j.val = j.val; rw [(idx3_0 t).2]; omega

theorem wblk_apply (c : Dev nD) (t : Fin cfg3.N) (r : Fin 5000) (hr : 5000 * t.val + r.val < 100000) :
    wblk V c t (ix2 r 0) = warr V c (ix2 ⟨5000 * t.val + r.val, hr⟩ 0) := by
  unfold wblk iblk3
  rw [View.read_apply]
  show V c main_v208 (((cfg3.win 1).blk t).view.emb (ix2 r 0)) = V c main_v208 (ix2 ⟨5000 * t.val + r.val, hr⟩ 0)
  refine congrArg (V c main_v208) (funext fun a => Fin.ext ?_)
  match a with
  | ⟨0, _⟩ => show win3_1.index t 0 * 5000 + 1 * r.val = 5000 * t.val + r.val; rw [(idx3_1 t).1]; omega
  | ⟨1, _⟩ => show win3_1.index t 1 * 1 + 1 * 0 = 0; rw [(idx3_1 t).2]

theorem wsblk_apply (c : Dev nD) (t : Fin cfg3.N) (j : Fin 16) : wsblk V c t (ix2 j 0) = wsarr V c (ix2 j 0) := by
  unfold wsblk iblk3
  rw [View.read_apply]
  show V c main_arg8 (((cfg3.win 2).blk t).view.emb (ix2 j 0)) = V c main_arg8 (ix2 j 0)
  refine congrArg (V c main_arg8) (funext fun a => Fin.ext ?_)
  match a with
  | ⟨0, _⟩ => show win3_2.index t 0 * 16 + 1 * j.val = j.val; rw [(idx3_2 t).1]; omega
  | ⟨1, _⟩ => show win3_2.index t 1 * 1 + 1 * 0 = 0; rw [(idx3_2 t).2]

theorem bsblk_apply (c : Dev nD) (t : Fin cfg3.N) : bsblk V c t (ix2 0 0) = bsarr V c (ix2 0 0) := by
  unfold bsblk iblk3
  rw [View.read_apply]
  show V c main_v209 (((cfg3.win 3).blk t).view.emb (ix2 0 0)) = V c main_v209 (ix2 0 0)
  refine congrArg (V c main_v209) (funext fun a => Fin.ext ?_)
  match a with
  | ⟨0, _⟩ => show win3_3.index t 0 * 1 + 1 * 0 = 0; rw [(idx3_3 t).1]
  | ⟨1, _⟩ => show win3_3.index t 1 * 1 + 1 * 0 = 0; rw [(idx3_3 t).2]

theorem pay1_apply (i : S64x16.Idx) : k3_pay1 (F := Ideal) i = 0 := by
  unfold k3_pay1
  simp only [shapeCast_self]
  exact Ideal.ofBits_zero_f32
theorem pay2_apply (i : S64x1.Idx) : k3_pay2 (F := Ideal) i = 0 := by
  unfold k3_pay2
  simp only [shapeCast_self]
  exact Ideal.ofBits_zero_f32

theorem tile_sum (c : Dev nD) (t : Fin cfg3.N) (g : Fin 64) (f : Fin 100000 → EReal) (x : Fin 5000 → EReal)
    (hx : ∀ (r : Fin 5000) (hr : 5000 * t.val + r.val < 100000), x r = f ⟨5000 * t.val + r.val, hr⟩) :
    ∑ r : Fin 5000, hot (wblk V c t (ix2 r 0)) g * x r
      = ∑ k : Fin 5000, below (Cert.Spec.inGraph (warr V c) g) f (5000 * t.val + k.val) := by
  have hN : cfg3.N = 20 := N_3
  refine Finset.sum_congr rfl fun r _ => ?_
  have hr : 5000 * t.val + r.val < 100000 := by have := t.isLt; have := r.isLt; omega
  rw [below_of_lt _ _ _ hr, wblk_apply V c t r hr, hx r hr, hot_mul]
  rfl

theorem acc_inv (c : Dev nD) (g : Fin 64) (j : Fin 16) : ∀ (n : ℕ) (hn : n < cfg3.N),
    (accs3 V c n hn).1 (ix2 g j)
      = ∑ i ∈ Finset.range (5000 * (n + 1)), below (Cert.Spec.inGraph (warr V c) g) (fun r => harr V c (ix2 r j)) i
  | 0, hn => by
    rw [accs3_zero]
    dsimp only
    refine (pay4_apply (wblk V c ⟨0, hn⟩) (hblk V c ⟨0, hn⟩) (k3_pay1 (F := Ideal)) g j).trans ?_
    rw [pay1_apply, zero_add, tile_sum V c ⟨0, hn⟩ g (fun r => harr V c (ix2 r j)) (fun r => hblk V c ⟨0, hn⟩ (ix2 r j))
      (fun r hr => hblk_apply V c ⟨0, hn⟩ r j hr), sum_below_step _ _ 0]
    simp only [Nat.mul_zero, Finset.range_zero, Finset.sum_empty, zero_add]
  | n + 1, hn => by
    rw [accs3_succ]
    dsimp only
    refine (pay4_apply (wblk V c ⟨n + 1, hn⟩) (hblk V c ⟨n + 1, hn⟩) (accs3 V c n (Nat.lt_of_succ_lt hn)).1 g j).trans ?_
    rw [acc_inv c g j n (Nat.lt_of_succ_lt hn), tile_sum V c ⟨n + 1, hn⟩ g (fun r => harr V c (ix2 r j)) (fun r => hblk V c ⟨n + 1, hn⟩ (ix2 r j))
      (fun r hr => hblk_apply V c ⟨n + 1, hn⟩ r j hr), sum_below_step _ _ (n + 1)]

theorem cnt_inv (c : Dev nD) (g : Fin 64) : ∀ (n : ℕ) (hn : n < cfg3.N),
    (accs3 V c n hn).2 (ix2 g 0)
      = ∑ i ∈ Finset.range (5000 * (n + 1)), below (Cert.Spec.inGraph (warr V c) g) (fun _ => 1) i
  | 0, hn => by
    rw [accs3_zero]
    dsimp only
    refine (pay5_apply (wblk V c ⟨0, hn⟩) (k3_pay2 (F := Ideal)) g).trans ?_
    rw [pay2_apply, zero_add, tile_sum V c ⟨0, hn⟩ g (fun _ => 1) (fun _ => 1) (fun _ _ => rfl), sum_below_step _ _ 0]
    simp only [Nat.mul_zero, Finset.range_zero, Finset.sum_empty, zero_add]
  | n + 1, hn => by
    rw [accs3_succ]
    dsimp only
    refine (pay5_apply (wblk V c ⟨n + 1, hn⟩) (accs3 V c n (Nat.lt_of_succ_lt hn)).2 g).trans ?_
    rw [cnt_inv c g n (Nat.lt_of_succ_lt hn), tile_sum V c ⟨n + 1, hn⟩ g (fun _ => 1) (fun _ => 1) (fun _ _ => rfl), sum_below_step _ _ (n + 1)]

theorem head_eq (c : Dev nD) (t : Fin cfg3.N) (ht : t.val = 19) :
    k3_pay6 (F := Ideal) (accs3 V c t.val t.isLt).2 (accs3 V c t.val t.isLt).1 (wsblk V c t) (bsblk V c t)
      = Cert.Spec.pool (harr V c) (warr V c) (wsarr V c) (bsarr V c) := by
  funext i
  have h1 := idx2_lt1 i
  obtain ⟨g, rfl⟩ : ∃ g : Fin 64, i = ix2 g 0 :=
    ⟨i 0, (eq_ix2 i).trans (congrArg (ix2 (i 0)) (Fin.ext (by show (i 1).val = 0; omega)))⟩
  rw [pay6_apply, Cert.Spec.pool_apply, bsblk_apply, cnt_inv V c g t.val t.isLt]
  have e100 : 5000 * (t.val + 1) = 100000 := by omega
  rw [e100, sum_below_all]
  refine congrArg (· + bsarr V c (ix2 0 0)) (Finset.sum_congr rfl fun j _ => ?_)
  rw [wsblk_apply, acc_inv V c g j t.val t.isLt, e100, sum_below_all]
  rfl

theorem flushed3_4 (c : Dev nD) (t : Fin cfg3.N) (hf : (cfg3.win 4).flush t = true) :
    (dat3 (F := Ideal) V c).flushed 4 t
      = ((cfg3.win 4).blk t).view.read (Elt Ideal) (Cert.Spec.pool (V c main_v207) (V c main_v208) (V c main_arg8) (V c main_v209)) := by
  have hN : cfg3.N = 20 := N_3
  have h19 : t.val = 19 := by have := (flush3_4 t).mp hf; have := t.isLt; omega
  show (cfg3.win 4).cut (grid3.coords t) ((dat3 (F := Ideal) V c).after 4 t) = _
  rw [after3_4, head_eq V c t h19]
  have hz : (fun a => win3_4.index t a * main_v210.ty.shape.size a) = fun _ => 0 := funext fun a => by
    match a with
    | ⟨0, _⟩ => show win3_4.index t 0 * 64 = 0; rw [(idx3_4 t).1]
    | ⟨1, _⟩ => show win3_4.index t 1 * 1 = 0; rw [(idx3_4 t).2]
  exact (Memref.read_access_unit_zero (Elt Ideal) main_v210 hz (fun a => by rw [congrFun hz a]; simp)
    (Cert.Spec.pool (V c main_v207) (V c main_v208) (V c main_arg8) (V c main_v209))).symm

end PoolK

open PoolK

theorem arr3_4 (c : Dev nD) :
    (dat3 (F := Ideal) V c).arrAt 4 cfg3.N = Cert.Spec.pool (V c main_v207) (V c main_v208) (V c main_arg8) (V c main_v209) := by
  have hN : cfg3.N = 20 := N_3
  have h19 : 19 < cfg3.N := by rw [hN]; decide
  refine (dat3 (F := Ideal) V c).arrAt_eq_of_cover 4 _ (flushed3_4 V c) fun i => ⟨⟨19, h19⟩, (flush3_4 ⟨19, h19⟩).mpr rfl, ?_⟩
  show i ∈ ((View.whole main_v210).slice (win3_4.rect ⟨19, h19⟩)).set
  rw [View.set_slice_whole, Rect.mem_set_unit]
  intro a
  have h0 : (i 0 : Nat) < 64 := (i 0).isLt
  have h1 : (i 1 : Nat) < 1 := (i 1).isLt
  match a with
  | ⟨0, _⟩ =>
    show win3_4.index ⟨19, h19⟩ 0 * 64 ≤ (i 0 : Nat) ∧ (i 0 : Nat) < win3_4.index ⟨19, h19⟩ 0 * 64 + 64
    rw [(idx3_4 ⟨19, h19⟩).1]; omega
  | ⟨1, _⟩ =>
    show win3_4.index ⟨19, h19⟩ 1 * 1 ≤ (i 1 : Nat) ∧ (i 1 : Nat) < win3_4.index ⟨19, h19⟩ 1 * 1 + 1
    rw [(idx3_4 ⟨19, h19⟩).2]; omega

end Cert.KernelIdeal.Hand
end
-- ==== Proof.Val.Layers.lean ====
import proofs.«428193_j13675175870529_1_alg».proof.Proof.Gen.KernelIdeal
import proofs.«428193_j13675175870529_1_alg».proof.Proof.Val.Spec

noncomputable section

namespace Cert.Spec

open Cert.KernelIdeal Cert.KernelIdeal.Gen
open Idealize.ShloMosaic

/-- The five hop levels `x, H x, …, H⁴ x` side by side. -/
def stack2 (H : FVec Ideal S100000x2 .f32 → FVec Ideal S100000x2 .f32) (x : FVec Ideal S100000x2 .f32) : FVec Ideal S100000x10 .f32 :=
  concatenate S100000x10 1 [⟨S100000x2, x⟩, ⟨S100000x2, H x⟩, ⟨S100000x2, H (H x)⟩, ⟨S100000x2, H (H (H x))⟩, ⟨S100000x2, H (H (H (H x)))⟩]
    concatenates_S100000x2_S100000x2_S100000x2_S100000x2_S100000x2_S100000x10_d1

def stack16 (H : FVec Ideal S100000x16 .f32 → FVec Ideal S100000x16 .f32) (x : FVec Ideal S100000x16 .f32) : FVec Ideal S100000x80 .f32 :=
  concatenate S100000x80 1 [⟨S100000x16, x⟩, ⟨S100000x16, H x⟩, ⟨S100000x16, H (H x)⟩, ⟨S100000x16, H (H (H x))⟩, ⟨S100000x16, H (H (H (H x)))⟩]
    concatenates_S100000x16_S100000x16_S100000x16_S100000x16_S100000x16_S100000x80_d1

/-- A layer: the dense layer of the stacked hop levels, the weights reshaped to (hop, feature) rows. -/
def layer1 (H : FVec Ideal S100000x2 .f32 → FVec Ideal S100000x2 .f32) (x : FVec Ideal S100000x2 .f32)
    (W : FVec Ideal S5x2x16 .f32) (b : FVec Ideal S16 .f32) : FVec Ideal S100000x16 .f32 :=
  dense (stack2 H x) (shapeCast S10x16 W shapeCasts_S5x2x16_S10x16) (shapeCast S1x16 b shapeCasts_S16_S1x16)

def layerN (H : FVec Ideal S100000x16 .f32 → FVec Ideal S100000x16 .f32) (x : FVec Ideal S100000x16 .f32)
    (W : FVec Ideal S5x16x16 .f32) (b : FVec Ideal S16 .f32) : FVec Ideal S100000x16 .f32 :=
  dense (stack16 H x) (shapeCast S80x16 W shapeCasts_S5x16x16_S80x16) (shapeCast S1x16 b shapeCasts_S16_S1x16)

def wl0 (Wl : FVec Ideal S2x5x16x16 .f32) : FVec Ideal S5x16x16 .f32 :=
  shapeCast S5x16x16 (extractStridedSlice S1x5x16x16 ![0, 0, 0, 0] Wl slices_S2x5x16x16_S1x5x16x16_0_0_0_0) shapeCasts_S1x5x16x16_S5x16x16
def wl1 (Wl : FVec Ideal S2x5x16x16 .f32) : FVec Ideal S5x16x16 .f32 :=
  shapeCast S5x16x16 (extractStridedSlice S1x5x16x16 ![1, 0, 0, 0] Wl slices_S2x5x16x16_S1x5x16x16_1_0_0_0) shapeCasts_S1x5x16x16_S5x16x16

def bl0 (bl : FVec Ideal S2x16 .f32) : FVec Ideal S16 .f32 :=
  shapeCast S16 (extractStridedSlice S1x16 ![0, 0] bl slices_S2x16_S1x16_0_0) shapeCasts_S1x16_S16
def bl1 (bl : FVec Ideal S2x16 .f32) : FVec Ideal S16 .f32 :=
  shapeCast S16 (extractStridedSlice S1x16 ![1, 0] bl slices_S2x16_S1x16_1_0) shapeCasts_S1x16_S16

def head (h : FVec Ideal S100000x16 .f32) (batch : IVec S100000 32) (ws : FVec Ideal S16x1 .f32) (bs : FVec Ideal S1 .f32) : FVec Ideal S64x1 .f32 :=
  pool h (shapeCast S100000x1 batch shapeCasts_S100000_S100000x1) ws (shapeCast S1x1 bs shapeCasts_S1_S1x1)

end Cert.Spec

end
-- ==== Proof.Val.KVal.lean ====
import proofs.«428193_j13675175870529_1_alg».proof.Proof.Val.KRead
import proofs.«428193_j13675175870529_1_alg».proof.Proof.Val.DenseK0
import proofs.«428193_j13675175870529_1_alg».proof.Proof.Val.DenseK1
import proofs.«428193_j13675175870529_1_alg».proof.Proof.Val.DenseK2
import proofs.«428193_j13675175870529_1_alg».proof.Proof.Val.PoolK
import proofs.«428193_j13675175870529_1_alg».proof.Proof.Val.Layers

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

variable (m : (ℓ : Loc nD τ sig) → Buf (Elt Ideal) ℓ) (ρ : Dev nD → PrngReg)

abbrev kn (c : Dev nD) : FVec Ideal S3200000 .f32 := normK (m ((c : Thread nD τ).loc main_arg1)) (m ((c : Thread nD τ).loc main_arg2))
abbrev ks (c : Dev nD) : IVec S3200000 32 := srcK (m ((c : Thread nD τ).loc main_arg1))
abbrev kd (c : Dev nD) : IVec S3200000 32 := dstK (m ((c : Thread nD τ).loc main_arg1))

theorem W5_arg0 (c : Dev nD) : W5 m ρ c (Proc.devRef .tc main_arg0) = m ((c : Thread nD τ).loc main_arg0) :=
  (W5_of m ρ c main_arg0).trans <| (W4_of m ρ c main_arg0).trans <| (W3_of m ρ c main_arg0).trans <|
    (W2_of m ρ c main_arg0).trans <| (W1_of m ρ c main_arg0).trans rfl
theorem W5_arg4 (c : Dev nD) : W5 m ρ c (Proc.devRef .tc main_arg4) = m ((c : Thread nD τ).loc main_arg4) :=
  (W5_of m ρ c main_arg4).trans <| (W4_of m ρ c main_arg4).trans <| (W3_of m ρ c main_arg4).trans <|
    (W2_of m ρ c main_arg4).trans <| (W1_of m ρ c main_arg4).trans rfl
theorem W5_arg5 (c : Dev nD) : W5 m ρ c (Proc.devRef .tc main_arg5) = m ((c : Thread nD τ).loc main_arg5) :=
  (W5_of m ρ c main_arg5).trans <| (W4_of m ρ c main_arg5).trans <| (W3_of m ρ c main_arg5).trans <|
    (W2_of m ρ c main_arg5).trans <| (W1_of m ρ c main_arg5).trans rfl
theorem W5_arg6 (c : Dev nD) : W5 m ρ c (Proc.devRef .tc main_arg6) = m ((c : Thread nD τ).loc main_arg6) :=
  (W5_of m ρ c main_arg6).trans <| (W4_of m ρ c main_arg6).trans <| (W3_of m ρ c main_arg6).trans <|
    (W2_of m ρ c main_arg6).trans <| (W1_of m ρ c main_arg6).trans rfl
theorem W5_arg7 (c : Dev nD) : W5 m ρ c (Proc.devRef .tc main_arg7) = m ((c : Thread nD τ).loc main_arg7) :=
  (W5_of m ρ c main_arg7).trans <| (W4_of m ρ c main_arg7).trans <| (W3_of m ρ c main_arg7).trans <|
    (W2_of m ρ c main_arg7).trans <| (W1_of m ρ c main_arg7).trans rfl

theorem W7_v31 (c : Dev nD) : W7 m ρ c (Proc.devRef .tc main_v31) = kn m c := (W7_of m ρ c main_v31).trans <| (W6_of_ne m ρ c main_v31).trans <| k1_norm m ρ c
theorem W7_v1 (c : Dev nD) : W7 m ρ c (Proc.devRef .tc main_v1) = ks m c := (W7_of m ρ c main_v1).trans <| (W6_of_ne m ρ c main_v1).trans <| k1_src m ρ c
theorem W7_v3 (c : Dev nD) : W7 m ρ c (Proc.devRef .tc main_v3) = kd m c := (W7_of m ρ c main_v3).trans <| (W6_of_ne m ρ c main_v3).trans <| k1_dst m ρ c
theorem W7_arg6 (c : Dev nD) : W7 m ρ c (Proc.devRef .tc main_arg6) = m ((c : Thread nD τ).loc main_arg6) := (W7_of m ρ c main_arg6).trans <| (W6_of_ne m ρ c main_arg6).trans <| W5_arg6 m ρ c
theorem W7_arg7 (c : Dev nD) : W7 m ρ c (Proc.devRef .tc main_arg7) = m ((c : Thread nD τ).loc main_arg7) := (W7_of m ρ c main_arg7).trans <| (W6_of_ne m ρ c main_arg7).trans <| W5_arg7 m ρ c
theorem W7_v87 (c : Dev nD) : W7 m ρ c (Proc.devRef .tc main_v87) = W6 m ρ c (Proc.devRef .tc main_v87) := W7_of m ρ c main_v87
theorem W9_v31 (c : Dev nD) : W9 m ρ c (Proc.devRef .tc main_v31) = kn m c := (W9_of m ρ c main_v31).trans <| (W8_of_ne m ρ c main_v31).trans <| W7_v31 m ρ c
theorem W9_v1 (c : Dev nD) : W9 m ρ c (Proc.devRef .tc main_v1) = ks m c := (W9_of m ρ c main_v1).trans <| (W8_of_ne m ρ c main_v1).trans <| W7_v1 m ρ c
theorem W9_v3 (c : Dev nD) : W9 m ρ c (Proc.devRef .tc main_v3) = kd m c := (W9_of m ρ c main_v3).trans <| (W8_of_ne m ρ c main_v3).trans <| W7_v3 m ρ c
theorem W9_arg6 (c : Dev nD) : W9 m ρ c (Proc.devRef .tc main_arg6) = m ((c : Thread nD τ).loc main_arg6) := (W9_of m ρ c main_arg6).trans <| (W8_of_ne m ρ c main_arg6).trans <| W7_arg6 m ρ c
theorem W9_arg7 (c : Dev nD) : W9 m ρ c (Proc.devRef .tc main_arg7) = m ((c : Thread nD τ).loc main_arg7) := (W9_of m ρ c main_arg7).trans <| (W8_of_ne m ρ c main_arg7).trans <| W7_arg7 m ρ c
theorem W9_v147 (c : Dev nD) : W9 m ρ c (Proc.devRef .tc main_v147) = W8 m ρ c (Proc.devRef .tc main_v147) := W9_of m ρ c main_v147
theorem W11_v207 (c : Dev nD) : W11 m ρ c (Proc.devRef .tc main_v207) = W10 m ρ c (Proc.devRef .tc main_v207) := W11_of m ρ c main_v207
theorem W11_arg3 (c : Dev nD) : W11 m ρ c (Proc.devRef .tc main_arg3) = m ((c : Thread nD τ).loc main_arg3) :=
  W11_keep m ρ c main_arg3
theorem W11_arg8 (c : Dev nD) : W11 m ρ c (Proc.devRef .tc main_arg8) = m ((c : Thread nD τ).loc main_arg8) :=
  W11_keep m ρ c main_arg8
theorem W11_arg9 (c : Dev nD) : W11 m ρ c (Proc.devRef .tc main_arg9) = m ((c : Thread nD τ).loc main_arg9) :=
  W11_keep m ρ c main_arg9

theorem kL1 (c : Dev nD) : W6 m ρ c (Proc.devRef .tc main_v87)
    = layer1 (hopK2 (kn m c) (ks m c) (kd m c)) (m ((c : Thread nD τ).loc main_arg0)) (m ((c : Thread nD τ).loc main_arg4)) (m ((c : Thread nD τ).loc main_arg5)) := by
  refine (W6_arr m ρ c 3).trans ?_
  refine (arr0_3 (V5 m ρ) c).trans ?_
  show dense (W5 m ρ c (Proc.devRef .tc main_v84)) (W5 m ρ c (Proc.devRef .tc main_v85)) (W5 m ρ c (Proc.devRef .tc main_v86)) = _
  rw [k1_stack, k1_w, k1_b, k1_h4, k1_h3, k1_h2, k1_h1, k1_norm, k1_src, k1_dst, W5_arg0, W5_arg4, W5_arg5]
  rfl

theorem kL2 (c : Dev nD) : W8 m ρ c (Proc.devRef .tc main_v147)
    = layerN (hopK16 (kn m c) (ks m c) (kd m c)) (W6 m ρ c (Proc.devRef .tc main_v87)) (wl0 (m ((c : Thread nD τ).loc main_arg6))) (bl0 (m ((c : Thread nD τ).loc main_arg7))) := by
  refine (W8_arr m ρ c 3).trans ?_
  refine (arr1_3 (V7 m ρ) c).trans ?_
  show dense (W7 m ρ c (Proc.devRef .tc main_v140)) (W7 m ρ c (Proc.devRef .tc main_v143)) (W7 m ρ c (Proc.devRef .tc main_v146)) = _
  rw [k2_stack, k2_w, k2_b, k2_h4, k2_h3, k2_h2, k2_h1, W7_v31, W7_v1, W7_v3, W7_v87, W7_arg6, W7_arg7]
  rfl

theorem kL3 (c : Dev nD) : W10 m ρ c (Proc.devRef .tc main_v207)
    = layerN (hopK16 (kn m c) (ks m c) (kd m c)) (W8 m ρ c (Proc.devRef .tc main_v147)) (wl1 (m ((c : Thread nD τ).loc main_arg6))) (bl1 (m ((c : Thread nD τ).loc main_arg7))) := by
  refine (W10_arr m ρ c 3).trans ?_
  refine (arr2_3 (V9 m ρ) c).trans ?_
  show dense (W9 m ρ c (Proc.devRef .tc main_v200)) (W9 m ρ c (Proc.devRef .tc main_v203)) (W9 m ρ c (Proc.devRef .tc main_v206)) = _
  rw [k3_stack, k3_w, k3_b, k3_h4, k3_h3, k3_h2, k3_h1, W9_v31, W9_v1, W9_v3, W9_v147, W9_arg6, W9_arg7]
  rfl

theorem kOut (c : Dev nD) : W12 m ρ c (Proc.devRef .tc main_v210)
    = head (W10 m ρ c (Proc.devRef .tc main_v207)) (m ((c : Thread nD τ).loc main_arg3)) (m ((c : Thread nD τ).loc main_arg8)) (m ((c : Thread nD τ).loc main_arg9)) := by
  refine (W12_arr m ρ c 4).trans ?_
  refine (arr3_4 (V11 m ρ) c).trans ?_
  show pool (W11 m ρ c (Proc.devRef .tc main_v207)) (W11 m ρ c (Proc.devRef .tc main_v208)) (W11 m ρ c (Proc.devRef .tc main_arg8)) (W11 m ρ c (Proc.devRef .tc main_v209)) = _
  rw [k4_bcol, k4_bs, W11_v207, W11_arg3, W11_arg8, W11_arg9]
  rfl

theorem kernel_value (c : Dev nD) : W12 m ρ c (Proc.devRef .tc main_v210)
    = head (layerN (hopK16 (kn m c) (ks m c) (kd m c))
        (layerN (hopK16 (kn m c) (ks m c) (kd m c))
          (layer1 (hopK2 (kn m c) (ks m c) (kd m c)) (m ((c : Thread nD τ).loc main_arg0)) (m ((c : Thread nD τ).loc main_arg4)) (m ((c : Thread nD τ).loc main_arg5)))
          (wl0 (m ((c : Thread nD τ).loc main_arg6))) (bl0 (m ((c : Thread nD τ).loc main_arg7))))
        (wl1 (m ((c : Thread nD τ).loc main_arg6))) (bl1 (m ((c : Thread nD τ).loc main_arg7))))
      (m ((c : Thread nD τ).loc main_arg3)) (m ((c : Thread nD τ).loc main_arg8)) (m ((c : Thread nD τ).loc main_arg9)) := by
  rw [kOut, kL3, kL2, kL1]

end Cert.KernelIdeal.Hand

end
-- ==== Proof.Val.RefOps.lean ====
import proofs.«428193_j13675175870529_1_alg».proof.Proof.Gen.ReferenceIdeal
import proofs.«428193_j13675175870529_1_alg».proof.Proof.LibWrites

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

abbrev f_slices_S2x3200000_S1x3200000_0_0_i32 : (⟨S2x3200000, .i32⟩ : BufTy).Contents (Elt F) → (⟨S1x3200000, .i32⟩ : BufTy).Contents (Elt F) := (extractStridedSlice S1x3200000 ![0, 0] · slices_S2x3200000_S1x3200000_0_0)
abbrev f_slices_S2x3200000_S1x3200000_1_0_i32 : (⟨S2x3200000, .i32⟩ : BufTy).Contents (Elt F) → (⟨S1x3200000, .i32⟩ : BufTy).Contents (Elt F) := (extractStridedSlice S1x3200000 ![1, 0] · slices_S2x3200000_S1x3200000_1_0)
abbrev f_slices_S3200000x7_S3200000x1_0_6_f32 : (⟨S3200000x7, .f32⟩ : BufTy).Contents (Elt F) → (⟨S3200000x1, .f32⟩ : BufTy).Contents (Elt F) := (extractStridedSlice S3200000x1 ![0, 6] · slices_S3200000x7_S3200000x1_0_6)
abbrev f_bcast_S_S100000_f32 : (⟨S_, .f32⟩ : BufTy).Contents (Elt F) → (⟨S100000, .f32⟩ : BufTy).Contents (Elt F) := broadcastInDim S100000 ![] bcast_S_S100000
abbrev f_bcast_S3200000_S3200000x1_0_i32 : (⟨S3200000, .i32⟩ : BufTy).Contents (Elt F) → (⟨S3200000x1, .i32⟩ : BufTy).Contents (Elt F) := broadcastInDim S3200000x1 ![0] bcast_S3200000_S3200000x1_0
abbrev f_scatter_S100000_S3200000x1_S3200000_n_0_0_1_f32 : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F) := (fun x i u => Host.scatterAdd scatter_S100000_S3200000x1_S3200000_n_0_0_1 x i u)
abbrev f_cmpf_ogt_S100000_f32 : (⟨S100000, .f32⟩ : BufTy).Contents (Elt F) → (⟨S100000, .f32⟩ : BufTy).Contents (Elt F) → (⟨S100000, .i1⟩ : BufTy).Contents (Elt F) := cmpf .ogt
abbrev f_rsqrt_S100000_f32 : (⟨S100000, .f32⟩ : BufTy).Contents (Elt F) → (⟨S100000, .f32⟩ : BufTy).Contents (Elt F) := Host.rsqrt
abbrev f_bcast_S_S3200000_i32 : (⟨S_, .i32⟩ : BufTy).Contents (Elt F) → (⟨S3200000, .i32⟩ : BufTy).Contents (Elt F) := broadcastInDim S3200000 ![] bcast_S_S3200000
abbrev f_cmpi_slt_S3200000_i32 : (⟨S3200000, .i32⟩ : BufTy).Contents (Elt F) → (⟨S3200000, .i32⟩ : BufTy).Contents (Elt F) → (⟨S3200000, .i1⟩ : BufTy).Contents (Elt F) := cmpi .slt
abbrev f_addi_S3200000_i32 : (⟨S3200000, .i32⟩ : BufTy).Contents (Elt F) → (⟨S3200000, .i32⟩ : BufTy).Contents (Elt F) → (⟨S3200000, .i32⟩ : BufTy).Contents (Elt F) := addi
abbrev f_select_S3200000_i1 : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F) := select
abbrev f_gather_S100000_S3200000x1_S3200000_n_0_n_n_0_1_1_f32 : (⟨S100000, .f32⟩ : BufTy).Contents (Elt F) → (⟨S3200000x1, .i32⟩ : BufTy).Contents (Elt F) → (⟨S3200000, .f32⟩ : BufTy).Contents (Elt F) := (fun x i => Host.gather gather_S100000_S3200000x1_S3200000_n_0_n_n_0_1_1 x i)
abbrev f_mulf_S3200000_f32 : (⟨S3200000, .f32⟩ : BufTy).Contents (Elt F) → (⟨S3200000, .f32⟩ : BufTy).Contents (Elt F) → (⟨S3200000, .f32⟩ : BufTy).Contents (Elt F) := mulf
abbrev f_slices_S5x2x16_S1x2x16_0_0_0_f32 : (⟨S5x2x16, .f32⟩ : BufTy).Contents (Elt F) → (⟨S1x2x16, .f32⟩ : BufTy).Contents (Elt F) := (extractStridedSlice S1x2x16 ![0, 0, 0] · slices_S5x2x16_S1x2x16_0_0_0)
abbrev f_dot_S100000x2_S2x16_S100000x16_1_0_0_1_n_n_f32 : (⟨S100000x2, .f32⟩ : BufTy).Contents (Elt F) → (⟨S2x16, .f32⟩ : BufTy).Contents (Elt F) → (⟨S100000x16, .f32⟩ : BufTy).Contents (Elt F) := (fun l r => Host.dotGeneral dot_S100000x2_S2x16_S100000x16_1_0_0_1_n_n none l r)
abbrev f_gather_S100000x2_S3200000x1_S3200000x2_1_0_n_n_0_1_12_f32 : (⟨S100000x2, .f32⟩ : BufTy).Contents (Elt F) → (⟨S3200000x1, .i32⟩ : BufTy).Contents (Elt F) → (⟨S3200000x2, .f32⟩ : BufTy).Contents (Elt F) := (fun x i => Host.gather gather_S100000x2_S3200000x1_S3200000x2_1_0_n_n_0_1_12 x i)
abbrev f_bcast_S3200000_S3200000x1_0_f32 : (⟨S3200000, .f32⟩ : BufTy).Contents (Elt F) → (⟨S3200000x1, .f32⟩ : BufTy).Contents (Elt F) := broadcastInDim S3200000x1 ![0] bcast_S3200000_S3200000x1_0
abbrev f_bcast_S3200000x1_S3200000x2_0_1_f32 : (⟨S3200000x1, .f32⟩ : BufTy).Contents (Elt F) → (⟨S3200000x2, .f32⟩ : BufTy).Contents (Elt F) := broadcastInDim S3200000x2 ![0, 1] bcast_S3200000x1_S3200000x2_0_1
abbrev f_mulf_S3200000x2_f32 : (⟨S3200000x2, .f32⟩ : BufTy).Contents (Elt F) → (⟨S3200000x2, .f32⟩ : BufTy).Contents (Elt F) → (⟨S3200000x2, .f32⟩ : BufTy).Contents (Elt F) := mulf
abbrev f_bcast_S_S100000x2_f32 : (⟨S_, .f32⟩ : BufTy).Contents (Elt F) → (⟨S100000x2, .f32⟩ : BufTy).Contents (Elt F) := broadcastInDim S100000x2 ![] bcast_S_S100000x2
abbrev f_scatter_S100000x2_S3200000x1_S3200000x2_1_0_0_1_f32 : (⟨S100000x2, .f32⟩ : BufTy).Contents (Elt F) → (⟨S3200000x1, .i32⟩ : BufTy).Contents (Elt F) → (⟨S3200000x2, .f32⟩ : BufTy).Contents (Elt F) → (⟨S100000x2, .f32⟩ : BufTy).Contents (Elt F) := (fun x i u => Host.scatterAdd scatter_S100000x2_S3200000x1_S3200000x2_1_0_0_1 x i u)
abbrev f_slices_S5x2x16_S1x2x16_1_0_0_f32 : (⟨S5x2x16, .f32⟩ : BufTy).Contents (Elt F) → (⟨S1x2x16, .f32⟩ : BufTy).Contents (Elt F) := (extractStridedSlice S1x2x16 ![1, 0, 0] · slices_S5x2x16_S1x2x16_1_0_0)
abbrev f_addf_S100000x16_f32 : (⟨S100000x16, .f32⟩ : BufTy).Contents (Elt F) → (⟨S100000x16, .f32⟩ : BufTy).Contents (Elt F) → (⟨S100000x16, .f32⟩ : BufTy).Contents (Elt F) := addf
abbrev f_slices_S5x2x16_S1x2x16_2_0_0_f32 : (⟨S5x2x16, .f32⟩ : BufTy).Contents (Elt F) → (⟨S1x2x16, .f32⟩ : BufTy).Contents (Elt F) := (extractStridedSlice S1x2x16 ![2, 0, 0] · slices_S5x2x16_S1x2x16_2_0_0)
abbrev f_slices_S5x2x16_S1x2x16_3_0_0_f32 : (⟨S5x2x16, .f32⟩ : BufTy).Contents (Elt F) → (⟨S1x2x16, .f32⟩ : BufTy).Contents (Elt F) := (extractStridedSlice S1x2x16 ![3, 0, 0] · slices_S5x2x16_S1x2x16_3_0_0)
abbrev f_slices_S5x2x16_S1x2x16_4_0_0_f32 : (⟨S5x2x16, .f32⟩ : BufTy).Contents (Elt F) → (⟨S1x2x16, .f32⟩ : BufTy).Contents (Elt F) := (extractStridedSlice S1x2x16 ![4, 0, 0] · slices_S5x2x16_S1x2x16_4_0_0)
abbrev f_bcast_S16_S1x16_1_f32 : (⟨S16, .f32⟩ : BufTy).Contents (Elt F) → (⟨S1x16, .f32⟩ : BufTy).Contents (Elt F) := broadcastInDim S1x16 ![1] bcast_S16_S1x16_1
abbrev f_bcast_S1x16_S100000x16_0_1_f32 : (⟨S1x16, .f32⟩ : BufTy).Contents (Elt F) → (⟨S100000x16, .f32⟩ : BufTy).Contents (Elt F) := broadcastInDim S100000x16 ![0, 1] bcast_S1x16_S100000x16_0_1
abbrev f_bcast_S_S100000x16_f32 : (⟨S_, .f32⟩ : BufTy).Contents (Elt F) → (⟨S100000x16, .f32⟩ : BufTy).Contents (Elt F) := broadcastInDim S100000x16 ![] bcast_S_S100000x16
abbrev f_cmpf_oge_S100000x16_f32 : (⟨S100000x16, .f32⟩ : BufTy).Contents (Elt F) → (⟨S100000x16, .f32⟩ : BufTy).Contents (Elt F) → (⟨S100000x16, .i1⟩ : BufTy).Contents (Elt F) := cmpf .oge
abbrev f_mulf_S100000x16_f32 : (⟨S100000x16, .f32⟩ : BufTy).Contents (Elt F) → (⟨S100000x16, .f32⟩ : BufTy).Contents (Elt F) → (⟨S100000x16, .f32⟩ : BufTy).Contents (Elt F) := mulf
abbrev f_slices_S2x5x16x16_S1x5x16x16_0_0_0_0_f32 : (⟨S2x5x16x16, .f32⟩ : BufTy).Contents (Elt F) → (⟨S1x5x16x16, .f32⟩ : BufTy).Contents (Elt F) := (extractStridedSlice S1x5x16x16 ![0, 0, 0, 0] · slices_S2x5x16x16_S1x5x16x16_0_0_0_0)
abbrev f_slices_S2x16_S1x16_0_0_f32 : (⟨S2x16, .f32⟩ : BufTy).Contents (Elt F) → (⟨S1x16, .f32⟩ : BufTy).Contents (Elt F) := (extractStridedSlice S1x16 ![0, 0] · slices_S2x16_S1x16_0_0)
abbrev f_slices_S5x16x16_S1x16x16_0_0_0_f32 : (⟨S5x16x16, .f32⟩ : BufTy).Contents (Elt F) → (⟨S1x16x16, .f32⟩ : BufTy).Contents (Elt F) := (extractStridedSlice S1x16x16 ![0, 0, 0] · slices_S5x16x16_S1x16x16_0_0_0)
abbrev f_dot_S100000x16_S16x16_S100000x16_1_0_0_1_n_n_f32 : (⟨S100000x16, .f32⟩ : BufTy).Contents (Elt F) → (⟨S16x16, .f32⟩ : BufTy).Contents (Elt F) → (⟨S100000x16, .f32⟩ : BufTy).Contents (Elt F) := (fun l r => Host.dotGeneral dot_S100000x16_S16x16_S100000x16_1_0_0_1_n_n none l r)
abbrev f_gather_S100000x16_S3200000x1_S3200000x16_1_0_n_n_0_1_116_f32 : (⟨S100000x16, .f32⟩ : BufTy).Contents (Elt F) → (⟨S3200000x1, .i32⟩ : BufTy).Contents (Elt F) → (⟨S3200000x16, .f32⟩ : BufTy).Contents (Elt F) := (fun x i => Host.gather gather_S100000x16_S3200000x1_S3200000x16_1_0_n_n_0_1_116 x i)
abbrev f_bcast_S3200000x1_S3200000x16_0_1_f32 : (⟨S3200000x1, .f32⟩ : BufTy).Contents (Elt F) → (⟨S3200000x16, .f32⟩ : BufTy).Contents (Elt F) := broadcastInDim S3200000x16 ![0, 1] bcast_S3200000x1_S3200000x16_0_1
abbrev f_mulf_S3200000x16_f32 : (⟨S3200000x16, .f32⟩ : BufTy).Contents (Elt F) → (⟨S3200000x16, .f32⟩ : BufTy).Contents (Elt F) → (⟨S3200000x16, .f32⟩ : BufTy).Contents (Elt F) := mulf
abbrev f_scatter_S100000x16_S3200000x1_S3200000x16_1_0_0_1_f32 : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F) := (fun x i u => Host.scatterAdd scatter_S100000x16_S3200000x1_S3200000x16_1_0_0_1 x i u)
abbrev f_slices_S5x16x16_S1x16x16_1_0_0_f32 : (⟨S5x16x16, .f32⟩ : BufTy).Contents (Elt F) → (⟨S1x16x16, .f32⟩ : BufTy).Contents (Elt F) := (extractStridedSlice S1x16x16 ![1, 0, 0] · slices_S5x16x16_S1x16x16_1_0_0)
abbrev f_slices_S5x16x16_S1x16x16_2_0_0_f32 : (⟨S5x16x16, .f32⟩ : BufTy).Contents (Elt F) → (⟨S1x16x16, .f32⟩ : BufTy).Contents (Elt F) := (extractStridedSlice S1x16x16 ![2, 0, 0] · slices_S5x16x16_S1x16x16_2_0_0)
abbrev f_slices_S5x16x16_S1x16x16_3_0_0_f32 : (⟨S5x16x16, .f32⟩ : BufTy).Contents (Elt F) → (⟨S1x16x16, .f32⟩ : BufTy).Contents (Elt F) := (extractStridedSlice S1x16x16 ![3, 0, 0] · slices_S5x16x16_S1x16x16_3_0_0)
abbrev f_slices_S5x16x16_S1x16x16_4_0_0_f32 : (⟨S5x16x16, .f32⟩ : BufTy).Contents (Elt F) → (⟨S1x16x16, .f32⟩ : BufTy).Contents (Elt F) := (extractStridedSlice S1x16x16 ![4, 0, 0] · slices_S5x16x16_S1x16x16_4_0_0)
abbrev f_slices_S2x5x16x16_S1x5x16x16_1_0_0_0_f32 : (⟨S2x5x16x16, .f32⟩ : BufTy).Contents (Elt F) → (⟨S1x5x16x16, .f32⟩ : BufTy).Contents (Elt F) := (extractStridedSlice S1x5x16x16 ![1, 0, 0, 0] · slices_S2x5x16x16_S1x5x16x16_1_0_0_0)
abbrev f_slices_S2x16_S1x16_1_0_f32 : (⟨S2x16, .f32⟩ : BufTy).Contents (Elt F) → (⟨S1x16, .f32⟩ : BufTy).Contents (Elt F) := (extractStridedSlice S1x16 ![1, 0] · slices_S2x16_S1x16_1_0)
abbrev f_bcast_S_S64_f32 : (⟨S_, .f32⟩ : BufTy).Contents (Elt F) → (⟨S64, .f32⟩ : BufTy).Contents (Elt F) := broadcastInDim S64 ![] bcast_S_S64
abbrev f_bcast_S100000_S100000x1_0_i32 : (⟨S100000, .i32⟩ : BufTy).Contents (Elt F) → (⟨S100000x1, .i32⟩ : BufTy).Contents (Elt F) := broadcastInDim S100000x1 ![0] bcast_S100000_S100000x1_0
abbrev f_scatter_S64_S100000x1_S100000_n_0_0_1_f32 : (⟨S64, .f32⟩ : BufTy).Contents (Elt F) → (⟨S100000x1, .i32⟩ : BufTy).Contents (Elt F) → (⟨S100000, .f32⟩ : BufTy).Contents (Elt F) → (⟨S64, .f32⟩ : BufTy).Contents (Elt F) := (fun x i u => Host.scatterAdd scatter_S64_S100000x1_S100000_n_0_0_1 x i u)
abbrev f_bcast_S_S64x16_f32 : (⟨S_, .f32⟩ : BufTy).Contents (Elt F) → (⟨S64x16, .f32⟩ : BufTy).Contents (Elt F) := broadcastInDim S64x16 ![] bcast_S_S64x16
abbrev f_scatter_S64x16_S100000x1_S100000x16_1_0_0_1_f32 : (⟨S64x16, .f32⟩ : BufTy).Contents (Elt F) → (⟨S100000x1, .i32⟩ : BufTy).Contents (Elt F) → (⟨S100000x16, .f32⟩ : BufTy).Contents (Elt F) → (⟨S64x16, .f32⟩ : BufTy).Contents (Elt F) := (fun x i u => Host.scatterAdd scatter_S64x16_S100000x1_S100000x16_1_0_0_1 x i u)
abbrev f_maximumf_S64_f32 : (⟨S64, .f32⟩ : BufTy).Contents (Elt F) → (⟨S64, .f32⟩ : BufTy).Contents (Elt F) → (⟨S64, .f32⟩ : BufTy).Contents (Elt F) := maximumf
abbrev f_bcast_S64_S64x1_0_f32 : (⟨S64, .f32⟩ : BufTy).Contents (Elt F) → (⟨S64x1, .f32⟩ : BufTy).Contents (Elt F) := broadcastInDim S64x1 ![0] bcast_S64_S64x1_0
abbrev f_bcast_S64x1_S64x16_0_1_f32 : (⟨S64x1, .f32⟩ : BufTy).Contents (Elt F) → (⟨S64x16, .f32⟩ : BufTy).Contents (Elt F) := broadcastInDim S64x16 ![0, 1] bcast_S64x1_S64x16_0_1
abbrev f_divf_S64x16_f32 : (⟨S64x16, .f32⟩ : BufTy).Contents (Elt F) → (⟨S64x16, .f32⟩ : BufTy).Contents (Elt F) → (⟨S64x16, .f32⟩ : BufTy).Contents (Elt F) := Host.divf
abbrev f_dot_S64x16_S16x1_S64x1_1_0_0_1_n_n_f32 : (⟨S64x16, .f32⟩ : BufTy).Contents (Elt F) → (⟨S16x1, .f32⟩ : BufTy).Contents (Elt F) → (⟨S64x1, .f32⟩ : BufTy).Contents (Elt F) := (fun l r => Host.dotGeneral dot_S64x16_S16x1_S64x1_1_0_0_1_n_n none l r)
abbrev f_bcast_S1_S1x1_1_f32 : (⟨S1, .f32⟩ : BufTy).Contents (Elt F) → (⟨S1x1, .f32⟩ : BufTy).Contents (Elt F) := broadcastInDim S1x1 ![1] bcast_S1_S1x1_1
abbrev f_bcast_S1x1_S64x1_0_1_f32 : (⟨S1x1, .f32⟩ : BufTy).Contents (Elt F) → (⟨S64x1, .f32⟩ : BufTy).Contents (Elt F) := broadcastInDim S64x1 ![0, 1] bcast_S1x1_S64x1_0_1
abbrev f_addf_S64x1_f32 : (⟨S64x1, .f32⟩ : BufTy).Contents (Elt F) → (⟨S64x1, .f32⟩ : BufTy).Contents (Elt F) → (⟨S64x1, .f32⟩ : BufTy).Contents (Elt F) := addf

abbrev rc0 : List (HloOp τ sig (Elt F)) :=
  [ StableHlo.unary main_arg1 main_v0 f_slices_S2x3200000_S1x3200000_0_0_i32,
    StableHlo.reshape main_v0 main_v1 rfl shapeCasts_S1x3200000_S3200000,
    StableHlo.unary main_arg1 main_v2 f_slices_S2x3200000_S1x3200000_1_0_i32,
    StableHlo.reshape main_v2 main_v3 rfl shapeCasts_S1x3200000_S3200000,
    StableHlo.unary main_arg2 main_v4 f_slices_S3200000x7_S3200000x1_0_6_f32,
    StableHlo.reshape main_v4 main_v5 rfl shapeCasts_S3200000x1_S3200000,
    StableHlo.nullary main_cst (constant S_ .f32 0x00000000#32),
    StableHlo.unary main_cst main_v6 f_bcast_S_S100000_f32,
    StableHlo.unary main_v3 main_v7 f_bcast_S3200000_S3200000x1_0_i32,
    StableHlo.ternary main_v6 main_v7 main_v5 main_v8 f_scatter_S100000_S3200000x1_S3200000_n_0_0_1_f32,
    StableHlo.nullary main_cst_0 (constant S_ .f32 0x00000000#32),
    StableHlo.unary main_cst_0 main_v9 f_bcast_S_S100000_f32,
    StableHlo.binary main_v8 main_v9 main_v10 f_cmpf_ogt_S100000_f32,
    StableHlo.nullary main_cst_1 (constant S_ .f32 0x00000000#32),
    StableHlo.unary main_cst_1 main_v11 f_bcast_S_S100000_f32,
    StableHlo.binary main_v8 main_v11 main_v12 f_cmpf_ogt_S100000_f32,
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v8 : StableHlo.TRef sig ⟨S100000, .f32⟩) (.of main_call0_v1 : StableHlo.TRef sig ⟨S100000, .f32⟩) (.of main_v13 : StableHlo.TRef sig ⟨S100000, .f32⟩) select,
    StableHlo.unary main_v13 main_v14 f_rsqrt_S100000_f32,
    StableHlo.nullary main_cst_3 (constant S_ .f32 0x00000000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.ternary (.of main_v10 : StableHlo.TRef sig ⟨S100000, .i1⟩) (.of main_v14 : StableHlo.TRef sig ⟨S100000, .f32⟩) (.of main_call1_v1 : StableHlo.TRef sig ⟨S100000, .f32⟩) (.of main_v15 : StableHlo.TRef sig ⟨S100000, .f32⟩) select,
    StableHlo.nullary main_c (constantI S_ 32 0#32),
    StableHlo.unary main_c main_v16 f_bcast_S_S3200000_i32,
    StableHlo.binary main_v1 main_v16 main_v17 f_cmpi_slt_S3200000_i32,
    StableHlo.nullary main_c_4 (constantI S_ 32 100000#32),
    StableHlo.unary main_c_4 main_v18 f_bcast_S_S3200000_i32,
    StableHlo.binary main_v1 main_v18 main_v19 f_addi_S3200000_i32,
    StableHlo.ternary main_v17 main_v19 main_v1 main_v20 f_select_S3200000_i1,
    StableHlo.unary main_v20 main_v21 f_bcast_S3200000_S3200000x1_0_i32,
    StableHlo.binary main_v15 main_v21 main_v22 f_gather_S100000_S3200000x1_S3200000_n_0_n_n_0_1_1_f32,
    StableHlo.binary main_v22 main_v5 main_v23 f_mulf_S3200000_f32,
    StableHlo.nullary main_c_5 (constantI S_ 32 0#32),
    StableHlo.unary main_c_5 main_v24 f_bcast_S_S3200000_i32,
    StableHlo.binary main_v3 main_v24 main_v25 f_cmpi_slt_S3200000_i32,
    StableHlo.nullary main_c_6 (constantI S_ 32 100000#32),
    StableHlo.unary main_c_6 main_v26 f_bcast_S_S3200000_i32,
    StableHlo.binary main_v3 main_v26 main_v27 f_addi_S3200000_i32,
    StableHlo.ternary main_v25 main_v27 main_v3 main_v28 f_select_S3200000_i1,
    StableHlo.unary main_v28 main_v29 f_bcast_S3200000_S3200000x1_0_i32,
    StableHlo.binary main_v15 main_v29 main_v30 f_gather_S100000_S3200000x1_S3200000_n_0_n_n_0_1_1_f32,
    StableHlo.binary main_v23 main_v30 main_v31 f_mulf_S3200000_f32 ]

abbrev rc1 : List (HloOp τ sig (Elt F)) :=
  [ StableHlo.unary main_arg4 main_v32 f_slices_S5x2x16_S1x2x16_0_0_0_f32,
    StableHlo.reshape main_v32 main_v33 rfl shapeCasts_S1x2x16_S2x16,
    StableHlo.binary main_arg0 main_v33 main_v34 f_dot_S100000x2_S2x16_S100000x16_1_0_0_1_n_n_f32,
    StableHlo.nullary main_c_7 (constantI S_ 32 0#32),
    StableHlo.unary main_c_7 main_v35 f_bcast_S_S3200000_i32,
    StableHlo.binary main_v1 main_v35 main_v36 f_cmpi_slt_S3200000_i32,
    StableHlo.nullary main_c_8 (constantI S_ 32 100000#32),
    StableHlo.unary main_c_8 main_v37 f_bcast_S_S3200000_i32,
    StableHlo.binary main_v1 main_v37 main_v38 f_addi_S3200000_i32,
    StableHlo.ternary main_v36 main_v38 main_v1 main_v39 f_select_S3200000_i1,
    StableHlo.unary main_v39 main_v40 f_bcast_S3200000_S3200000x1_0_i32,
    StableHlo.binary main_arg0 main_v40 main_v41 f_gather_S100000x2_S3200000x1_S3200000x2_1_0_n_n_0_1_12_f32,
    StableHlo.unary main_v31 main_v42 f_bcast_S3200000_S3200000x1_0_f32,
    StableHlo.unary main_v42 main_v43 f_bcast_S3200000x1_S3200000x2_0_1_f32,
    StableHlo.binary main_v41 main_v43 main_v44 f_mulf_S3200000x2_f32,
    StableHlo.nullary main_cst_9 (constant S_ .f32 0x00000000#32),
    StableHlo.unary main_cst_9 main_v45 f_bcast_S_S100000x2_f32,
    StableHlo.unary main_v3 main_v46 f_bcast_S3200000_S3200000x1_0_i32,
    StableHlo.ternary main_v45 main_v46 main_v44 main_v47 f_scatter_S100000x2_S3200000x1_S3200000x2_1_0_0_1_f32 ]

abbrev rc2 : List (HloOp τ sig (Elt F)) :=
  [ StableHlo.unary main_arg4 main_v48 f_slices_S5x2x16_S1x2x16_1_0_0_f32,
    StableHlo.reshape main_v48 main_v49 rfl shapeCasts_S1x2x16_S2x16,
    StableHlo.binary main_v47 main_v49 main_v50 f_dot_S100000x2_S2x16_S100000x16_1_0_0_1_n_n_f32,
    StableHlo.binary main_v34 main_v50 main_v51 f_addf_S100000x16_f32,
    StableHlo.nullary main_c_10 (constantI S_ 32 0#32),
    StableHlo.unary main_c_10 main_v52 f_bcast_S_S3200000_i32,
    StableHlo.binary main_v1 main_v52 main_v53 f_cmpi_slt_S3200000_i32,
    StableHlo.nullary main_c_11 (constantI S_ 32 100000#32),
    StableHlo.unary main_c_11 main_v54 f_bcast_S_S3200000_i32,
    StableHlo.binary main_v1 main_v54 main_v55 f_addi_S3200000_i32,
    StableHlo.ternary main_v53 main_v55 main_v1 main_v56 f_select_S3200000_i1,
    StableHlo.unary main_v56 main_v57 f_bcast_S3200000_S3200000x1_0_i32,
    StableHlo.binary main_v47 main_v57 main_v58 f_gather_S100000x2_S3200000x1_S3200000x2_1_0_n_n_0_1_12_f32,
    StableHlo.unary main_v31 main_v59 f_bcast_S3200000_S3200000x1_0_f32,
    StableHlo.unary main_v59 main_v60 f_bcast_S3200000x1_S3200000x2_0_1_f32,
    StableHlo.binary main_v58 main_v60 main_v61 f_mulf_S3200000x2_f32,
    StableHlo.nullary main_cst_12 (constant S_ .f32 0x00000000#32),
    StableHlo.unary main_cst_12 main_v62 f_bcast_S_S100000x2_f32,
    StableHlo.unary main_v3 main_v63 f_bcast_S3200000_S3200000x1_0_i32,
    StableHlo.ternary main_v62 main_v63 main_v61 main_v64 f_scatter_S100000x2_S3200000x1_S3200000x2_1_0_0_1_f32,
    StableHlo.unary main_arg4 main_v65 f_slices_S5x2x16_S1x2x16_2_0_0_f32,
    StableHlo.reshape main_v65 main_v66 rfl shapeCasts_S1x2x16_S2x16,
    StableHlo.binary main_v64 main_v66 main_v67 f_dot_S100000x2_S2x16_S100000x16_1_0_0_1_n_n_f32,
    StableHlo.binary main_v51 main_v67 main_v68 f_addf_S100000x16_f32,
    StableHlo.nullary main_c_13 (constantI S_ 32 0#32),
    StableHlo.unary main_c_13 main_v69 f_bcast_S_S3200000_i32,
    StableHlo.binary main_v1 main_v69 main_v70 f_cmpi_slt_S3200000_i32,
    StableHlo.nullary main_c_14 (constantI S_ 32 100000#32),
    StableHlo.unary main_c_14 main_v71 f_bcast_S_S3200000_i32,
    StableHlo.binary main_v1 main_v71 main_v72 f_addi_S3200000_i32,
    StableHlo.ternary main_v70 main_v72 main_v1 main_v73 f_select_S3200000_i1,
    StableHlo.unary main_v73 main_v74 f_bcast_S3200000_S3200000x1_0_i32,
    StableHlo.binary main_v64 main_v74 main_v75 f_gather_S100000x2_S3200000x1_S3200000x2_1_0_n_n_0_1_12_f32,
    StableHlo.unary main_v31 main_v76 f_bcast_S3200000_S3200000x1_0_f32,
    StableHlo.unary main_v76 main_v77 f_bcast_S3200000x1_S3200000x2_0_1_f32,
    StableHlo.binary main_v75 main_v77 main_v78 f_mulf_S3200000x2_f32,
    StableHlo.nullary main_cst_15 (constant S_ .f32 0x00000000#32),
    StableHlo.unary main_cst_15 main_v79 f_bcast_S_S100000x2_f32,
    StableHlo.unary main_v3 main_v80 f_bcast_S3200000_S3200000x1_0_i32,
    StableHlo.ternary main_v79 main_v80 main_v78 main_v81 f_scatter_S100000x2_S3200000x1_S3200000x2_1_0_0_1_f32,
    StableHlo.unary main_arg4 main_v82 f_slices_S5x2x16_S1x2x16_3_0_0_f32,
    StableHlo.reshape main_v82 main_v83 rfl shapeCasts_S1x2x16_S2x16,
    StableHlo.binary main_v81 main_v83 main_v84 f_dot_S100000x2_S2x16_S100000x16_1_0_0_1_n_n_f32,
    StableHlo.binary main_v68 main_v84 main_v85 f_addf_S100000x16_f32,
    StableHlo.nullary main_c_16 (constantI S_ 32 0#32),
    StableHlo.unary main_c_16 main_v86 f_bcast_S_S3200000_i32,
    StableHlo.binary main_v1 main_v86 main_v87 f_cmpi_slt_S3200000_i32,
    StableHlo.nullary main_c_17 (constantI S_ 32 100000#32),
    StableHlo.unary main_c_17 main_v88 f_bcast_S_S3200000_i32,
    StableHlo.binary main_v1 main_v88 main_v89 f_addi_S3200000_i32,
    StableHlo.ternary main_v87 main_v89 main_v1 main_v90 f_select_S3200000_i1,
    StableHlo.unary main_v90 main_v91 f_bcast_S3200000_S3200000x1_0_i32,
    StableHlo.binary main_v81 main_v91 main_v92 f_gather_S100000x2_S3200000x1_S3200000x2_1_0_n_n_0_1_12_f32,
    StableHlo.unary main_v31 main_v93 f_bcast_S3200000_S3200000x1_0_f32,
    StableHlo.unary main_v93 main_v94 f_bcast_S3200000x1_S3200000x2_0_1_f32,
    StableHlo.binary main_v92 main_v94 main_v95 f_mulf_S3200000x2_f32,
    StableHlo.nullary main_cst_18 (constant S_ .f32 0x00000000#32),
    StableHlo.unary main_cst_18 main_v96 f_bcast_S_S100000x2_f32,
    StableHlo.unary main_v3 main_v97 f_bcast_S3200000_S3200000x1_0_i32,
    StableHlo.ternary main_v96 main_v97 main_v95 main_v98 f_scatter_S100000x2_S3200000x1_S3200000x2_1_0_0_1_f32 ]

abbrev rc3 : List (HloOp τ sig (Elt F)) :=
  [ StableHlo.unary main_arg4 main_v99 f_slices_S5x2x16_S1x2x16_4_0_0_f32,
    StableHlo.reshape main_v99 main_v100 rfl shapeCasts_S1x2x16_S2x16,
    StableHlo.binary main_v98 main_v100 main_v101 f_dot_S100000x2_S2x16_S100000x16_1_0_0_1_n_n_f32,
    StableHlo.binary main_v85 main_v101 main_v102 f_addf_S100000x16_f32,
    StableHlo.unary main_arg5 main_v103 f_bcast_S16_S1x16_1_f32,
    StableHlo.unary main_v103 main_v104 f_bcast_S1x16_S100000x16_0_1_f32,
    StableHlo.binary main_v102 main_v104 main_v105 f_addf_S100000x16_f32,
    StableHlo.nullary main_cst_19 (constant S_ .f32 0x00000000#32),
    StableHlo.unary main_cst_19 main_v106 f_bcast_S_S100000x16_f32,
    StableHlo.binary main_v105 main_v106 main_v107 f_cmpf_oge_S100000x16_f32,
    StableHlo.nullary main_cst_20 (constant S_ .f32 0x3C23D70A#32),
    StableHlo.unary main_cst_20 main_v108 f_bcast_S_S100000x16_f32,
    StableHlo.binary main_v108 main_v105 main_v109 f_mulf_S100000x16_f32,
    StableHlo.TRef.ternary (.of main_v107 : StableHlo.TRef sig ⟨S100000x16, .i1⟩) (.of main_v105 : StableHlo.TRef sig ⟨S100000x16, .f32⟩) (.of main_v109 : StableHlo.TRef sig ⟨S100000x16, .f32⟩) (.of main_v110 : StableHlo.TRef sig ⟨S100000x16, .f32⟩) select ]

abbrev rc4 : List (HloOp τ sig (Elt F)) :=
  [ StableHlo.unary main_arg6 main_v111 f_slices_S2x5x16x16_S1x5x16x16_0_0_0_0_f32,
    StableHlo.reshape main_v111 main_v112 rfl shapeCasts_S1x5x16x16_S5x16x16,
    StableHlo.unary main_arg7 main_v113 f_slices_S2x16_S1x16_0_0_f32,
    StableHlo.reshape main_v113 main_v114 rfl shapeCasts_S1x16_S16,
    StableHlo.unary main_v112 main_v115 f_slices_S5x16x16_S1x16x16_0_0_0_f32,
    StableHlo.reshape main_v115 main_v116 rfl shapeCasts_S1x16x16_S16x16,
    StableHlo.binary main_v110 main_v116 main_v117 f_dot_S100000x16_S16x16_S100000x16_1_0_0_1_n_n_f32,
    StableHlo.nullary main_c_21 (constantI S_ 32 0#32),
    StableHlo.unary main_c_21 main_v118 f_bcast_S_S3200000_i32,
    StableHlo.binary main_v1 main_v118 main_v119 f_cmpi_slt_S3200000_i32,
    StableHlo.nullary main_c_22 (constantI S_ 32 100000#32),
    StableHlo.unary main_c_22 main_v120 f_bcast_S_S3200000_i32,
    StableHlo.binary main_v1 main_v120 main_v121 f_addi_S3200000_i32,
    StableHlo.ternary main_v119 main_v121 main_v1 main_v122 f_select_S3200000_i1,
    StableHlo.unary main_v122 main_v123 f_bcast_S3200000_S3200000x1_0_i32,
    StableHlo.binary main_v110 main_v123 main_v124 f_gather_S100000x16_S3200000x1_S3200000x16_1_0_n_n_0_1_116_f32,
    StableHlo.unary main_v31 main_v125 f_bcast_S3200000_S3200000x1_0_f32,
    StableHlo.unary main_v125 main_v126 f_bcast_S3200000x1_S3200000x16_0_1_f32,
    StableHlo.binary main_v124 main_v126 main_v127 f_mulf_S3200000x16_f32,
    StableHlo.nullary main_cst_23 (constant S_ .f32 0x00000000#32),
    StableHlo.unary main_cst_23 main_v128 f_bcast_S_S100000x16_f32,
    StableHlo.unary main_v3 main_v129 f_bcast_S3200000_S3200000x1_0_i32,
    StableHlo.ternary main_v128 main_v129 main_v127 main_v130 f_scatter_S100000x16_S3200000x1_S3200000x16_1_0_0_1_f32,
    StableHlo.unary main_v112 main_v131 f_slices_S5x16x16_S1x16x16_1_0_0_f32,
    StableHlo.reshape main_v131 main_v132 rfl shapeCasts_S1x16x16_S16x16,
    StableHlo.binary main_v130 main_v132 main_v133 f_dot_S100000x16_S16x16_S100000x16_1_0_0_1_n_n_f32,
    StableHlo.binary main_v117 main_v133 main_v134 f_addf_S100000x16_f32,
    StableHlo.nullary main_c_24 (constantI S_ 32 0#32),
    StableHlo.unary main_c_24 main_v135 f_bcast_S_S3200000_i32,
    StableHlo.binary main_v1 main_v135 main_v136 f_cmpi_slt_S3200000_i32,
    StableHlo.nullary main_c_25 (constantI S_ 32 100000#32),
    StableHlo.unary main_c_25 main_v137 f_bcast_S_S3200000_i32,
    StableHlo.binary main_v1 main_v137 main_v138 f_addi_S3200000_i32,
    StableHlo.ternary main_v136 main_v138 main_v1 main_v139 f_select_S3200000_i1,
    StableHlo.unary main_v139 main_v140 f_bcast_S3200000_S3200000x1_0_i32,
    StableHlo.binary main_v130 main_v140 main_v141 f_gather_S100000x16_S3200000x1_S3200000x16_1_0_n_n_0_1_116_f32,
    StableHlo.unary main_v31 main_v142 f_bcast_S3200000_S3200000x1_0_f32,
    StableHlo.unary main_v142 main_v143 f_bcast_S3200000x1_S3200000x16_0_1_f32,
    StableHlo.binary main_v141 main_v143 main_v144 f_mulf_S3200000x16_f32,
    StableHlo.nullary main_cst_26 (constant S_ .f32 0x00000000#32),
    StableHlo.unary main_cst_26 main_v145 f_bcast_S_S100000x16_f32,
    StableHlo.unary main_v3 main_v146 f_bcast_S3200000_S3200000x1_0_i32,
    StableHlo.ternary main_v145 main_v146 main_v144 main_v147 f_scatter_S100000x16_S3200000x1_S3200000x16_1_0_0_1_f32,
    StableHlo.unary main_v112 main_v148 f_slices_S5x16x16_S1x16x16_2_0_0_f32,
    StableHlo.reshape main_v148 main_v149 rfl shapeCasts_S1x16x16_S16x16,
    StableHlo.binary main_v147 main_v149 main_v150 f_dot_S100000x16_S16x16_S100000x16_1_0_0_1_n_n_f32 ]

abbrev rc5 : List (HloOp τ sig (Elt F)) :=
  [ StableHlo.binary main_v134 main_v150 main_v151 f_addf_S100000x16_f32,
    StableHlo.nullary main_c_27 (constantI S_ 32 0#32),
    StableHlo.unary main_c_27 main_v152 f_bcast_S_S3200000_i32,
    StableHlo.binary main_v1 main_v152 main_v153 f_cmpi_slt_S3200000_i32,
    StableHlo.nullary main_c_28 (constantI S_ 32 100000#32),
    StableHlo.unary main_c_28 main_v154 f_bcast_S_S3200000_i32,
    StableHlo.binary main_v1 main_v154 main_v155 f_addi_S3200000_i32,
    StableHlo.ternary main_v153 main_v155 main_v1 main_v156 f_select_S3200000_i1,
    StableHlo.unary main_v156 main_v157 f_bcast_S3200000_S3200000x1_0_i32,
    StableHlo.binary main_v147 main_v157 main_v158 f_gather_S100000x16_S3200000x1_S3200000x16_1_0_n_n_0_1_116_f32,
    StableHlo.unary main_v31 main_v159 f_bcast_S3200000_S3200000x1_0_f32,
    StableHlo.unary main_v159 main_v160 f_bcast_S3200000x1_S3200000x16_0_1_f32,
    StableHlo.binary main_v158 main_v160 main_v161 f_mulf_S3200000x16_f32,
    StableHlo.nullary main_cst_29 (constant S_ .f32 0x00000000#32),
    StableHlo.unary main_cst_29 main_v162 f_bcast_S_S100000x16_f32,
    StableHlo.unary main_v3 main_v163 f_bcast_S3200000_S3200000x1_0_i32,
    StableHlo.ternary main_v162 main_v163 main_v161 main_v164 f_scatter_S100000x16_S3200000x1_S3200000x16_1_0_0_1_f32,
    StableHlo.unary main_v112 main_v165 f_slices_S5x16x16_S1x16x16_3_0_0_f32,
    StableHlo.reshape main_v165 main_v166 rfl shapeCasts_S1x16x16_S16x16,
    StableHlo.binary main_v164 main_v166 main_v167 f_dot_S100000x16_S16x16_S100000x16_1_0_0_1_n_n_f32,
    StableHlo.binary main_v151 main_v167 main_v168 f_addf_S100000x16_f32,
    StableHlo.nullary main_c_30 (constantI S_ 32 0#32),
    StableHlo.unary main_c_30 main_v169 f_bcast_S_S3200000_i32,
    StableHlo.binary main_v1 main_v169 main_v170 f_cmpi_slt_S3200000_i32,
    StableHlo.nullary main_c_31 (constantI S_ 32 100000#32),
    StableHlo.unary main_c_31 main_v171 f_bcast_S_S3200000_i32,
    StableHlo.binary main_v1 main_v171 main_v172 f_addi_S3200000_i32,
    StableHlo.ternary main_v170 main_v172 main_v1 main_v173 f_select_S3200000_i1,
    StableHlo.unary main_v173 main_v174 f_bcast_S3200000_S3200000x1_0_i32,
    StableHlo.binary main_v164 main_v174 main_v175 f_gather_S100000x16_S3200000x1_S3200000x16_1_0_n_n_0_1_116_f32,
    StableHlo.unary main_v31 main_v176 f_bcast_S3200000_S3200000x1_0_f32,
    StableHlo.unary main_v176 main_v177 f_bcast_S3200000x1_S3200000x16_0_1_f32,
    StableHlo.binary main_v175 main_v177 main_v178 f_mulf_S3200000x16_f32,
    StableHlo.nullary main_cst_32 (constant S_ .f32 0x00000000#32),
    StableHlo.unary main_cst_32 main_v179 f_bcast_S_S100000x16_f32,
    StableHlo.unary main_v3 main_v180 f_bcast_S3200000_S3200000x1_0_i32,
    StableHlo.ternary main_v179 main_v180 main_v178 main_v181 f_scatter_S100000x16_S3200000x1_S3200000x16_1_0_0_1_f32,
    StableHlo.unary main_v112 main_v182 f_slices_S5x16x16_S1x16x16_4_0_0_f32,
    StableHlo.reshape main_v182 main_v183 rfl shapeCasts_S1x16x16_S16x16,
    StableHlo.binary main_v181 main_v183 main_v184 f_dot_S100000x16_S16x16_S100000x16_1_0_0_1_n_n_f32,
    StableHlo.binary main_v168 main_v184 main_v185 f_addf_S100000x16_f32,
    StableHlo.unary main_v114 main_v186 f_bcast_S16_S1x16_1_f32,
    StableHlo.unary main_v186 main_v187 f_bcast_S1x16_S100000x16_0_1_f32,
    StableHlo.binary main_v185 main_v187 main_v188 f_addf_S100000x16_f32,
    StableHlo.nullary main_cst_33 (constant S_ .f32 0x00000000#32),
    StableHlo.unary main_cst_33 main_v189 f_bcast_S_S100000x16_f32,
    StableHlo.binary main_v188 main_v189 main_v190 f_cmpf_oge_S100000x16_f32,
    StableHlo.nullary main_cst_34 (constant S_ .f32 0x3C23D70A#32),
    StableHlo.unary main_cst_34 main_v191 f_bcast_S_S100000x16_f32,
    StableHlo.binary main_v191 main_v188 main_v192 f_mulf_S100000x16_f32,
    StableHlo.TRef.ternary (.of main_v190 : StableHlo.TRef sig ⟨S100000x16, .i1⟩) (.of main_v188 : StableHlo.TRef sig ⟨S100000x16, .f32⟩) (.of main_v192 : StableHlo.TRef sig ⟨S100000x16, .f32⟩) (.of main_v193 : StableHlo.TRef sig ⟨S100000x16, .f32⟩) select ]

abbrev rc6 : List (HloOp τ sig (Elt F)) :=
  [ StableHlo.unary main_arg6 main_v194 f_slices_S2x5x16x16_S1x5x16x16_1_0_0_0_f32,
    StableHlo.reshape main_v194 main_v195 rfl shapeCasts_S1x5x16x16_S5x16x16,
    StableHlo.unary main_arg7 main_v196 f_slices_S2x16_S1x16_1_0_f32,
    StableHlo.reshape main_v196 main_v197 rfl shapeCasts_S1x16_S16,
    StableHlo.unary main_v195 main_v198 f_slices_S5x16x16_S1x16x16_0_0_0_f32,
    StableHlo.reshape main_v198 main_v199 rfl shapeCasts_S1x16x16_S16x16,
    StableHlo.binary main_v193 main_v199 main_v200 f_dot_S100000x16_S16x16_S100000x16_1_0_0_1_n_n_f32,
    StableHlo.nullary main_c_35 (constantI S_ 32 0#32),
    StableHlo.unary main_c_35 main_v201 f_bcast_S_S3200000_i32 ]

abbrev rc7 : List (HloOp τ sig (Elt F)) :=
  [ StableHlo.binary main_v1 main_v201 main_v202 f_cmpi_slt_S3200000_i32,
    StableHlo.nullary main_c_36 (constantI S_ 32 100000#32),
    StableHlo.unary main_c_36 main_v203 f_bcast_S_S3200000_i32,
    StableHlo.binary main_v1 main_v203 main_v204 f_addi_S3200000_i32,
    StableHlo.ternary main_v202 main_v204 main_v1 main_v205 f_select_S3200000_i1,
    StableHlo.unary main_v205 main_v206 f_bcast_S3200000_S3200000x1_0_i32,
    StableHlo.binary main_v193 main_v206 main_v207 f_gather_S100000x16_S3200000x1_S3200000x16_1_0_n_n_0_1_116_f32,
    StableHlo.unary main_v31 main_v208 f_bcast_S3200000_S3200000x1_0_f32,
    StableHlo.unary main_v208 main_v209 f_bcast_S3200000x1_S3200000x16_0_1_f32,
    StableHlo.binary main_v207 main_v209 main_v210 f_mulf_S3200000x16_f32,
    StableHlo.nullary main_cst_37 (constant S_ .f32 0x00000000#32),
    StableHlo.unary main_cst_37 main_v211 f_bcast_S_S100000x16_f32,
    StableHlo.unary main_v3 main_v212 f_bcast_S3200000_S3200000x1_0_i32,
    StableHlo.ternary main_v211 main_v212 main_v210 main_v213 f_scatter_S100000x16_S3200000x1_S3200000x16_1_0_0_1_f32,
    StableHlo.unary main_v195 main_v214 f_slices_S5x16x16_S1x16x16_1_0_0_f32,
    StableHlo.reshape main_v214 main_v215 rfl shapeCasts_S1x16x16_S16x16,
    StableHlo.binary main_v213 main_v215 main_v216 f_dot_S100000x16_S16x16_S100000x16_1_0_0_1_n_n_f32,
    StableHlo.binary main_v200 main_v216 main_v217 f_addf_S100000x16_f32,
    StableHlo.nullary main_c_38 (constantI S_ 32 0#32),
    StableHlo.unary main_c_38 main_v218 f_bcast_S_S3200000_i32,
    StableHlo.binary main_v1 main_v218 main_v219 f_cmpi_slt_S3200000_i32,
    StableHlo.nullary main_c_39 (constantI S_ 32 100000#32),
    StableHlo.unary main_c_39 main_v220 f_bcast_S_S3200000_i32,
    StableHlo.binary main_v1 main_v220 main_v221 f_addi_S3200000_i32,
    StableHlo.ternary main_v219 main_v221 main_v1 main_v222 f_select_S3200000_i1,
    StableHlo.unary main_v222 main_v223 f_bcast_S3200000_S3200000x1_0_i32,
    StableHlo.binary main_v213 main_v223 main_v224 f_gather_S100000x16_S3200000x1_S3200000x16_1_0_n_n_0_1_116_f32,
    StableHlo.unary main_v31 main_v225 f_bcast_S3200000_S3200000x1_0_f32,
    StableHlo.unary main_v225 main_v226 f_bcast_S3200000x1_S3200000x16_0_1_f32,
    StableHlo.binary main_v224 main_v226 main_v227 f_mulf_S3200000x16_f32,
    StableHlo.nullary main_cst_40 (constant S_ .f32 0x00000000#32),
    StableHlo.unary main_cst_40 main_v228 f_bcast_S_S100000x16_f32,
    StableHlo.unary main_v3 main_v229 f_bcast_S3200000_S3200000x1_0_i32,
    StableHlo.ternary main_v228 main_v229 main_v227 main_v230 f_scatter_S100000x16_S3200000x1_S3200000x16_1_0_0_1_f32,
    StableHlo.unary main_v195 main_v231 f_slices_S5x16x16_S1x16x16_2_0_0_f32,
    StableHlo.reshape main_v231 main_v232 rfl shapeCasts_S1x16x16_S16x16,
    StableHlo.binary main_v230 main_v232 main_v233 f_dot_S100000x16_S16x16_S100000x16_1_0_0_1_n_n_f32,
    StableHlo.binary main_v217 main_v233 main_v234 f_addf_S100000x16_f32,
    StableHlo.nullary main_c_41 (constantI S_ 32 0#32),
    StableHlo.unary main_c_41 main_v235 f_bcast_S_S3200000_i32,
    StableHlo.binary main_v1 main_v235 main_v236 f_cmpi_slt_S3200000_i32,
    StableHlo.nullary main_c_42 (constantI S_ 32 100000#32),
    StableHlo.unary main_c_42 main_v237 f_bcast_S_S3200000_i32,
    StableHlo.binary main_v1 main_v237 main_v238 f_addi_S3200000_i32,
    StableHlo.ternary main_v236 main_v238 main_v1 main_v239 f_select_S3200000_i1,
    StableHlo.unary main_v239 main_v240 f_bcast_S3200000_S3200000x1_0_i32,
    StableHlo.binary main_v230 main_v240 main_v241 f_gather_S100000x16_S3200000x1_S3200000x16_1_0_n_n_0_1_116_f32,
    StableHlo.unary main_v31 main_v242 f_bcast_S3200000_S3200000x1_0_f32,
    StableHlo.unary main_v242 main_v243 f_bcast_S3200000x1_S3200000x16_0_1_f32,
    StableHlo.binary main_v241 main_v243 main_v244 f_mulf_S3200000x16_f32,
    StableHlo.nullary main_cst_43 (constant S_ .f32 0x00000000#32),
    StableHlo.unary main_cst_43 main_v245 f_bcast_S_S100000x16_f32,
    StableHlo.unary main_v3 main_v246 f_bcast_S3200000_S3200000x1_0_i32,
    StableHlo.ternary main_v245 main_v246 main_v244 main_v247 f_scatter_S100000x16_S3200000x1_S3200000x16_1_0_0_1_f32,
    StableHlo.unary main_v195 main_v248 f_slices_S5x16x16_S1x16x16_3_0_0_f32,
    StableHlo.reshape main_v248 main_v249 rfl shapeCasts_S1x16x16_S16x16,
    StableHlo.binary main_v247 main_v249 main_v250 f_dot_S100000x16_S16x16_S100000x16_1_0_0_1_n_n_f32,
    StableHlo.binary main_v234 main_v250 main_v251 f_addf_S100000x16_f32,
    StableHlo.nullary main_c_44 (constantI S_ 32 0#32),
    StableHlo.unary main_c_44 main_v252 f_bcast_S_S3200000_i32 ]

abbrev rc8 : List (HloOp τ sig (Elt F)) :=
  [ StableHlo.binary main_v1 main_v252 main_v253 f_cmpi_slt_S3200000_i32,
    StableHlo.nullary main_c_45 (constantI S_ 32 100000#32),
    StableHlo.unary main_c_45 main_v254 f_bcast_S_S3200000_i32,
    StableHlo.binary main_v1 main_v254 main_v255 f_addi_S3200000_i32,
    StableHlo.ternary main_v253 main_v255 main_v1 main_v256 f_select_S3200000_i1,
    StableHlo.unary main_v256 main_v257 f_bcast_S3200000_S3200000x1_0_i32,
    StableHlo.binary main_v247 main_v257 main_v258 f_gather_S100000x16_S3200000x1_S3200000x16_1_0_n_n_0_1_116_f32,
    StableHlo.unary main_v31 main_v259 f_bcast_S3200000_S3200000x1_0_f32,
    StableHlo.unary main_v259 main_v260 f_bcast_S3200000x1_S3200000x16_0_1_f32,
    StableHlo.binary main_v258 main_v260 main_v261 f_mulf_S3200000x16_f32,
    StableHlo.nullary main_cst_46 (constant S_ .f32 0x00000000#32),
    StableHlo.unary main_cst_46 main_v262 f_bcast_S_S100000x16_f32,
    StableHlo.unary main_v3 main_v263 f_bcast_S3200000_S3200000x1_0_i32,
    StableHlo.ternary main_v262 main_v263 main_v261 main_v264 f_scatter_S100000x16_S3200000x1_S3200000x16_1_0_0_1_f32,
    StableHlo.unary main_v195 main_v265 f_slices_S5x16x16_S1x16x16_4_0_0_f32,
    StableHlo.reshape main_v265 main_v266 rfl shapeCasts_S1x16x16_S16x16,
    StableHlo.binary main_v264 main_v266 main_v267 f_dot_S100000x16_S16x16_S100000x16_1_0_0_1_n_n_f32,
    StableHlo.binary main_v251 main_v267 main_v268 f_addf_S100000x16_f32,
    StableHlo.unary main_v197 main_v269 f_bcast_S16_S1x16_1_f32,
    StableHlo.unary main_v269 main_v270 f_bcast_S1x16_S100000x16_0_1_f32,
    StableHlo.binary main_v268 main_v270 main_v271 f_addf_S100000x16_f32,
    StableHlo.nullary main_cst_47 (constant S_ .f32 0x00000000#32),
    StableHlo.unary main_cst_47 main_v272 f_bcast_S_S100000x16_f32,
    StableHlo.binary main_v271 main_v272 main_v273 f_cmpf_oge_S100000x16_f32,
    StableHlo.nullary main_cst_48 (constant S_ .f32 0x3C23D70A#32),
    StableHlo.unary main_cst_48 main_v274 f_bcast_S_S100000x16_f32,
    StableHlo.binary main_v274 main_v271 main_v275 f_mulf_S100000x16_f32,
    StableHlo.TRef.ternary (.of main_v273 : StableHlo.TRef sig ⟨S100000x16, .i1⟩) (.of main_v271 : StableHlo.TRef sig ⟨S100000x16, .f32⟩) (.of main_v275 : StableHlo.TRef sig ⟨S100000x16, .f32⟩) (.of main_v276 : StableHlo.TRef sig ⟨S100000x16, .f32⟩) select ]

abbrev rc9 : List (HloOp τ sig (Elt F)) :=
  [ StableHlo.nullary main_cst_49 (constant S_ .f32 0x3F800000#32),
    StableHlo.unary main_cst_49 main_v277 f_bcast_S_S100000_f32,
    StableHlo.nullary main_cst_50 (constant S_ .f32 0x00000000#32),
    StableHlo.unary main_cst_50 main_v278 f_bcast_S_S64_f32,
    StableHlo.unary main_arg3 main_v279 f_bcast_S100000_S100000x1_0_i32,
    StableHlo.ternary main_v278 main_v279 main_v277 main_v280 f_scatter_S64_S100000x1_S100000_n_0_0_1_f32,
    StableHlo.nullary main_cst_51 (constant S_ .f32 0x00000000#32),
    StableHlo.unary main_cst_51 main_v281 f_bcast_S_S64x16_f32,
    StableHlo.unary main_arg3 main_v282 f_bcast_S100000_S100000x1_0_i32,
    StableHlo.ternary main_v281 main_v282 main_v276 main_v283 f_scatter_S64x16_S100000x1_S100000x16_1_0_0_1_f32,
    StableHlo.nullary main_cst_52 (constant S_ .f32 0x3F800000#32),
    StableHlo.unary main_cst_52 main_v284 f_bcast_S_S64_f32,
    StableHlo.binary main_v280 main_v284 main_v285 f_maximumf_S64_f32,
    StableHlo.unary main_v285 main_v286 f_bcast_S64_S64x1_0_f32,
    StableHlo.unary main_v286 main_v287 f_bcast_S64x1_S64x16_0_1_f32,
    StableHlo.binary main_v283 main_v287 main_v288 f_divf_S64x16_f32,
    StableHlo.binary main_v288 main_arg8 main_v289 f_dot_S64x16_S16x1_S64x1_1_0_0_1_n_n_f32,
    StableHlo.unary main_arg9 main_v290 f_bcast_S1_S1x1_1_f32,
    StableHlo.unary main_v290 main_v291 f_bcast_S1x1_S64x1_0_1_f32,
    StableHlo.binary main_v289 main_v291 main_v292 f_addf_S64x1_f32 ]

abbrev rc0_W : List (Ref sig .tc) := [main_v0, main_v1, main_v2, main_v3, main_v4, main_v5, main_cst, main_v6, main_v7, main_v8, main_cst_0, main_v9, main_v10, main_cst_1, main_v11, main_v12, main_cst_2, main_call0_v0, main_call0_v1, main_v13, main_v14, main_cst_3, main_call1_v0, main_call1_v1, main_v15, main_c, main_v16, main_v17, main_c_4, main_v18, main_v19, main_v20, main_v21, main_v22, main_v23, main_c_5, main_v24, main_v25, main_c_6, main_v26, main_v27, main_v28, main_v29, main_v30, main_v31]
theorem rc0_writes : (rc0 : List (HloOp τ sig (Elt F))).Forall fun op => op.writes ⊆ (rc0_W.map (Proc.devRef (τ := τ) .tc)).toFinset := by
  simp only [List.Forall]; repeat' apply And.intro
  all_goals exact StableHlo.writes_sub_of_mem rfl (by decide)
abbrev rc1_W : List (Ref sig .tc) := [main_v32, main_v33, main_v34, main_c_7, main_v35, main_v36, main_c_8, main_v37, main_v38, main_v39, main_v40, main_v41, main_v42, main_v43, main_v44, main_cst_9, main_v45, main_v46, main_v47]
theorem rc1_writes : (rc1 : List (HloOp τ sig (Elt F))).Forall fun op => op.writes ⊆ (rc1_W.map (Proc.devRef (τ := τ) .tc)).toFinset := by
  simp only [List.Forall]; repeat' apply And.intro
  all_goals exact StableHlo.writes_sub_of_mem rfl (by decide)
abbrev rc2_W : List (Ref sig .tc) := [main_v48, main_v49, main_v50, main_v51, main_c_10, main_v52, main_v53, main_c_11, main_v54, main_v55, main_v56, main_v57, main_v58, main_v59, main_v60, main_v61, main_cst_12, main_v62, main_v63, main_v64, main_v65, main_v66, main_v67, main_v68, main_c_13, main_v69, main_v70, main_c_14, main_v71, main_v72, main_v73, main_v74, main_v75, main_v76, main_v77, main_v78, main_cst_15, main_v79, main_v80, main_v81, main_v82, main_v83, main_v84, main_v85, main_c_16, main_v86, main_v87, main_c_17, main_v88, main_v89, main_v90, main_v91, main_v92, main_v93, main_v94, main_v95, main_cst_18, main_v96, main_v97, main_v98]
theorem rc2_writes : (rc2 : List (HloOp τ sig (Elt F))).Forall fun op => op.writes ⊆ (rc2_W.map (Proc.devRef (τ := τ) .tc)).toFinset := by
  simp only [List.Forall]; repeat' apply And.intro
  all_goals exact StableHlo.writes_sub_of_mem rfl (by decide)
abbrev rc3_W : List (Ref sig .tc) := [main_v99, main_v100, main_v101, main_v102, main_v103, main_v104, main_v105, main_cst_19, main_v106, main_v107, main_cst_20, main_v108, main_v109, main_v110]
theorem rc3_writes : (rc3 : List (HloOp τ sig (Elt F))).Forall fun op => op.writes ⊆ (rc3_W.map (Proc.devRef (τ := τ) .tc)).toFinset := by
  simp only [List.Forall]; repeat' apply And.intro
  all_goals exact StableHlo.writes_sub_of_mem rfl (by decide)
abbrev rc4_W : List (Ref sig .tc) := [main_v111, main_v112, main_v113, main_v114, main_v115, main_v116, main_v117, main_c_21, main_v118, main_v119, main_c_22, main_v120, main_v121, main_v122, main_v123, main_v124, main_v125, main_v126, main_v127, main_cst_23, main_v128, main_v129, main_v130, main_v131, main_v132, main_v133, main_v134, main_c_24, main_v135, main_v136, main_c_25, main_v137, main_v138, main_v139, main_v140, main_v141, main_v142, main_v143, main_v144, main_cst_26, main_v145, main_v146, main_v147, main_v148, main_v149, main_v150]
theorem rc4_writes : (rc4 : List (HloOp τ sig (Elt F))).Forall fun op => op.writes ⊆ (rc4_W.map (Proc.devRef (τ := τ) .tc)).toFinset := by
  simp only [List.Forall]; repeat' apply And.intro
  all_goals exact StableHlo.writes_sub_of_mem rfl (by decide)
abbrev rc5_W : List (Ref sig .tc) := [main_v151, main_c_27, main_v152, main_v153, main_c_28, main_v154, main_v155, main_v156, main_v157, main_v158, main_v159, main_v160, main_v161, main_cst_29, main_v162, main_v163, main_v164, main_v165, main_v166, main_v167, main_v168, main_c_30, main_v169, main_v170, main_c_31, main_v171, main_v172, main_v173, main_v174, main_v175, main_v176, main_v177, main_v178, main_cst_32, main_v179, main_v180, main_v181, main_v182, main_v183, main_v184, main_v185, main_v186, main_v187, main_v188, main_cst_33, main_v189, main_v190, main_cst_34, main_v191, main_v192, main_v193]
theorem rc5_writes : (rc5 : List (HloOp τ sig (Elt F))).Forall fun op => op.writes ⊆ (rc5_W.map (Proc.devRef (τ := τ) .tc)).toFinset := by
  simp only [List.Forall]; repeat' apply And.intro
  all_goals exact StableHlo.writes_sub_of_mem rfl (by decide)
abbrev rc6_W : List (Ref sig .tc) := [main_v194, main_v195, main_v196, main_v197, main_v198, main_v199, main_v200, main_c_35, main_v201]
theorem rc6_writes : (rc6 : List (HloOp τ sig (Elt F))).Forall fun op => op.writes ⊆ (rc6_W.map (Proc.devRef (τ := τ) .tc)).toFinset := by
  simp only [List.Forall]; repeat' apply And.intro
  all_goals exact StableHlo.writes_sub_of_mem rfl (by decide)
abbrev rc7_W : List (Ref sig .tc) := [main_v202, main_c_36, main_v203, main_v204, main_v205, main_v206, main_v207, main_v208, main_v209, main_v210, main_cst_37, main_v211, main_v212, main_v213, main_v214, main_v215, main_v216, main_v217, main_c_38, main_v218, main_v219, main_c_39, main_v220, main_v221, main_v222, main_v223, main_v224, main_v225, main_v226, main_v227, main_cst_40, main_v228, main_v229, main_v230, main_v231, main_v232, main_v233, main_v234, main_c_41, main_v235, main_v236, main_c_42, main_v237, main_v238, main_v239, main_v240, main_v241, main_v242, main_v243, main_v244, main_cst_43, main_v245, main_v246, main_v247, main_v248, main_v249, main_v250, main_v251, main_c_44, main_v252]
theorem rc7_writes : (rc7 : List (HloOp τ sig (Elt F))).Forall fun op => op.writes ⊆ (rc7_W.map (Proc.devRef (τ := τ) .tc)).toFinset := by
  simp only [List.Forall]; repeat' apply And.intro
  all_goals exact StableHlo.writes_sub_of_mem rfl (by decide)
abbrev rc8_W : List (Ref sig .tc) := [main_v253, main_c_45, main_v254, main_v255, main_v256, main_v257, main_v258, main_v259, main_v260, main_v261, main_cst_46, main_v262, main_v263, main_v264, main_v265, main_v266, main_v267, main_v268, main_v269, main_v270, main_v271, main_cst_47, main_v272, main_v273, main_cst_48, main_v274, main_v275, main_v276]
theorem rc8_writes : (rc8 : List (HloOp τ sig (Elt F))).Forall fun op => op.writes ⊆ (rc8_W.map (Proc.devRef (τ := τ) .tc)).toFinset := by
  simp only [List.Forall]; repeat' apply And.intro
  all_goals exact StableHlo.writes_sub_of_mem rfl (by decide)
abbrev rc9_W : List (Ref sig .tc) := [main_cst_49, main_v277, main_cst_50, main_v278, main_v279, main_v280, main_cst_51, main_v281, main_v282, main_v283, main_cst_52, main_v284, main_v285, main_v286, main_v287, main_v288, main_v289, main_v290, main_v291, main_v292]
theorem rc9_writes : (rc9 : List (HloOp τ sig (Elt F))).Forall fun op => op.writes ⊆ (rc9_W.map (Proc.devRef (τ := τ) .tc)).toFinset := by
  simp only [List.Forall]; repeat' apply And.intro
  all_goals exact StableHlo.writes_sub_of_mem rfl (by decide)

set_option maxHeartbeats 4000000 in
theorem ref_part0_eq (c : Dev nD) : main_part0 (F := F) c = StableHlo.seq (rc0 ++ rc1) := rfl
set_option maxHeartbeats 4000000 in
theorem ref_part1_eq (c : Dev nD) : main_part1 (F := F) c = StableHlo.seq (rc2) := rfl
set_option maxHeartbeats 4000000 in
theorem ref_part2_eq (c : Dev nD) : main_part2 (F := F) c = StableHlo.seq (rc3 ++ rc4) := rfl
set_option maxHeartbeats 4000000 in
theorem ref_part3_eq (c : Dev nD) : main_part3 (F := F) c = StableHlo.seq (rc5 ++ rc6) := rfl
set_option maxHeartbeats 4000000 in
theorem ref_part4_eq (c : Dev nD) : main_part4 (F := F) c = StableHlo.seq (rc7) := rfl
set_option maxHeartbeats 4000000 in
theorem ref_part5_eq (c : Dev nD) : main_part5 (F := F) c = StableHlo.seq (rc8 ++ rc9) := rfl

end Cert.ReferenceIdeal.Hand

end
-- ==== Proof.Val.RefRun.lean ====
import proofs.«428193_j13675175870529_1_alg».proof.Proof.Val.RefOps
import Idealize.ShloMosaic.Lib.Pipeline.Frame

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

abbrev refOps : List (HloOp τ sig (Elt F)) :=
  rc0 ++ (rc1 ++ (rc2 ++ (rc3 ++ (rc4 ++ (rc5 ++ (rc6 ++ (rc7 ++ (rc8 ++ rc9))))))))

theorem ref_main_eq (c : Dev nD) : main (F := F) c = StableHlo.seq refOps := by
  show (main_part0 (F := F) c >>= fun _ => main_part1 (F := F) c >>= fun _ => main_part2 (F := F) c >>= fun _ =>
    main_part3 (F := F) c >>= fun _ => main_part4 (F := F) c >>= fun _ => main_part5 (F := F) c) = _
  rw [ref_part0_eq, ref_part1_eq, ref_part2_eq, ref_part3_eq, ref_part4_eq, ref_part5_eq]
  simp only [refOps, StableHlo.seq_append, bind_assoc]

theorem refOps_sub : (refOps : List (HloOp τ sig (Elt F))).Forall fun op => op.bufs ⊆ StableHlo.tcRefs τ sig := by
  simp only [refOps, List.forall_append, List.Forall, StableHlo.nullary_bufs_sub, StableHlo.unary_bufs_sub, StableHlo.binary_bufs_sub,
    StableHlo.ternary_bufs_sub, StableHlo.reshape_bufs_sub, and_self]

theorem refOps_fresh : ∀ op ∈ (refOps : List (HloOp τ sig (Elt F))), op.fresh = ∅ :=
  List.forall_iff_forall_mem.mp (by simp only [refOps, List.forall_append, List.Forall]; repeat' constructor)

theorem scopedRefs_eq : (Finset.univ.filter fun b : Ref sig .tc => b.isScoped) = ∅ := by decide
theorem scopedSems_eq : (Finset.univ.filter fun sm : SemLoc sig => sm.isScoped .tc) = ∅ := by decide

/-- A straight line of host operations ends at their fold over the launch contents. -/
theorem ref_run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after refOps (StableHlo.launchContents m d) (Proc.devRef .tc b) :=
  StableHlo.run_seq scopedRefs_eq scopedSems_eq defs main (fun _ => refOps) ref_main_eq (fun _ => refOps_sub) m ρ
    (fun _ => refOps_fresh)

variable (m : (ℓ : Loc nD τ sig) → Buf (Elt F) ℓ)
abbrev U0 (d : Dev nD) : Valuation τ sig (Elt F) := StableHlo.launchContents m d
abbrev U1 (d : Dev nD) : Valuation τ sig (Elt F) := StableHlo.after rc0 (U0 m d)
abbrev U2 (d : Dev nD) : Valuation τ sig (Elt F) := StableHlo.after rc3 (StableHlo.after rc2 (StableHlo.after rc1 (U1 m d)))
abbrev U3 (d : Dev nD) : Valuation τ sig (Elt F) := StableHlo.after rc5 (StableHlo.after rc4 (U2 m d))
abbrev U4 (d : Dev nD) : Valuation τ sig (Elt F) := StableHlo.after rc8 (StableHlo.after rc7 (StableHlo.after rc6 (U3 m d)))
abbrev U5 (d : Dev nD) : Valuation τ sig (Elt F) := StableHlo.after rc9 (U4 m d)

/-- A reference none of a stage's operations writes passes through the stage. -/
theorem U1_keep (d : Dev nD) (r : Ref sig .tc) (h0 : r ∉ rc0_W := by decide) : U1 m d (Proc.devRef .tc r) = U0 m d (Proc.devRef .tc r) :=
  StableHlo.after_of_writes_sub rc0 _ rc0_writes h0
theorem U2_keep (d : Dev nD) (r : Ref sig .tc) (h1 : r ∉ rc1_W := by decide) (h2 : r ∉ rc2_W := by decide) (h3 : r ∉ rc3_W := by decide) :
    U2 m d (Proc.devRef .tc r) = U1 m d (Proc.devRef .tc r) :=
  (StableHlo.after_of_writes_sub rc3 _ rc3_writes h3).trans <| (StableHlo.after_of_writes_sub rc2 _ rc2_writes h2).trans (StableHlo.after_of_writes_sub rc1 _ rc1_writes h1)
theorem U3_keep (d : Dev nD) (r : Ref sig .tc) (h4 : r ∉ rc4_W := by decide) (h5 : r ∉ rc5_W := by decide) :
    U3 m d (Proc.devRef .tc r) = U2 m d (Proc.devRef .tc r) :=
  (StableHlo.after_of_writes_sub rc5 _ rc5_writes h5).trans (StableHlo.after_of_writes_sub rc4 _ rc4_writes h4)
theorem U4_keep (d : Dev nD) (r : Ref sig .tc) (h6 : r ∉ rc6_W := by decide) (h7 : r ∉ rc7_W := by decide) (h8 : r ∉ rc8_W := by decide) :
    U4 m d (Proc.devRef .tc r) = U3 m d (Proc.devRef .tc r) :=
  (StableHlo.after_of_writes_sub rc8 _ rc8_writes h8).trans <| (StableHlo.after_of_writes_sub rc7 _ rc7_writes h7).trans (StableHlo.after_of_writes_sub rc6 _ rc6_writes h6)
theorem U5_keep (d : Dev nD) (r : Ref sig .tc) (h9 : r ∉ rc9_W := by decide) : U5 m d (Proc.devRef .tc r) = U4 m d (Proc.devRef .tc r) :=
  StableHlo.after_of_writes_sub rc9 _ rc9_writes h9

theorem after_refOps (d : Dev nD) : StableHlo.after refOps (StableHlo.launchContents m d) = U5 m d := by
  simp only [refOps, StableHlo.after_append]

end Cert.ReferenceIdeal.Hand

end
-- ==== Proof.Val.RefLayers.lean ====
import proofs.«428193_j13675175870529_1_alg».proof.Proof.Gen.ReferenceIdeal
import proofs.«428193_j13675175870529_1_alg».proof.Proof.Gen.KernelIdeal
import proofs.«428193_j13675175870529_1_alg».proof.Proof.Val.Spec

set_option maxRecDepth 16384

noncomputable section

namespace Cert.ReferenceIdeal.Hand

open Cert.ReferenceIdeal Cert.ReferenceIdeal.Gen
open Idealize.ShloMosaic Idealize.ShloMosaic.ValueIdx

variable {F : FTy → Type} [FloatOps F]

def refLeaky (y : FVec F S100000x16 .f32) : FVec F S100000x16 .f32 :=
  select (cmpf .oge y (broadcastInDim S100000x16 ![] bcast_S_S100000x16 (constant (F := F) S_ .f32 0x00000000#32)))
    y (mulf (broadcastInDim S100000x16 ![] bcast_S_S100000x16 (constant (F := F) S_ .f32 0x3C23D70A#32)) y)

def w2 (W : FVec F S5x2x16 .f32) : Fin 5 → FVec F S2x16 .f32
  | ⟨0, _⟩ => shapeCast S2x16 (extractStridedSlice S1x2x16 ![0, 0, 0] W slices_S5x2x16_S1x2x16_0_0_0) shapeCasts_S1x2x16_S2x16
  | ⟨1, _⟩ => shapeCast S2x16 (extractStridedSlice S1x2x16 ![1, 0, 0] W slices_S5x2x16_S1x2x16_1_0_0) shapeCasts_S1x2x16_S2x16
  | ⟨2, _⟩ => shapeCast S2x16 (extractStridedSlice S1x2x16 ![2, 0, 0] W slices_S5x2x16_S1x2x16_2_0_0) shapeCasts_S1x2x16_S2x16
  | ⟨3, _⟩ => shapeCast S2x16 (extractStridedSlice S1x2x16 ![3, 0, 0] W slices_S5x2x16_S1x2x16_3_0_0) shapeCasts_S1x2x16_S2x16
  | ⟨4, _⟩ => shapeCast S2x16 (extractStridedSlice S1x2x16 ![4, 0, 0] W slices_S5x2x16_S1x2x16_4_0_0) shapeCasts_S1x2x16_S2x16

def refLayer2 (h0 h1 h2 h3 h4 : FVec F S100000x2 .f32) (W : FVec F S5x2x16 .f32) (b : FVec F S16 .f32) :
    FVec F S100000x16 .f32 :=
  refLeaky (addf (addf (addf (addf (addf
      (Host.dotGeneral dot_S100000x2_S2x16_S100000x16_1_0_0_1_n_n none h0 (w2 W 0))
      (Host.dotGeneral dot_S100000x2_S2x16_S100000x16_1_0_0_1_n_n none h1 (w2 W 1)))
      (Host.dotGeneral dot_S100000x2_S2x16_S100000x16_1_0_0_1_n_n none h2 (w2 W 2)))
      (Host.dotGeneral dot_S100000x2_S2x16_S100000x16_1_0_0_1_n_n none h3 (w2 W 3)))
      (Host.dotGeneral dot_S100000x2_S2x16_S100000x16_1_0_0_1_n_n none h4 (w2 W 4)))
    (broadcastInDim S100000x16 ![0, 1] bcast_S1x16_S100000x16_0_1 (broadcastInDim S1x16 ![1] bcast_S16_S1x16_1 b)))

def w16 (W : FVec F S5x16x16 .f32) : Fin 5 → FVec F S16x16 .f32
  | ⟨0, _⟩ => shapeCast S16x16 (extractStridedSlice S1x16x16 ![0, 0, 0] W slices_S5x16x16_S1x16x16_0_0_0) shapeCasts_S1x16x16_S16x16
  | ⟨1, _⟩ => shapeCast S16x16 (extractStridedSlice S1x16x16 ![1, 0, 0] W slices_S5x16x16_S1x16x16_1_0_0) shapeCasts_S1x16x16_S16x16
  | ⟨2, _⟩ => shapeCast S16x16 (extractStridedSlice S1x16x16 ![2, 0, 0] W slices_S5x16x16_S1x16x16_2_0_0) shapeCasts_S1x16x16_S16x16
  | ⟨3, _⟩ => shapeCast S16x16 (extractStridedSlice S1x16x16 ![3, 0, 0] W slices_S5x16x16_S1x16x16_3_0_0) shapeCasts_S1x16x16_S16x16
  | ⟨4, _⟩ => shapeCast S16x16 (extractStridedSlice S1x16x16 ![4, 0, 0] W slices_S5x16x16_S1x16x16_4_0_0) shapeCasts_S1x16x16_S16x16

def refLayer16 (h0 h1 h2 h3 h4 : FVec F S100000x16 .f32) (W : FVec F S5x16x16 .f32) (b : FVec F S16 .f32) :
    FVec F S100000x16 .f32 :=
  refLeaky (addf (addf (addf (addf (addf
      (Host.dotGeneral dot_S100000x16_S16x16_S100000x16_1_0_0_1_n_n none h0 (w16 W 0))
      (Host.dotGeneral dot_S100000x16_S16x16_S100000x16_1_0_0_1_n_n none h1 (w16 W 1)))
      (Host.dotGeneral dot_S100000x16_S16x16_S100000x16_1_0_0_1_n_n none h2 (w16 W 2)))
      (Host.dotGeneral dot_S100000x16_S16x16_S100000x16_1_0_0_1_n_n none h3 (w16 W 3)))
      (Host.dotGeneral dot_S100000x16_S16x16_S100000x16_1_0_0_1_n_n none h4 (w16 W 4)))
    (broadcastInDim S100000x16 ![0, 1] bcast_S1x16_S100000x16_0_1 (broadcastInDim S1x16 ![1] bcast_S16_S1x16_1 b)))

def refPool (h : FVec F S100000x16 .f32) (batch : IVec S100000 32) (ws : FVec F S16x1 .f32) (bs : FVec F S1 .f32) :
    FVec F S64x1 .f32 :=
  addf (Host.dotGeneral dot_S64x16_S16x1_S64x1_1_0_0_1_n_n none
      (Host.divf
        (Host.scatterAdd scatter_S64x16_S100000x1_S100000x16_1_0_0_1
          (broadcastInDim S64x16 ![] bcast_S_S64x16 (constant (F := F) S_ .f32 0x00000000#32))
          (broadcastInDim S100000x1 ![0] bcast_S100000_S100000x1_0 batch) h)
        (broadcastInDim S64x16 ![0, 1] bcast_S64x1_S64x16_0_1 (broadcastInDim S64x1 ![0] bcast_S64_S64x1_0
          (maximumf
            (Host.scatterAdd scatter_S64_S100000x1_S100000_n_0_0_1
              (broadcastInDim S64 ![] bcast_S_S64 (constant (F := F) S_ .f32 0x00000000#32))
              (broadcastInDim S100000x1 ![0] bcast_S100000_S100000x1_0 batch)
              (broadcastInDim S100000 ![] bcast_S_S100000 (constant (F := F) S_ .f32 0x3F800000#32)))
            (broadcastInDim S64 ![] bcast_S_S64 (constant (F := F) S_ .f32 0x3F800000#32))))))
      ws)
    (broadcastInDim S64x1 ![0, 1] bcast_S1x1_S64x1_0_1 (broadcastInDim S1x1 ![1] bcast_S1_S1x1_1 bs))

end Cert.ReferenceIdeal.Hand

end
-- ==== Proof.Val.RRead.lean ====
import proofs.«428193_j13675175870529_1_alg».proof.Proof.Val.RefRun
import proofs.«428193_j13675175870529_1_alg».proof.Proof.Val.RefLayers
import proofs.«428193_j13675175870529_1_alg».proof.Proof.Val.Terms

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ)

set_option maxHeartbeats 8000000 in
section

theorem r1_src (d : Dev nD) :
    U1 m d (Proc.devRef .tc main_v1) = srcR (U1 m d (Proc.devRef .tc main_arg1)) := by
  simp only [U1]
  generalize U0 m d = V
  after_results_simp <;> rfl

theorem r1_dst (d : Dev nD) :
    U1 m d (Proc.devRef .tc main_v3) = dstR (U1 m d (Proc.devRef .tc main_arg1)) := by
  simp only [U1]
  generalize U0 m d = V
  after_results_simp <;> rfl

theorem r1_norm (d : Dev nD) :
    U1 m d (Proc.devRef .tc main_v31) = normR (U1 m d (Proc.devRef .tc main_arg1)) (U1 m d (Proc.devRef .tc main_arg2)) := by
  simp only [U1]
  generalize U0 m d = V
  after_results_simp <;> (try simp only [StableHlo.TRef.ofBuf, StableHlo.TRef.toBuf, cast_eq]) <;> rfl

end

set_option maxHeartbeats 8000000 in
section

theorem r2_h1 (d : Dev nD) :
    U2 m d (Proc.devRef .tc main_v47) = hopR2 (U2 m d (Proc.devRef .tc main_v31)) (U2 m d (Proc.devRef .tc main_v1)) (U2 m d (Proc.devRef .tc main_v3)) (U2 m d (Proc.devRef .tc main_arg0)) := by
  simp only [U2]
  generalize U1 m d = V
  after_results_simp <;> rfl
theorem r2_h2 (d : Dev nD) :
    U2 m d (Proc.devRef .tc main_v64) = hopR2 (U2 m d (Proc.devRef .tc main_v31)) (U2 m d (Proc.devRef .tc main_v1)) (U2 m d (Proc.devRef .tc main_v3)) (U2 m d (Proc.devRef .tc main_v47)) := by
  simp only [U2]
  generalize U1 m d = V
  after_results_simp <;> rfl
theorem r2_h3 (d : Dev nD) :
    U2 m d (Proc.devRef .tc main_v81) = hopR2 (U2 m d (Proc.devRef .tc main_v31)) (U2 m d (Proc.devRef .tc main_v1)) (U2 m d (Proc.devRef .tc main_v3)) (U2 m d (Proc.devRef .tc main_v64)) := by
  simp only [U2]
  generalize U1 m d = V
  after_results_simp <;> rfl
theorem r2_h4 (d : Dev nD) :
    U2 m d (Proc.devRef .tc main_v98) = hopR2 (U2 m d (Proc.devRef .tc main_v31)) (U2 m d (Proc.devRef .tc main_v1)) (U2 m d (Proc.devRef .tc main_v3)) (U2 m d (Proc.devRef .tc main_v81)) := by
  simp only [U2]
  generalize U1 m d = V
  after_results_simp <;> rfl

theorem r2_out (d : Dev nD) :
    U2 m d (Proc.devRef .tc main_v110) = refLayer2 (U2 m d (Proc.devRef .tc main_arg0)) (U2 m d (Proc.devRef .tc main_v47)) (U2 m d (Proc.devRef .tc main_v64)) (U2 m d (Proc.devRef .tc main_v81)) (U2 m d (Proc.devRef .tc main_v98)) (U2 m d (Proc.devRef .tc main_arg4)) (U2 m d (Proc.devRef .tc main_arg5)) := by
  simp only [U2]
  generalize U1 m d = V
  after_results_simp <;> (try simp only [StableHlo.TRef.ofBuf, StableHlo.TRef.toBuf, cast_eq]) <;> rfl

end

set_option maxHeartbeats 8000000 in
section

theorem r3_h1 (d : Dev nD) :
    U3 m d (Proc.devRef .tc main_v130) = hopR16 (U3 m d (Proc.devRef .tc main_v31)) (U3 m d (Proc.devRef .tc main_v1)) (U3 m d (Proc.devRef .tc main_v3)) (U3 m d (Proc.devRef .tc main_v110)) := by
  simp only [U3]
  generalize U2 m d = V
  after_results_simp <;> rfl
theorem r3_h2 (d : Dev nD) :
    U3 m d (Proc.devRef .tc main_v147) = hopR16 (U3 m d (Proc.devRef .tc main_v31)) (U3 m d (Proc.devRef .tc main_v1)) (U3 m d (Proc.devRef .tc main_v3)) (U3 m d (Proc.devRef .tc main_v130)) := by
  simp only [U3]
  generalize U2 m d = V
  after_results_simp <;> rfl
theorem r3_h3 (d : Dev nD) :
    U3 m d (Proc.devRef .tc main_v164) = hopR16 (U3 m d (Proc.devRef .tc main_v31)) (U3 m d (Proc.devRef .tc main_v1)) (U3 m d (Proc.devRef .tc main_v3)) (U3 m d (Proc.devRef .tc main_v147)) := by
  simp only [U3]
  generalize U2 m d = V
  after_results_simp <;> rfl
theorem r3_h4 (d : Dev nD) :
    U3 m d (Proc.devRef .tc main_v181) = hopR16 (U3 m d (Proc.devRef .tc main_v31)) (U3 m d (Proc.devRef .tc main_v1)) (U3 m d (Proc.devRef .tc main_v3)) (U3 m d (Proc.devRef .tc main_v164)) := by
  simp only [U3]
  generalize U2 m d = V
  after_results_simp <;> rfl

theorem r3_out (d : Dev nD) :
    U3 m d (Proc.devRef .tc main_v193) = refLayer16 (U3 m d (Proc.devRef .tc main_v110)) (U3 m d (Proc.devRef .tc main_v130)) (U3 m d (Proc.devRef .tc main_v147)) (U3 m d (Proc.devRef .tc main_v164)) (U3 m d (Proc.devRef .tc main_v181))
      (shapeCast S5x16x16 (extractStridedSlice S1x5x16x16 ![0, 0, 0, 0] (U3 m d (Proc.devRef .tc main_arg6)) slices_S2x5x16x16_S1x5x16x16_0_0_0_0) shapeCasts_S1x5x16x16_S5x16x16)
      (shapeCast S16 (extractStridedSlice S1x16 ![0, 0] (U3 m d (Proc.devRef .tc main_arg7)) slices_S2x16_S1x16_0_0) shapeCasts_S1x16_S16) := by
  simp only [U3]
  generalize U2 m d = V
  after_results_simp <;> (try simp only [StableHlo.TRef.ofBuf, StableHlo.TRef.toBuf, cast_eq]) <;> rfl

end

set_option maxHeartbeats 8000000 in
section

theorem r4_h1 (d : Dev nD) :
    U4 m d (Proc.devRef .tc main_v213) = hopR16 (U4 m d (Proc.devRef .tc main_v31)) (U4 m d (Proc.devRef .tc main_v1)) (U4 m d (Proc.devRef .tc main_v3)) (U4 m d (Proc.devRef .tc main_v193)) := by
  simp only [U4]
  generalize U3 m d = V
  after_results_simp <;> rfl
theorem r4_h2 (d : Dev nD) :
    U4 m d (Proc.devRef .tc main_v230) = hopR16 (U4 m d (Proc.devRef .tc main_v31)) (U4 m d (Proc.devRef .tc main_v1)) (U4 m d (Proc.devRef .tc main_v3)) (U4 m d (Proc.devRef .tc main_v213)) := by
  simp only [U4]
  generalize U3 m d = V
  after_results_simp <;> rfl
theorem r4_h3 (d : Dev nD) :
    U4 m d (Proc.devRef .tc main_v247) = hopR16 (U4 m d (Proc.devRef .tc main_v31)) (U4 m d (Proc.devRef .tc main_v1)) (U4 m d (Proc.devRef .tc main_v3)) (U4 m d (Proc.devRef .tc main_v230)) := by
  simp only [U4]
  generalize U3 m d = V
  after_results_simp <;> rfl
theorem r4_h4 (d : Dev nD) :
    U4 m d (Proc.devRef .tc main_v264) = hopR16 (U4 m d (Proc.devRef .tc main_v31)) (U4 m d (Proc.devRef .tc main_v1)) (U4 m d (Proc.devRef .tc main_v3)) (U4 m d (Proc.devRef .tc main_v247)) := by
  simp only [U4]
  generalize U3 m d = V
  after_results_simp <;> rfl

theorem r4_out (d : Dev nD) :
    U4 m d (Proc.devRef .tc main_v276) = refLayer16 (U4 m d (Proc.devRef .tc main_v193)) (U4 m d (Proc.devRef .tc main_v213)) (U4 m d (Proc.devRef .tc main_v230)) (U4 m d (Proc.devRef .tc main_v247)) (U4 m d (Proc.devRef .tc main_v264))
      (shapeCast S5x16x16 (extractStridedSlice S1x5x16x16 ![1, 0, 0, 0] (U4 m d (Proc.devRef .tc main_arg6)) slices_S2x5x16x16_S1x5x16x16_1_0_0_0) shapeCasts_S1x5x16x16_S5x16x16)
      (shapeCast S16 (extractStridedSlice S1x16 ![1, 0] (U4 m d (Proc.devRef .tc main_arg7)) slices_S2x16_S1x16_1_0) shapeCasts_S1x16_S16) := by
  simp only [U4]
  generalize U3 m d = V
  after_results_simp <;> (try simp only [StableHlo.TRef.ofBuf, StableHlo.TRef.toBuf, cast_eq]) <;> rfl

end

set_option maxHeartbeats 8000000 in
theorem r5_out (d : Dev nD) :
    U5 m d (Proc.devRef .tc main_v292) = refPool (U5 m d (Proc.devRef .tc main_v276)) (U5 m d (Proc.devRef .tc main_arg3)) (U5 m d (Proc.devRef .tc main_arg8)) (U5 m d (Proc.devRef .tc main_arg9)) := by
  simp only [U5]
  generalize U4 m d = V
  after_results_simp <;> rfl

end Cert.ReferenceIdeal.Hand

end
-- ==== Proof.Val.DenseRef.lean ====
import proofs.«428193_j13675175870529_1_alg».proof.Proof.Val.RefLayers
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

set_option maxRecDepth 16384

noncomputable section

open scoped BigOperators

namespace Cert.ReferenceIdeal.Hand

open Cert.ReferenceIdeal Cert.ReferenceIdeal.Gen
open Idealize.ShloMosaic Idealize.ShloMosaic.ValueIdx

theorem sum_stack5 {M : Type*} [AddCommMonoid M] {D K : Nat} (hK : K = 5 * D) (G : Fin K → M) (g : Fin 5 → Fin D → M)
    (hG : ∀ (a : Fin 5) (f : Fin D) (k : Fin K), k.val = D * a.val + f.val → G k = g a f) :
    ∑ k, G k = (((∑ f, g 0 f + ∑ f, g 1 f) + ∑ f, g 2 f) + ∑ f, g 3 f) + ∑ f, g 4 f := by
  subst hK
  rw [← Equiv.sum_comp (finProdFinEquiv (m := 5) (n := D)) G, Fintype.sum_prod_type, Fin.sum_univ_five]
  have e : ∀ a : Fin 5, ∑ f : Fin D, G (finProdFinEquiv (a, f)) = ∑ f, g a f := fun a =>
    Finset.sum_congr rfl fun f _ => hG a f _ (Nat.add_comm _ _)
  rw [e 0, e 1, e 2, e 3, e 4]

theorem preAct_split {D K : Nat} (hK : K = 5 * D) (x w : Fin 5 → Fin D → Ideal .f32) (hc wc : Fin K → Ideal .f32)
    (hhc : ∀ (a : Fin 5) (f : Fin D) (k : Fin K), k.val = D * a.val + f.val → hc k = x a f)
    (hwc : ∀ (a : Fin 5) (f : Fin D) (k : Fin K), k.val = D * a.val + f.val → wc k = w a f) (β : Ideal .f32) :
    ((((∑ f, x 0 f * w 0 f + ∑ f, x 1 f * w 1 f) + ∑ f, x 2 f * w 2 f) + ∑ f, x 3 f * w 3 f) + ∑ f, x 4 f * w 4 f) + β
      = (∑ k, hc k * wc k) + β :=
  congrArg (· + β) (sum_stack5 hK (fun k => hc k * wc k) (fun a f => x a f * w a f) fun a f k hk => by
    show hc k * wc k = x a f * w a f
    rw [hhc a f k hk, hwc a f k hk]).symm

theorem refLeaky_apply (y : FVec Ideal S100000x16 .f32) (n : Fin 100000) (j : Fin 16) :
    refLeaky y (ix2 n j) = Cert.Spec.leaky (y (ix2 n j)) := rfl

theorem bb_apply (b : FVec Ideal S16 .f32) (j : Fin 16) :
    shapeCast Cert.KernelIdeal.S1x16 b Cert.KernelIdeal.Gen.shapeCasts_S16_S1x16 (ix2 (0 : Fin 1) j) = b (ix1 j) := by
  refine shapeCast_apply b Cert.KernelIdeal.Gen.shapeCasts_S16_S1x16 (ix2 (0 : Fin 1) j) (ix1 j) ?_
  rw [Shape.rowMajor_val_one, Shape.rowMajor_val_two]
  show j.val = 0 * 16 + j.val
  omega

theorem bias_apply (b : FVec Ideal S16 .f32) (n : Fin 100000) (j : Fin 16) :
    broadcastInDim S100000x16 ![0, 1] bcast_S1x16_S100000x16_0_1 (broadcastInDim S1x16 ![1] bcast_S16_S1x16_1 b) (ix2 n j)
      = b (ix1 j) := by
  refine (broadcastInDim_apply ![0, 1] bcast_S1x16_S100000x16_0_1 _ (ix2 n j) (ix2 (0 : Fin 1) j) fun a => ?_).trans ?_
  · match a with
    | ⟨0, _⟩ => rfl
    | ⟨1, _⟩ => rfl
  · refine broadcastInDim_apply ![1] bcast_S16_S1x16_1 b (ix2 (0 : Fin 1) j) (ix1 j) fun a => ?_
    match a with
    | ⟨0, _⟩ => rfl

section Width
variable {D : Nat}

def pick5 {α : Type} (x0 x1 x2 x3 x4 : α) : Fin 5 → α
  | ⟨0, _⟩ => x0 | ⟨1, _⟩ => x1 | ⟨2, _⟩ => x2 | ⟨3, _⟩ => x3 | ⟨4, _⟩ => x4

theorem dot_apply_of_axes (d : DotDims ⟨2, ![100000, D]⟩ ⟨2, ![D, 16]⟩ ⟨2, ![100000, 16]⟩)
    (hr : d.contr.rank = 1) (hs : d.contr.size ⟨0, by omega⟩ = D)
    (l0 : ∀ (i : (⟨2, ![100000, 16]⟩ : Shape).Idx) (q : d.contr.Idx), (d.lhsIdx i q 0).val = (i 0).val)
    (l1 : ∀ (i : (⟨2, ![100000, 16]⟩ : Shape).Idx) (q : d.contr.Idx), (d.lhsIdx i q 1).val = (q ⟨0, by omega⟩).val)
    (r0 : ∀ (i : (⟨2, ![100000, 16]⟩ : Shape).Idx) (q : d.contr.Idx), (d.rhsIdx i q 0).val = (q ⟨0, by omega⟩).val)
    (r1 : ∀ (i : (⟨2, ![100000, 16]⟩ : Shape).Idx) (q : d.contr.Idx), (d.rhsIdx i q 1).val = (i 1).val)
    (x : FVec Ideal ⟨2, ![100000, D]⟩ .f32) (w : FVec Ideal ⟨2, ![D, 16]⟩ .f32) (n : Fin 100000) (j : Fin 16) :
    Host.dotGeneral d none x w (ix2 n j) = ∑ f : Fin D, x (ix2 n f) * w (ix2 f j) := by
  simp only [Host.dotGeneral]
  rw [Ideal.dotGeneral_apply, ← Equiv.sum_comp (contrEquiv1 d D hr hs).symm]
  refine Finset.sum_congr rfl fun k _ => ?_
  have hk := contrEquiv1_symm_val d D hr hs k
  have el : d.lhsIdx (ix2 n j) ((contrEquiv1 d D hr hs).symm k) = ix2 n k :=
    funext fun a => Fin.ext (by
      match a with
      | ⟨0, _⟩ => exact l0 _ _
      | ⟨1, _⟩ => exact (l1 _ _).trans hk)
  have er : d.rhsIdx (ix2 n j) ((contrEquiv1 d D hr hs).symm k) = ix2 k j :=
    funext fun a => Fin.ext (by
      match a with
      | ⟨0, _⟩ => exact (r0 _ _).trans hk
      | ⟨1, _⟩ => exact r1 _ _)
  rw [el, er]

theorem hopSlice_apply (W : FVec Ideal ⟨3, ![5, D, 16]⟩ .f32) (o : Nat)
    (h : (⟨3, ![5, D, 16]⟩ : Shape).Slices ![o, 0, 0] ⟨3, ![1, D, 16]⟩)
    (hs : (⟨3, ![1, D, 16]⟩ : Shape).ShapeCasts ⟨2, ![D, 16]⟩) (a : Fin 5) (ha : a.val = o) (f : Fin D) (j : Fin 16) :
    shapeCast ⟨2, ![D, 16]⟩ (extractStridedSlice ⟨3, ![1, D, 16]⟩ ![o, 0, 0] W h) hs (ix2 f j) = W (ix3 a f j) := by
  refine (shapeCast_apply _ hs (ix2 f j) (ix3 (0 : Fin 1) f j) ?_).trans ?_
  · rw [Shape.rowMajor_val_three, Shape.rowMajor_val_two]
    show (0 * D + f.val) * 16 + j.val = f.val * 16 + j.val
    omega
  · refine extractStridedSlice_apply ![o, 0, 0] W h (ix3 (0 : Fin 1) f j) (ix3 a f j) fun b => ?_
    match b with
    | ⟨0, _⟩ => show a.val = o + 0; omega
    | ⟨1, _⟩ => show f.val = 0 + f.val; omega
    | ⟨2, _⟩ => show j.val = 0 + j.val; omega

theorem wc_apply {K : Nat} (W : FVec Ideal ⟨3, ![5, D, 16]⟩ .f32) (hs : (⟨3, ![5, D, 16]⟩ : Shape).ShapeCasts ⟨2, ![K, 16]⟩)
    (a : Fin 5) (f : Fin D) (j : Fin 16) (k : Fin K) (hk : k.val = D * a.val + f.val) :
    shapeCast ⟨2, ![K, 16]⟩ W hs (ix2 k j) = W (ix3 a f j) := by
  refine shapeCast_apply W hs (ix2 k j) (ix3 a f j) ?_
  rw [Shape.rowMajor_val_three, Shape.rowMajor_val_two]
  show (a.val * D + f.val) * 16 + j.val = k.val * 16 + j.val
  rw [hk, Nat.mul_comm D a.val]

theorem hc_apply {K : Nat} (hs : Fin 5 → FVec Ideal ⟨2, ![100000, D]⟩ .f32)
    (hcat : Shape.Concatenates ((List.ofFn fun a : Fin 5 =>
      (⟨⟨2, ![100000, D]⟩, hs a⟩ : (s : Shape) × (s.Idx → Ideal .f32))).map (·.1)) ⟨2, ![100000, K]⟩ 1)
    (n : Fin 100000) (a : Fin 5) (f : Fin D) (k : Fin K) (hk : k.val = D * a.val + f.val) :
    concatenate ⟨2, ![100000, K]⟩ 1 (List.ofFn fun a : Fin 5 =>
      (⟨⟨2, ![100000, D]⟩, hs a⟩ : (s : Shape) × (s.Idx → Ideal .f32))) hcat (ix2 n k) = hs a (ix2 n f) := by
  refine concatenate_ofFn_apply (t := ⟨2, ![100000, K]⟩) (s₁ := ⟨2, ![100000, D]⟩) 1 hs hcat rfl D rfl (ix2 n k) a ?_
    (ix2 n f) ?_ fun b hb => ?_
  · show k.val / D = a.val
    rw [hk, Nat.mul_add_div f.pos, Nat.div_eq_of_lt f.isLt, Nat.add_zero]
  · show f.val = k.val % D
    rw [hk, Nat.mul_add_mod, Nat.mod_eq_of_lt f.isLt]
  · match b, hb with
    | ⟨0, _⟩, _ => rfl
    | ⟨1, _⟩, hb => exact absurd rfl hb

theorem layer_eq {K : Nat} (hK : K = 5 * D) (d : DotDims ⟨2, ![100000, D]⟩ ⟨2, ![D, 16]⟩ ⟨2, ![100000, 16]⟩)
    (hdot : ∀ (x : FVec Ideal ⟨2, ![100000, D]⟩ .f32) (w : FVec Ideal ⟨2, ![D, 16]⟩ .f32) (n : Fin 100000) (j : Fin 16),
      Host.dotGeneral d none x w (ix2 n j) = ∑ f : Fin D, x (ix2 n f) * w (ix2 f j))
    (hs : Fin 5 → FVec Ideal ⟨2, ![100000, D]⟩ .f32) (W : FVec Ideal ⟨3, ![5, D, 16]⟩ .f32)
    (ws : Fin 5 → FVec Ideal ⟨2, ![D, 16]⟩ .f32) (hws : ∀ (a : Fin 5) (f : Fin D) (j : Fin 16), ws a (ix2 f j) = W (ix3 a f j))
    (hcat : Shape.Concatenates ((List.ofFn fun a : Fin 5 =>
      (⟨⟨2, ![100000, D]⟩, hs a⟩ : (s : Shape) × (s.Idx → Ideal .f32))).map (·.1)) ⟨2, ![100000, K]⟩ 1)
    (hsc : (⟨3, ![5, D, 16]⟩ : Shape).ShapeCasts ⟨2, ![K, 16]⟩) (b : FVec Ideal S16 .f32) :
    refLeaky (addf (addf (addf (addf (addf
        (Host.dotGeneral d none (hs 0) (ws 0))
        (Host.dotGeneral d none (hs 1) (ws 1)))
        (Host.dotGeneral d none (hs 2) (ws 2)))
        (Host.dotGeneral d none (hs 3) (ws 3)))
        (Host.dotGeneral d none (hs 4) (ws 4)))
      (broadcastInDim S100000x16 ![0, 1] bcast_S1x16_S100000x16_0_1 (broadcastInDim S1x16 ![1] bcast_S16_S1x16_1 b)))
      = Cert.Spec.dense (concatenate ⟨2, ![100000, K]⟩ 1 (List.ofFn fun a : Fin 5 =>
            (⟨⟨2, ![100000, D]⟩, hs a⟩ : (s : Shape) × (s.Idx → Ideal .f32))) hcat)
          (shapeCast ⟨2, ![K, 16]⟩ W hsc)
          (shapeCast Cert.KernelIdeal.S1x16 b Cert.KernelIdeal.Gen.shapeCasts_S16_S1x16) := by
  funext i
  obtain ⟨n, j, rfl⟩ : ∃ (n : Fin 100000) (j : Fin 16), i = ix2 n j := ⟨i 0, i 1, eq_ix2 i⟩
  rw [Cert.Spec.dense_apply, refLeaky_apply]
  refine congrArg Cert.Spec.leaky ?_
  simp only [addf_apply]
  rw [hdot, hdot, hdot, hdot, hdot, bias_apply]
  unfold Cert.Spec.preAct
  rw [bb_apply]
  exact preAct_split hK (fun a f => hs a (ix2 n f)) (fun a f => ws a (ix2 f j)) _ _
    (fun a f k hk => hc_apply hs hcat n a f k hk)
    (fun a f k hk => (wc_apply W hsc a f j k hk).trans (hws a f j).symm) _

end Width

theorem lhs2_0 (i : S100000x16.Idx) (q : dot_S100000x2_S2x16_S100000x16_1_0_0_1_n_n.contr.Idx) :
    (dot_S100000x2_S2x16_S100000x16_1_0_0_1_n_n.lhsIdx i q 0).val = (i 0).val := by
  unfold DotDims.lhsIdx
  rw [dif_neg (show ¬(0 : Fin S100000x2.rank) ∈ dot_S100000x2_S2x16_S100000x16_1_0_0_1_n_n.lhsBatch by decide), dif_pos (show (0 : Fin S100000x2.rank) ∈ dot_S100000x2_S2x16_S100000x16_1_0_0_1_n_n.lhsNonContracting by decide)]
  rfl
theorem lhs2_1 (i : S100000x16.Idx) (q : dot_S100000x2_S2x16_S100000x16_1_0_0_1_n_n.contr.Idx) :
    (dot_S100000x2_S2x16_S100000x16_1_0_0_1_n_n.lhsIdx i q 1).val = (q ⟨0, by decide⟩).val :=
  dot_S100000x2_S2x16_S100000x16_1_0_0_1_n_n.lhsIdx_val_of_single rfl i q
theorem rhs2_0 (i : S100000x16.Idx) (q : dot_S100000x2_S2x16_S100000x16_1_0_0_1_n_n.contr.Idx) :
    (dot_S100000x2_S2x16_S100000x16_1_0_0_1_n_n.rhsIdx i q 0).val = (q ⟨0, by decide⟩).val :=
  dot_S100000x2_S2x16_S100000x16_1_0_0_1_n_n.rhsIdx_val_of_single rfl i q
theorem rhs2_1 (i : S100000x16.Idx) (q : dot_S100000x2_S2x16_S100000x16_1_0_0_1_n_n.contr.Idx) :
    (dot_S100000x2_S2x16_S100000x16_1_0_0_1_n_n.rhsIdx i q 1).val = (i 1).val := by
  unfold DotDims.rhsIdx
  rw [dif_neg (show ¬(1 : Fin S2x16.rank) ∈ dot_S100000x2_S2x16_S100000x16_1_0_0_1_n_n.rhsBatch by decide), dif_pos (show (1 : Fin S2x16.rank) ∈ dot_S100000x2_S2x16_S100000x16_1_0_0_1_n_n.rhsNonContracting by decide)]
  rfl

theorem w2_apply (W : FVec Ideal S5x2x16 .f32) (a : Fin 5) (f : Fin 2) (j : Fin 16) :
    w2 W a (ix2 f j) = W (ix3 a f j) := by
  match a with
  | ⟨0, _⟩ => exact hopSlice_apply W 0 _ _ ⟨0, by decide⟩ rfl f j
  | ⟨1, _⟩ => exact hopSlice_apply W 1 _ _ ⟨1, by decide⟩ rfl f j
  | ⟨2, _⟩ => exact hopSlice_apply W 2 _ _ ⟨2, by decide⟩ rfl f j
  | ⟨3, _⟩ => exact hopSlice_apply W 3 _ _ ⟨3, by decide⟩ rfl f j
  | ⟨4, _⟩ => exact hopSlice_apply W 4 _ _ ⟨4, by decide⟩ rfl f j

theorem refLayer2_eq (h0 h1 h2 h3 h4 : FVec Ideal S100000x2 .f32) (W : FVec Ideal S5x2x16 .f32) (b : FVec Ideal S16 .f32) :
    refLayer2 h0 h1 h2 h3 h4 W b
      = Cert.Spec.dense (concatenate Cert.KernelIdeal.S100000x10 1 [⟨Cert.KernelIdeal.S100000x2, h0⟩, ⟨Cert.KernelIdeal.S100000x2, h1⟩, ⟨Cert.KernelIdeal.S100000x2, h2⟩, ⟨Cert.KernelIdeal.S100000x2, h3⟩, ⟨Cert.KernelIdeal.S100000x2, h4⟩] Cert.KernelIdeal.Gen.concatenates_S100000x2_S100000x2_S100000x2_S100000x2_S100000x2_S100000x10_d1)
          (shapeCast Cert.KernelIdeal.S10x16 W Cert.KernelIdeal.Gen.shapeCasts_S5x2x16_S10x16)
          (shapeCast Cert.KernelIdeal.S1x16 b Cert.KernelIdeal.Gen.shapeCasts_S16_S1x16) :=
  layer_eq (D := 2) (K := 10) rfl dot_S100000x2_S2x16_S100000x16_1_0_0_1_n_n
    (dot_apply_of_axes dot_S100000x2_S2x16_S100000x16_1_0_0_1_n_n rfl rfl lhs2_0 lhs2_1 rhs2_0 rhs2_1)
    (pick5 h0 h1 h2 h3 h4) W (w2 W) (w2_apply W)
    Cert.KernelIdeal.Gen.concatenates_S100000x2_S100000x2_S100000x2_S100000x2_S100000x2_S100000x10_d1
    Cert.KernelIdeal.Gen.shapeCasts_S5x2x16_S10x16 b

theorem lhs16_0 (i : S100000x16.Idx) (q : dot_S100000x16_S16x16_S100000x16_1_0_0_1_n_n.contr.Idx) :
    (dot_S100000x16_S16x16_S100000x16_1_0_0_1_n_n.lhsIdx i q 0).val = (i 0).val := by
  unfold DotDims.lhsIdx
  rw [dif_neg (show ¬(0 : Fin S100000x16.rank) ∈ dot_S100000x16_S16x16_S100000x16_1_0_0_1_n_n.lhsBatch by decide), dif_pos (show (0 : Fin S100000x16.rank) ∈ dot_S100000x16_S16x16_S100000x16_1_0_0_1_n_n.lhsNonContracting by decide)]
  rfl
theorem lhs16_1 (i : S100000x16.Idx) (q : dot_S100000x16_S16x16_S100000x16_1_0_0_1_n_n.contr.Idx) :
    (dot_S100000x16_S16x16_S100000x16_1_0_0_1_n_n.lhsIdx i q 1).val = (q ⟨0, by decide⟩).val :=
  dot_S100000x16_S16x16_S100000x16_1_0_0_1_n_n.lhsIdx_val_of_single rfl i q
theorem rhs16_0 (i : S100000x16.Idx) (q : dot_S100000x16_S16x16_S100000x16_1_0_0_1_n_n.contr.Idx) :
    (dot_S100000x16_S16x16_S100000x16_1_0_0_1_n_n.rhsIdx i q 0).val = (q ⟨0, by decide⟩).val :=
  dot_S100000x16_S16x16_S100000x16_1_0_0_1_n_n.rhsIdx_val_of_single rfl i q
theorem rhs16_1 (i : S100000x16.Idx) (q : dot_S100000x16_S16x16_S100000x16_1_0_0_1_n_n.contr.Idx) :
    (dot_S100000x16_S16x16_S100000x16_1_0_0_1_n_n.rhsIdx i q 1).val = (i 1).val := by
  unfold DotDims.rhsIdx
  rw [dif_neg (show ¬(1 : Fin S16x16.rank) ∈ dot_S100000x16_S16x16_S100000x16_1_0_0_1_n_n.rhsBatch by decide), dif_pos (show (1 : Fin S16x16.rank) ∈ dot_S100000x16_S16x16_S100000x16_1_0_0_1_n_n.rhsNonContracting by decide)]
  rfl

theorem w16_apply (W : FVec Ideal S5x16x16 .f32) (a : Fin 5) (f : Fin 16) (j : Fin 16) :
    w16 W a (ix2 f j) = W (ix3 a f j) := by
  match a with
  | ⟨0, _⟩ => exact hopSlice_apply W 0 _ _ ⟨0, by decide⟩ rfl f j
  | ⟨1, _⟩ => exact hopSlice_apply W 1 _ _ ⟨1, by decide⟩ rfl f j
  | ⟨2, _⟩ => exact hopSlice_apply W 2 _ _ ⟨2, by decide⟩ rfl f j
  | ⟨3, _⟩ => exact hopSlice_apply W 3 _ _ ⟨3, by decide⟩ rfl f j
  | ⟨4, _⟩ => exact hopSlice_apply W 4 _ _ ⟨4, by decide⟩ rfl f j

theorem refLayer16_eq (h0 h1 h2 h3 h4 : FVec Ideal S100000x16 .f32) (W : FVec Ideal S5x16x16 .f32) (b : FVec Ideal S16 .f32) :
    refLayer16 h0 h1 h2 h3 h4 W b
      = Cert.Spec.dense (concatenate Cert.KernelIdeal.S100000x80 1 [⟨Cert.KernelIdeal.S100000x16, h0⟩, ⟨Cert.KernelIdeal.S100000x16, h1⟩, ⟨Cert.KernelIdeal.S100000x16, h2⟩, ⟨Cert.KernelIdeal.S100000x16, h3⟩, ⟨Cert.KernelIdeal.S100000x16, h4⟩] Cert.KernelIdeal.Gen.concatenates_S100000x16_S100000x16_S100000x16_S100000x16_S100000x16_S100000x80_d1)
          (shapeCast Cert.KernelIdeal.S80x16 W Cert.KernelIdeal.Gen.shapeCasts_S5x16x16_S80x16)
          (shapeCast Cert.KernelIdeal.S1x16 b Cert.KernelIdeal.Gen.shapeCasts_S16_S1x16) :=
  layer_eq (D := 16) (K := 80) rfl dot_S100000x16_S16x16_S100000x16_1_0_0_1_n_n
    (dot_apply_of_axes dot_S100000x16_S16x16_S100000x16_1_0_0_1_n_n rfl rfl lhs16_0 lhs16_1 rhs16_0 rhs16_1)
    (pick5 h0 h1 h2 h3 h4) W (w16 W) (w16_apply W)
    Cert.KernelIdeal.Gen.concatenates_S100000x16_S100000x16_S100000x16_S100000x16_S100000x16_S100000x80_d1
    Cert.KernelIdeal.Gen.shapeCasts_S5x16x16_S80x16 b

end Cert.ReferenceIdeal.Hand

end
-- ==== Proof.LibRowGatherScatter.lean ====
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

section Gather
variable {α : Type}

abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather read at an index: the table's row at the start word, clamped to the last row. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

section Scatter

abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start_one (e : Fin E) (q' : Fin D) :
    (rowScatter N E D wf).start (ix2 e q') idx 1 = 0 := by
  unfold ScatterDims.start
  rw [dif_neg (show (1 : Fin 2) ∉ [(0 : Fin 2)] by decide)]

theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- A row scatter-add read at an index: the operand plus the sum of the updates whose start word is that row. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

section Broadcasts
variable {α : Type}

theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.LibVecScatterAdd.lean ====
import Idealize.ShloMosaic.PureOps.Ideal
import Idealize.ShloMosaic.PureOps.Contract
import Idealize.ShloMosaic.Lib.ValueIdx
import Mathlib.Algebra.BigOperators.Group.Finset.Basic
import Mathlib.Algebra.BigOperators.Fin

noncomputable section

open scoped BigOperators

namespace Cert.Hand.VecScatter

open Idealize.ShloMosaic Idealize.ShloMosaic.ValueIdx

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

theorem vecScatter_start (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vecScatter_window (e : Fin E) :
    (vecScatter N E wf).window (ix1 e) 0 = 0 := by
  unfold ScatterDims.window
  rw [dif_neg]
  show (0 : Fin 1) ∉ (List.finRange 1).filter (· ∉ [(0 : Fin 1)])
  decide

theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    have h0 := h 0
    rw [vecScatter_start, vecScatter_window] at h0
    constructor
    · intro hf
      have e0 := congrArg (fun f => (f 0).val) hf
      simp only [vecScatter_start, vecScatter_window] at e0
      have : ((ix1 d : (⟨1, ![N]⟩ : Shape).Idx) 0).val = d.val := rfl
      omega
    · intro hd
      funext a
      refine Fin.ext ?_
      match a with
      | ⟨0, _⟩ =>
        show ((vecScatter N E wf).start (ix1 e) idx 0 + ((vecScatter N E wf).window (ix1 e) 0 : ℕ)).toNat = d.val
        rw [vecScatter_start, vecScatter_window]
        omega
  · next h =>
    constructor
    · intro hf
      exact absurd hf (by simp)
    · intro hd
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start, vecScatter_window]
        have := d.isLt
        omega

/-- A scatter-add of a vector read at an index: the operand plus the sum of the updates whose start word is that entry. -/
theorem vecScatterAdd_apply {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  simp only [vecScatter_resultIdx_iff]

end Cert.Hand.VecScatter

end
-- ==== Proof.Val.PoolRef.lean ====
import proofs.«428193_j13675175870529_1_alg».proof.Proof.Val.RefLayers
import proofs.«428193_j13675175870529_1_alg».proof.Proof.LibRowGatherScatter
import proofs.«428193_j13675175870529_1_alg».proof.Proof.LibVecScatterAdd
import Idealize.ShloMosaic.Lib.IdealHost
import Idealize.ShloMosaic.Lib.StackMember
import Idealize.ShloMosaic.Lib.ValueLayout
import Idealize.ShloMosaic.Lib.Pipeline.Value

set_option maxRecDepth 16384

noncomputable section

open scoped BigOperators

namespace Cert.ReferenceIdeal.Hand

open Cert.ReferenceIdeal Cert.ReferenceIdeal.Gen
open Idealize.ShloMosaic Idealize.ShloMosaic.ValueIdx

theorem refCol_apply (batch : IVec S100000 32) (r : Fin 100000) :
    broadcastInDim S100000x1 ![0] bcast_S100000_S100000x1_0 batch (ix2 r 0) = batch (ix1 r) :=
  bcastCol_apply (E := 100000) bcast_S100000_S100000x1_0 batch r 0

theorem specCol_apply (batch : IVec S100000 32) (r : Fin 100000) :
    shapeCast Cert.KernelIdeal.S100000x1 batch Cert.KernelIdeal.Gen.shapeCasts_S100000_S100000x1 (ix2 r 0)
      = batch (ix1 r) :=
  shapeCast_apply batch _ (ix2 r (0 : Fin 1)) (ix1 r) (by
    rw [Shape.rowMajor_val_two, Shape.rowMajor_val_one]
    show r.val = r.val * 1 + 0
    omega)

theorem inGraph_iff (batch : IVec S100000 32) (g : Fin 64) (r : Fin 100000) :
    ((broadcastInDim S100000x1 ![0] bcast_S100000_S100000x1_0 batch (ix2 r 0)).toInt = (g.val : ℤ))
      ↔ Cert.Spec.inGraph
          (shapeCast Cert.KernelIdeal.S100000x1 batch Cert.KernelIdeal.Gen.shapeCasts_S100000_S100000x1) g r := by
  unfold Cert.Spec.inGraph
  rw [refCol_apply, specCol_apply]

theorem scatterRows_eq : scatter_S64x16_S100000x1_S100000x16_1_0_0_1
    = rowScatter 64 100000 16 scatter_S64x16_S100000x1_S100000x16_1_0_0_1_wf := rfl

theorem scatterVec_eq : scatter_S64_S100000x1_S100000_n_0_0_1
    = Cert.Hand.VecScatter.vecScatter 64 100000 scatter_S64_S100000x1_S100000_n_0_0_1_wf := rfl

theorem scatterRows_apply (x : FVec Ideal S64x16 .f32) (idx : IVec S100000x1 32) (upd : FVec Ideal S100000x16 .f32)
    (g : Fin 64) (j : Fin 16) :
    Host.scatterAdd scatter_S64x16_S100000x1_S100000x16_1_0_0_1 x idx upd (ix2 g j)
      = x (ix2 g j)
        + ∑ r ∈ Finset.univ.filter (fun r : Fin 100000 => (idx (ix2 r 0)).toInt = (g.val : ℤ)), upd (ix2 r j) := by
  rw [scatterRows_eq]
  exact rowScatterAdd_apply (N := 64) (E := 100000) (D := 16) scatter_S64x16_S100000x1_S100000x16_1_0_0_1_wf idx x upd g j

theorem scatterVec_apply (x : FVec Ideal S64 .f32) (idx : IVec S100000x1 32) (upd : FVec Ideal S100000 .f32) (g : Fin 64) :
    Host.scatterAdd scatter_S64_S100000x1_S100000_n_0_0_1 x idx upd (ix1 g)
      = x (ix1 g)
        + ∑ r ∈ Finset.univ.filter (fun r : Fin 100000 => (idx (ix2 r 0)).toInt = (g.val : ℤ)), upd (ix1 r) := by
  rw [scatterVec_eq]
  exact Cert.Hand.VecScatter.vecScatterAdd_apply (N := 64) (E := 100000) scatter_S64_S100000x1_S100000_n_0_0_1_wf idx x upd g

theorem refSum_apply (h : FVec Ideal S100000x16 .f32) (batch : IVec S100000 32) (g : Fin 64) (j : Fin 16) :
    Host.scatterAdd scatter_S64x16_S100000x1_S100000x16_1_0_0_1
        (broadcastInDim S64x16 ![] bcast_S_S64x16 (constant (F := Ideal) S_ .f32 0x00000000#32))
        (broadcastInDim S100000x1 ![0] bcast_S100000_S100000x1_0 batch) h (ix2 g j)
      = Cert.Spec.poolSum h
          (shapeCast Cert.KernelIdeal.S100000x1 batch Cert.KernelIdeal.Gen.shapeCasts_S100000_S100000x1) g j := by
  rw [scatterRows_apply, bcastScalar_apply, constant_apply, Ideal.ofBits_zero_f32, zero_add]
  unfold Cert.Spec.poolSum
  exact Finset.sum_congr (Finset.filter_congr fun r _ => inGraph_iff batch g r) fun _ _ => rfl

theorem refCnt_apply (batch : IVec S100000 32) (g : Fin 64) :
    Host.scatterAdd scatter_S64_S100000x1_S100000_n_0_0_1
        (broadcastInDim S64 ![] bcast_S_S64 (constant (F := Ideal) S_ .f32 0x00000000#32))
        (broadcastInDim S100000x1 ![0] bcast_S100000_S100000x1_0 batch)
        (broadcastInDim S100000 ![] bcast_S_S100000 (constant (F := Ideal) S_ .f32 0x3F800000#32)) (ix1 g)
      = Cert.Spec.poolCnt
          (shapeCast Cert.KernelIdeal.S100000x1 batch Cert.KernelIdeal.Gen.shapeCasts_S100000_S100000x1) g := by
  rw [scatterVec_apply, bcastScalar_apply, constant_apply, Ideal.ofBits_zero_f32, zero_add]
  unfold Cert.Spec.poolCnt
  refine Finset.sum_congr (Finset.filter_congr fun r _ => inGraph_iff batch g r) fun r _ => ?_
  rw [bcastScalar_apply, constant_apply, Ideal.ofBits_one_f32]

theorem refDen_apply (cnt : FVec Ideal S64 .f32) (g : Fin 64) (j : Fin 16) :
    broadcastInDim S64x16 ![0, 1] bcast_S64x1_S64x16_0_1 (broadcastInDim S64x1 ![0] bcast_S64_S64x1_0
        (maximumf cnt (broadcastInDim S64 ![] bcast_S_S64 (constant (F := Ideal) S_ .f32 0x3F800000#32)))) (ix2 g j)
      = max (cnt (ix1 g)) (Ideal.ofBits .f32 0x3F800000#32) := by
  rw [bcastFeat_apply (E := 64) (D := 16), bcastCol_apply (E := 64), maximumf_apply, bcastScalar_apply, constant_apply]

theorem headDot_apply (A : FVec Ideal S64x16 .f32) (ws : FVec Ideal S16x1 .f32) (g : Fin 64) :
    Host.dotGeneral dot_S64x16_S16x1_S64x1_1_0_0_1_n_n none A ws (ix2 g 0) = ∑ c : Fin 16, A (ix2 g c) * ws (ix2 c 0) :=
  StackMember.dotGeneral_plain_apply (m := 64) (n := 1) (k := 16) none A ws g 0

theorem refBias_apply (bs : FVec Ideal S1 .f32) (g : Fin 64) :
    broadcastInDim S64x1 ![0, 1] bcast_S1x1_S64x1_0_1 (broadcastInDim S1x1 ![1] bcast_S1_S1x1_1 bs) (ix2 g 0)
      = bs (ix1 0) := by
  rw [bcastRows_apply (N := 64) (D := 1), bcastRow_apply (D := 1)]

theorem specBias_apply (bs : FVec Ideal S1 .f32) :
    shapeCast Cert.KernelIdeal.S1x1 bs Cert.KernelIdeal.Gen.shapeCasts_S1_S1x1 (ix2 0 0) = bs (ix1 0) :=
  shapeCast_a_1a_apply (a := 1) bs _ 0 0

theorem refPool_eq (h : FVec Ideal S100000x16 .f32) (batch : IVec S100000 32) (ws : FVec Ideal S16x1 .f32) (bs : FVec Ideal S1 .f32) :
    refPool h batch ws bs
      = Cert.Spec.pool h (shapeCast Cert.KernelIdeal.S100000x1 batch Cert.KernelIdeal.Gen.shapeCasts_S100000_S100000x1) ws
          (shapeCast Cert.KernelIdeal.S1x1 bs Cert.KernelIdeal.Gen.shapeCasts_S1_S1x1) := by
  funext i
  obtain ⟨g, z, rfl⟩ : ∃ (g : Fin 64) (z : Fin 1), i = ix2 g z := ⟨i 0, i 1, eq_ix2 i⟩
  obtain rfl : z = 0 := Subsingleton.elim _ _
  rw [Cert.Spec.pool_apply, specBias_apply]
  unfold refPool
  rw [addf_apply, headDot_apply, refBias_apply]
  refine congrArg (· + bs (ix1 0)) (Finset.sum_congr rfl fun j _ => ?_)
  rw [hostDivf_apply, refSum_apply, refDen_apply, refCnt_apply]

end Cert.ReferenceIdeal.Hand

end
-- ==== Proof.Val.RVal.lean ====
import proofs.«428193_j13675175870529_1_alg».proof.Proof.Val.RRead
import proofs.«428193_j13675175870529_1_alg».proof.Proof.Val.DenseRef
import proofs.«428193_j13675175870529_1_alg».proof.Proof.Val.PoolRef
import proofs.«428193_j13675175870529_1_alg».proof.Proof.Val.Layers

set_option maxRecDepth 16384

noncomputable section

namespace Cert.ReferenceIdeal.Hand

open Cert.ReferenceIdeal Cert.ReferenceIdeal.Gen
open Idealize.ShloMosaic Idealize.ShloMosaic.TcCoe Idealize.SL.Sem
open Cert.Spec

variable (m : (ℓ : Loc nD τ sig) → Buf (Elt Ideal) ℓ)

abbrev rn (d : Dev nD) : FVec Ideal S3200000 .f32 := normR (m ((d.tc : Thread nD τ).loc main_arg1)) (m ((d.tc : Thread nD τ).loc main_arg2))
abbrev rs (d : Dev nD) : IVec S3200000 32 := srcR (m ((d.tc : Thread nD τ).loc main_arg1))
abbrev rd (d : Dev nD) : IVec S3200000 32 := dstR (m ((d.tc : Thread nD τ).loc main_arg1))

theorem U0_at (d : Dev nD) (b : Ref sig .tc) : U0 m d (Proc.devRef .tc b) = m ((d.tc : Thread nD τ).loc b) := rfl

theorem U1_v31 (d : Dev nD) : U1 m d (Proc.devRef .tc main_v31) = rn m d := by
  rw [r1_norm, U1_keep m d main_arg1, U1_keep m d main_arg2]
theorem U1_v1 (d : Dev nD) : U1 m d (Proc.devRef .tc main_v1) = rs m d := by
  rw [r1_src, U1_keep m d main_arg1]
theorem U1_v3 (d : Dev nD) : U1 m d (Proc.devRef .tc main_v3) = rd m d := by
  rw [r1_dst, U1_keep m d main_arg1]
theorem U1_arg0 (d : Dev nD) : U1 m d (Proc.devRef .tc main_arg0) = m ((d.tc : Thread nD τ).loc main_arg0) := (U1_keep m d main_arg0).trans rfl
theorem U1_arg3 (d : Dev nD) : U1 m d (Proc.devRef .tc main_arg3) = m ((d.tc : Thread nD τ).loc main_arg3) := (U1_keep m d main_arg3).trans rfl
theorem U1_arg4 (d : Dev nD) : U1 m d (Proc.devRef .tc main_arg4) = m ((d.tc : Thread nD τ).loc main_arg4) := (U1_keep m d main_arg4).trans rfl
theorem U1_arg5 (d : Dev nD) : U1 m d (Proc.devRef .tc main_arg5) = m ((d.tc : Thread nD τ).loc main_arg5) := (U1_keep m d main_arg5).trans rfl
theorem U1_arg6 (d : Dev nD) : U1 m d (Proc.devRef .tc main_arg6) = m ((d.tc : Thread nD τ).loc main_arg6) := (U1_keep m d main_arg6).trans rfl
theorem U1_arg7 (d : Dev nD) : U1 m d (Proc.devRef .tc main_arg7) = m ((d.tc : Thread nD τ).loc main_arg7) := (U1_keep m d main_arg7).trans rfl
theorem U1_arg8 (d : Dev nD) : U1 m d (Proc.devRef .tc main_arg8) = m ((d.tc : Thread nD τ).loc main_arg8) := (U1_keep m d main_arg8).trans rfl
theorem U1_arg9 (d : Dev nD) : U1 m d (Proc.devRef .tc main_arg9) = m ((d.tc : Thread nD τ).loc main_arg9) := (U1_keep m d main_arg9).trans rfl
theorem U2_v31 (d : Dev nD) : U2 m d (Proc.devRef .tc main_v31) = rn m d := (U2_keep m d main_v31).trans (U1_v31 m d)
theorem U2_v1 (d : Dev nD) : U2 m d (Proc.devRef .tc main_v1) = rs m d := (U2_keep m d main_v1).trans (U1_v1 m d)
theorem U2_v3 (d : Dev nD) : U2 m d (Proc.devRef .tc main_v3) = rd m d := (U2_keep m d main_v3).trans (U1_v3 m d)
theorem U2_arg0 (d : Dev nD) : U2 m d (Proc.devRef .tc main_arg0) = m ((d.tc : Thread nD τ).loc main_arg0) := (U2_keep m d main_arg0).trans (U1_arg0 m d)
theorem U2_arg3 (d : Dev nD) : U2 m d (Proc.devRef .tc main_arg3) = m ((d.tc : Thread nD τ).loc main_arg3) := (U2_keep m d main_arg3).trans (U1_arg3 m d)
theorem U2_arg4 (d : Dev nD) : U2 m d (Proc.devRef .tc main_arg4) = m ((d.tc : Thread nD τ).loc main_arg4) := (U2_keep m d main_arg4).trans (U1_arg4 m d)
theorem U2_arg5 (d : Dev nD) : U2 m d (Proc.devRef .tc main_arg5) = m ((d.tc : Thread nD τ).loc main_arg5) := (U2_keep m d main_arg5).trans (U1_arg5 m d)
theorem U2_arg6 (d : Dev nD) : U2 m d (Proc.devRef .tc main_arg6) = m ((d.tc : Thread nD τ).loc main_arg6) := (U2_keep m d main_arg6).trans (U1_arg6 m d)
theorem U2_arg7 (d : Dev nD) : U2 m d (Proc.devRef .tc main_arg7) = m ((d.tc : Thread nD τ).loc main_arg7) := (U2_keep m d main_arg7).trans (U1_arg7 m d)
theorem U2_arg8 (d : Dev nD) : U2 m d (Proc.devRef .tc main_arg8) = m ((d.tc : Thread nD τ).loc main_arg8) := (U2_keep m d main_arg8).trans (U1_arg8 m d)
theorem U2_arg9 (d : Dev nD) : U2 m d (Proc.devRef .tc main_arg9) = m ((d.tc : Thread nD τ).loc main_arg9) := (U2_keep m d main_arg9).trans (U1_arg9 m d)
theorem U3_v31 (d : Dev nD) : U3 m d (Proc.devRef .tc main_v31) = rn m d := (U3_keep m d main_v31).trans (U2_v31 m d)
theorem U3_v1 (d : Dev nD) : U3 m d (Proc.devRef .tc main_v1) = rs m d := (U3_keep m d main_v1).trans (U2_v1 m d)
theorem U3_v3 (d : Dev nD) : U3 m d (Proc.devRef .tc main_v3) = rd m d := (U3_keep m d main_v3).trans (U2_v3 m d)
theorem U3_arg3 (d : Dev nD) : U3 m d (Proc.devRef .tc main_arg3) = m ((d.tc : Thread nD τ).loc main_arg3) := (U3_keep m d main_arg3).trans (U2_arg3 m d)
theorem U3_arg6 (d : Dev nD) : U3 m d (Proc.devRef .tc main_arg6) = m ((d.tc : Thread nD τ).loc main_arg6) := (U3_keep m d main_arg6).trans (U2_arg6 m d)
theorem U3_arg7 (d : Dev nD) : U3 m d (Proc.devRef .tc main_arg7) = m ((d.tc : Thread nD τ).loc main_arg7) := (U3_keep m d main_arg7).trans (U2_arg7 m d)
theorem U3_arg8 (d : Dev nD) : U3 m d (Proc.devRef .tc main_arg8) = m ((d.tc : Thread nD τ).loc main_arg8) := (U3_keep m d main_arg8).trans (U2_arg8 m d)
theorem U3_arg9 (d : Dev nD) : U3 m d (Proc.devRef .tc main_arg9) = m ((d.tc : Thread nD τ).loc main_arg9) := (U3_keep m d main_arg9).trans (U2_arg9 m d)

theorem U4_v31 (d : Dev nD) : U4 m d (Proc.devRef .tc main_v31) = rn m d := (U4_keep m d main_v31).trans (U3_v31 m d)
theorem U4_v1 (d : Dev nD) : U4 m d (Proc.devRef .tc main_v1) = rs m d := (U4_keep m d main_v1).trans (U3_v1 m d)
theorem U4_v3 (d : Dev nD) : U4 m d (Proc.devRef .tc main_v3) = rd m d := (U4_keep m d main_v3).trans (U3_v3 m d)
theorem U4_arg6 (d : Dev nD) : U4 m d (Proc.devRef .tc main_arg6) = m ((d.tc : Thread nD τ).loc main_arg6) := (U4_keep m d main_arg6).trans (U3_arg6 m d)
theorem U4_arg7 (d : Dev nD) : U4 m d (Proc.devRef .tc main_arg7) = m ((d.tc : Thread nD τ).loc main_arg7) := (U4_keep m d main_arg7).trans (U3_arg7 m d)
theorem U4_arg3 (d : Dev nD) : U4 m d (Proc.devRef .tc main_arg3) = m ((d.tc : Thread nD τ).loc main_arg3) := (U4_keep m d main_arg3).trans (U3_arg3 m d)
theorem U4_arg8 (d : Dev nD) : U4 m d (Proc.devRef .tc main_arg8) = m ((d.tc : Thread nD τ).loc main_arg8) := (U4_keep m d main_arg8).trans (U3_arg8 m d)
theorem U4_arg9 (d : Dev nD) : U4 m d (Proc.devRef .tc main_arg9) = m ((d.tc : Thread nD τ).loc main_arg9) := (U4_keep m d main_arg9).trans (U3_arg9 m d)
theorem U5_arg3 (d : Dev nD) : U5 m d (Proc.devRef .tc main_arg3) = m ((d.tc : Thread nD τ).loc main_arg3) := (U5_keep m d main_arg3).trans (U4_arg3 m d)
theorem U5_arg8 (d : Dev nD) : U5 m d (Proc.devRef .tc main_arg8) = m ((d.tc : Thread nD τ).loc main_arg8) := (U5_keep m d main_arg8).trans (U4_arg8 m d)
theorem U5_arg9 (d : Dev nD) : U5 m d (Proc.devRef .tc main_arg9) = m ((d.tc : Thread nD τ).loc main_arg9) := (U5_keep m d main_arg9).trans (U4_arg9 m d)

theorem rL1 (d : Dev nD) : U2 m d (Proc.devRef .tc main_v110)
    = layer1 (hopR2 (rn m d) (rs m d) (rd m d)) (m ((d.tc : Thread nD τ).loc main_arg0)) (m ((d.tc : Thread nD τ).loc main_arg4)) (m ((d.tc : Thread nD τ).loc main_arg5)) := by
  rw [r2_out, r2_h4, r2_h3, r2_h2, r2_h1, U2_v31, U2_v1, U2_v3, U2_arg0, U2_arg4, U2_arg5, refLayer2_eq]
  rfl

theorem rL2 (d : Dev nD) : U3 m d (Proc.devRef .tc main_v193)
    = layerN (hopR16 (rn m d) (rs m d) (rd m d)) (U2 m d (Proc.devRef .tc main_v110)) (wl0 (m ((d.tc : Thread nD τ).loc main_arg6))) (bl0 (m ((d.tc : Thread nD τ).loc main_arg7))) := by
  rw [r3_out, r3_h4, r3_h3, r3_h2, r3_h1, U3_v31, U3_v1, U3_v3, U3_keep m d main_v110, U3_arg6, U3_arg7, refLayer16_eq]
  rfl

theorem rL3 (d : Dev nD) : U4 m d (Proc.devRef .tc main_v276)
    = layerN (hopR16 (rn m d) (rs m d) (rd m d)) (U3 m d (Proc.devRef .tc main_v193)) (wl1 (m ((d.tc : Thread nD τ).loc main_arg6))) (bl1 (m ((d.tc : Thread nD τ).loc main_arg7))) := by
  rw [r4_out, r4_h4, r4_h3, r4_h2, r4_h1, U4_v31, U4_v1, U4_v3, U4_keep m d main_v193, U4_arg6, U4_arg7, refLayer16_eq]
  rfl

theorem rOut (d : Dev nD) : U5 m d (Proc.devRef .tc main_v292)
    = head (U4 m d (Proc.devRef .tc main_v276)) (m ((d.tc : Thread nD τ).loc main_arg3)) (m ((d.tc : Thread nD τ).loc main_arg8)) (m ((d.tc : Thread nD τ).loc main_arg9)) := by
  rw [r5_out, U5_keep m d main_v276, U5_arg3, U5_arg8, U5_arg9, refPool_eq]
  rfl

theorem reference_value (d : Dev nD) : U5 m d (Proc.devRef .tc main_v292)
    = head (layerN (hopR16 (rn m d) (rs m d) (rd m d))
        (layerN (hopR16 (rn m d) (rs m d) (rd m d))
          (layer1 (hopR2 (rn m d) (rs m d) (rd m d)) (m ((d.tc : Thread nD τ).loc main_arg0)) (m ((d.tc : Thread nD τ).loc main_arg4)) (m ((d.tc : Thread nD τ).loc main_arg5)))
          (wl0 (m ((d.tc : Thread nD τ).loc main_arg6))) (bl0 (m ((d.tc : Thread nD τ).loc main_arg7))))
        (wl1 (m ((d.tc : Thread nD τ).loc main_arg6))) (bl1 (m ((d.tc : Thread nD τ).loc main_arg7))))
      (m ((d.tc : Thread nD τ).loc main_arg3)) (m ((d.tc : Thread nD τ).loc main_arg8)) (m ((d.tc : Thread nD τ).loc main_arg9)) := by
  rw [rOut, rL3, rL2, rL1]

end Cert.ReferenceIdeal.Hand

end
-- ==== Proof.Val.Same.lean ====
import proofs.«428193_j13675175870529_1_alg».proof.Proof.Val.Terms

set_option maxRecDepth 16384

noncomputable section

namespace Cert.Hand.Same

open Idealize.ShloMosaic
open Cert.KernelIdeal.Hand Cert.ReferenceIdeal.Hand

variable {F : FTy → Type} [FloatOps F]

theorem src_same (ei : IVec ⟨2, ![2, 3200000]⟩ 32) : srcK ei = srcR ei := rfl
theorem dst_same (ei : IVec ⟨2, ![2, 3200000]⟩ 32) : dstK ei = dstR ei := rfl
theorem norm_same (ei : IVec ⟨2, ![2, 3200000]⟩ 32) (ea : FVec F ⟨2, ![3200000, 7]⟩ .f32) : normK ei ea = normR ei ea := rfl
theorem hop2_same (nrm : FVec F ⟨1, ![3200000]⟩ .f32) (src dst : IVec ⟨1, ![3200000]⟩ 32) (h : FVec F ⟨2, ![100000, 2]⟩ .f32) :
    hopK2 nrm src dst h = hopR2 nrm src dst h := rfl
theorem hop16_same (nrm : FVec F ⟨1, ![3200000]⟩ .f32) (src dst : IVec ⟨1, ![3200000]⟩ 32) (h : FVec F ⟨2, ![100000, 16]⟩ .f32) :
    hopK16 nrm src dst h = hopR16 nrm src dst h := rfl

end Cert.Hand.Same

end
-- ==== Proof.Val.Bridge.lean ====
import proofs.«428193_j13675175870529_1_alg».proof.Proof.Val.KVal
import proofs.«428193_j13675175870529_1_alg».proof.Proof.Val.RVal
import proofs.«428193_j13675175870529_1_alg».proof.Proof.Val.Same

set_option maxRecDepth 16384

noncomputable section

namespace Cert.Hand.Bridge

open Idealize.ShloMosaic Idealize.ShloMosaic.TcCoe Idealize.SL.Sem
open Cert.Spec Cert.Hand.Same

theorem hop2_fun (n : FVec Ideal ⟨1, ![3200000]⟩ .f32) (s d : IVec ⟨1, ![3200000]⟩ 32) :
    Cert.KernelIdeal.Hand.hopK2 (F := Ideal) n s d = Cert.ReferenceIdeal.Hand.hopR2 n s d := funext (hop2_same n s d)

theorem hop16_fun (n : FVec Ideal ⟨1, ![3200000]⟩ .f32) (s d : IVec ⟨1, ![3200000]⟩ 32) :
    Cert.KernelIdeal.Hand.hopK16 (F := Ideal) n s d = Cert.ReferenceIdeal.Hand.hopR16 n s d := funext (hop16_same n s d)

/-- On equal arguments the two value terms coincide: normalisation and hop are the same functions in both programs. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Hand.U5 m' c (Proc.devRef .tc Cert.ReferenceIdeal.main_v292) = Cert.KernelIdeal.Hand.W12 m ρ c (Proc.devRef .tc Cert.KernelIdeal.main_v210) := by
  rw [Cert.ReferenceIdeal.Hand.reference_value, Cert.KernelIdeal.Hand.kernel_value]
  simp only [Cert.ReferenceIdeal.Hand.rn, Cert.ReferenceIdeal.Hand.rs, Cert.ReferenceIdeal.Hand.rd, Cert.KernelIdeal.Hand.kn, Cert.KernelIdeal.Hand.ks, Cert.KernelIdeal.Hand.kd]
  rw [h0, h1, h2, h3, h4, h5, h6, h7, h8, h9]
  rw [hop2_fun, hop16_fun, norm_same, src_same, dst_same]

end Cert.Hand.Bridge

end
-- ==== Proof.Val.RefKeep.lean ====
import proofs.«428193_j13675175870529_1_alg».proof.Proof.Val.RefRun

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ)

/-- No operation of the reference writes an argument: through all five stages it holds what it held at launch. -/
theorem ref_keep (d : Dev nD) (r : Ref sig .tc) (h0 : r ∉ rc0_W := by decide) (h1 : r ∉ rc1_W := by decide) (h2 : r ∉ rc2_W := by decide)
    (h3 : r ∉ rc3_W := by decide) (h4 : r ∉ rc4_W := by decide) (h5 : r ∉ rc5_W := by decide) (h6 : r ∉ rc6_W := by decide)
    (h7 : r ∉ rc7_W := by decide) (h8 : r ∉ rc8_W := by decide) (h9 : r ∉ rc9_W := by decide) :
    StableHlo.after refOps (StableHlo.launchContents m d) (Proc.devRef .tc r) = m ((d.tc : Thread nD τ).loc r) := by
  rw [after_refOps]
  exact (U5_keep m d r h9).trans <| (U4_keep m d r h6 h7 h8).trans <| (U3_keep m d r h4 h5).trans <| (U2_keep m d r h1 h2 h3).trans (U1_keep m d r h0)

end Cert.ReferenceIdeal.Hand

end
-- ==== Proof.lean ====
import proofs.«428193_j13675175870529_1_alg».proof.Defs
import proofs.«428193_j13675175870529_1_alg».proof.Proof.Gen.Kernel
import proofs.«428193_j13675175870529_1_alg».proof.Proof.Gen.KernelIdeal
import proofs.«428193_j13675175870529_1_alg».proof.Proof.Gen.ReferenceIdeal
import proofs.«428193_j13675175870529_1_alg».proof.Proof.Gen.Pre_finite_inputs
import proofs.«428193_j13675175870529_1_alg».proof.Proof.K.Run
import proofs.«428193_j13675175870529_1_alg».proof.Proof.KI.Run
import proofs.«428193_j13675175870529_1_alg».proof.Proof.Val.Bridge
import proofs.«428193_j13675175870529_1_alg».proof.Proof.Val.RefKeep
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_r : Cert.frame_ReferenceIdeal := fun m ρ _ =>
  (θ_run Cert.ReferenceIdeal.defs _ _).mono (fun r h c =>
    ⟨(h c Cert.ReferenceIdeal.main_arg0).trans (Cert.ReferenceIdeal.Hand.ref_keep m c Cert.ReferenceIdeal.main_arg0),
     (h c Cert.ReferenceIdeal.main_arg1).trans (Cert.ReferenceIdeal.Hand.ref_keep m c Cert.ReferenceIdeal.main_arg1),
     (h c Cert.ReferenceIdeal.main_arg2).trans (Cert.ReferenceIdeal.Hand.ref_keep m c Cert.ReferenceIdeal.main_arg2),
     (h c Cert.ReferenceIdeal.main_arg3).trans (Cert.ReferenceIdeal.Hand.ref_keep m c Cert.ReferenceIdeal.main_arg3),
     (h c Cert.ReferenceIdeal.main_arg4).trans (Cert.ReferenceIdeal.Hand.ref_keep m c Cert.ReferenceIdeal.main_arg4),
     (h c Cert.ReferenceIdeal.main_arg5).trans (Cert.ReferenceIdeal.Hand.ref_keep m c Cert.ReferenceIdeal.main_arg5),
     (h c Cert.ReferenceIdeal.main_arg6).trans (Cert.ReferenceIdeal.Hand.ref_keep m c Cert.ReferenceIdeal.main_arg6),
     (h c Cert.ReferenceIdeal.main_arg7).trans (Cert.ReferenceIdeal.Hand.ref_keep m c Cert.ReferenceIdeal.main_arg7),
     (h c Cert.ReferenceIdeal.main_arg8).trans (Cert.ReferenceIdeal.Hand.ref_keep m c Cert.ReferenceIdeal.main_arg8),
     (h c Cert.ReferenceIdeal.main_arg9).trans (Cert.ReferenceIdeal.Hand.ref_keep m c Cert.ReferenceIdeal.main_arg9)⟩)
    (Cert.ReferenceIdeal.Hand.ref_run (F := Ideal) m ρ)

theorem preserves : Cert.preserves_Kernel_KernelIdeal := trivial

/-- Both runs end at one array: the regions' values and the reference's stages are the same layers and pooling head. -/
theorem algebraic : Cert.algebraic_KernelIdeal_ReferenceIdeal := by
  intro m ρ m' ρ' _ hagree
  refine ⟨fun c => Cert.KernelIdeal.Hand.W12 m ρ c (Proc.devRef .tc Cert.KernelIdeal.main_v210), ?_, ?_⟩
  · exact (θ_run Cert.KernelIdeal.defs _ _).mono (fun r h c =>
      ⟨h c _ (Cert.KernelIdeal.Hand.mem_uc Cert.KernelIdeal.main_v210 (by decide)),
       (h c _ (Cert.KernelIdeal.Hand.mem_uc Cert.KernelIdeal.main_arg0 (by decide))).trans (Cert.KernelIdeal.Hand.W12_keep m ρ c Cert.KernelIdeal.main_arg0),
       (h c _ (Cert.KernelIdeal.Hand.mem_uc Cert.KernelIdeal.main_arg1 (by decide))).trans (Cert.KernelIdeal.Hand.W12_keep m ρ c Cert.KernelIdeal.main_arg1),
       (h c _ (Cert.KernelIdeal.Hand.mem_uc Cert.KernelIdeal.main_arg2 (by decide))).trans (Cert.KernelIdeal.Hand.W12_keep m ρ c Cert.KernelIdeal.main_arg2),
       (h c _ (Cert.KernelIdeal.Hand.mem_uc Cert.KernelIdeal.main_arg3 (by decide))).trans (Cert.KernelIdeal.Hand.W12_keep m ρ c Cert.KernelIdeal.main_arg3),
       (h c _ (Cert.KernelIdeal.Hand.mem_uc Cert.KernelIdeal.main_arg4 (by decide))).trans (Cert.KernelIdeal.Hand.W12_keep m ρ c Cert.KernelIdeal.main_arg4),
       (h c _ (Cert.KernelIdeal.Hand.mem_uc Cert.KernelIdeal.main_arg5 (by decide))).trans (Cert.KernelIdeal.Hand.W12_keep m ρ c Cert.KernelIdeal.main_arg5),
       (h c _ (Cert.KernelIdeal.Hand.mem_uc Cert.KernelIdeal.main_arg6 (by decide))).trans (Cert.KernelIdeal.Hand.W12_keep m ρ c Cert.KernelIdeal.main_arg6),
       (h c _ (Cert.KernelIdeal.Hand.mem_uc Cert.KernelIdeal.main_arg7 (by decide))).trans (Cert.KernelIdeal.Hand.W12_keep m ρ c Cert.KernelIdeal.main_arg7),
       (h c _ (Cert.KernelIdeal.Hand.mem_uc Cert.KernelIdeal.main_arg8 (by decide))).trans (Cert.KernelIdeal.Hand.W12_main_arg8 m ρ c),
       (h c _ (Cert.KernelIdeal.Hand.mem_uc Cert.KernelIdeal.main_arg9 (by decide))).trans (Cert.KernelIdeal.Hand.W12_keep m ρ c Cert.KernelIdeal.main_arg9)⟩)
      (Cert.KernelIdeal.Hand.run_all (F := Ideal) m ρ)
  · exact (θ_run Cert.ReferenceIdeal.defs _ _).mono (fun r h c =>
      ⟨(h c Cert.ReferenceIdeal.main_v292).trans ((congrFun (Cert.ReferenceIdeal.Hand.after_refOps m' c) _).trans
          (Cert.Hand.Bridge.result_eq m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2)),
       (h c Cert.ReferenceIdeal.main_arg0).trans (Cert.ReferenceIdeal.Hand.ref_keep m' c Cert.ReferenceIdeal.main_arg0),
       (h c Cert.ReferenceIdeal.main_arg1).trans (Cert.ReferenceIdeal.Hand.ref_keep m' c Cert.ReferenceIdeal.main_arg1),
       (h c Cert.ReferenceIdeal.main_arg2).trans (Cert.ReferenceIdeal.Hand.ref_keep m' c Cert.ReferenceIdeal.main_arg2),
       (h c Cert.ReferenceIdeal.main_arg3).trans (Cert.ReferenceIdeal.Hand.ref_keep m' c Cert.ReferenceIdeal.main_arg3),
       (h c Cert.ReferenceIdeal.main_arg4).trans (Cert.ReferenceIdeal.Hand.ref_keep m' c Cert.ReferenceIdeal.main_arg4),
       (h c Cert.ReferenceIdeal.main_arg5).trans (Cert.ReferenceIdeal.Hand.ref_keep m' c Cert.ReferenceIdeal.main_arg5),
       (h c Cert.ReferenceIdeal.main_arg6).trans (Cert.ReferenceIdeal.Hand.ref_keep m' c Cert.ReferenceIdeal.main_arg6),
       (h c Cert.ReferenceIdeal.main_arg7).trans (Cert.ReferenceIdeal.Hand.ref_keep m' c Cert.ReferenceIdeal.main_arg7),
       (h c Cert.ReferenceIdeal.main_arg8).trans (Cert.ReferenceIdeal.Hand.ref_keep m' c Cert.ReferenceIdeal.main_arg8),
       (h c Cert.ReferenceIdeal.main_arg9).trans (Cert.ReferenceIdeal.Hand.ref_keep m' c Cert.ReferenceIdeal.main_arg9)⟩)
      (Cert.ReferenceIdeal.Hand.ref_run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
